-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S512x512 : Shape := ⟨2, ![512, 512]⟩
abbrev S_ : Shape := ⟨0, ![]⟩
abbrev S9 : Shape := ⟨1, ![9]⟩
abbrev S8 : Shape := ⟨1, ![8]⟩
abbrev S64x512 : Shape := ⟨2, ![64, 512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .local _ .vmem, ⟨0, _⟩ => ⟨S512x512, .f32⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 2 42 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v13 : BitVec 32 := Scalar.muli v2 c8_i32_5
  let v14 : BitVec 32 := Scalar.addi c0_i32 v13
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_6 : BitVec 32 := 4#32
  let v15 : BitVec 32 := Scalar.muli v9 c4_i32_6
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v17 : BitVec 32 := Scalar.muli v8 c1_i32_7
  let v18 : BitVec 32 := Scalar.addi v16 v17
  v18.toNat
def k0_dev2 (d0 : Dev nD) : Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_9 : BitVec 32 := 8#32
  let v19 : BitVec 32 := Scalar.muli v10 c8_i32_9
  let v20 : BitVec 32 := Scalar.addi c0_i32_10 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v21 : BitVec 32 := Scalar.muli v5 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v11 : BitVec 32 := Scalar.muli v2 c512_i32
  let c0_i32_13 : BitVec 32 := 0#32
  ![v11.toNat, 0]
def k0_dev3 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v67 : BitVec 32 := Scalar.muli v2 c8_i32_42
  let v68 : BitVec 32 := Scalar.addi c0_i32_43 v67
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_44 : BitVec 32 := 4#32
  let v69 : BitVec 32 := Scalar.muli v9 c4_i32_44
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v71 : BitVec 32 := Scalar.muli v8 c1_i32_45
  let v72 : BitVec 32 := Scalar.addi v70 v71
  v72.toNat
def k0_dev4 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v79 : BitVec 32 := Scalar.muli v2 c8_i32_52
  let v80 : BitVec 32 := Scalar.addi c0_i32_53 v79
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_54 : BitVec 32 := 4#32
  let v81 : BitVec 32 := Scalar.muli v9 c4_i32_54
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v83 : BitVec 32 := Scalar.muli v8 c1_i32_55
  let v84 : BitVec 32 := Scalar.addi v82 v83
  v84.toNat
def k0_dev5 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v91 : BitVec 32 := Scalar.muli v2 c8_i32_61
  let v92 : BitVec 32 := Scalar.addi c0_i32_62 v91
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_63 : BitVec 32 := 4#32
  let v93 : BitVec 32 := Scalar.muli v9 c4_i32_63
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v95 : BitVec 32 := Scalar.muli v8 c1_i32_64
  let v96 : BitVec 32 := Scalar.addi v94 v95
  v96.toNat
def k0_dev6 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_69 : BitVec 32 := 8#32
  let v103 : BitVec 32 := Scalar.muli v2 c8_i32_69
  let v104 : BitVec 32 := Scalar.addi c0_i32_70 v103
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_71 : BitVec 32 := 4#32
  let v105 : BitVec 32 := Scalar.muli v9 c4_i32_71
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v107 : BitVec 32 := Scalar.muli v8 c1_i32_72
  let v108 : BitVec 32 := Scalar.addi v106 v107
  v108.toNat
def k0_dev7 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v115 : BitVec 32 := Scalar.muli v2 c8_i32_78
  let v116 : BitVec 32 := Scalar.addi c0_i32_79 v115
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_80 : BitVec 32 := 4#32
  let v117 : BitVec 32 := Scalar.muli v9 c4_i32_80
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v119 : BitVec 32 := Scalar.muli v8 c1_i32_81
  let v120 : BitVec 32 := Scalar.addi v118 v119
  v120.toNat
def k0_dev8 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v127 : BitVec 32 := Scalar.muli v2 c8_i32_86
  let v128 : BitVec 32 := Scalar.addi c0_i32_87 v127
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_88 : BitVec 32 := 4#32
  let v129 : BitVec 32 := Scalar.muli v9 c4_i32_88
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v131 : BitVec 32 := Scalar.muli v8 c1_i32_89
  let v132 : BitVec 32 := Scalar.addi v130 v131
  v132.toNat
def k0_dev9 (d0 : Dev nD) : Nat :=
  let c0_i32_95 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_94 : BitVec 32 := 8#32
  let v139 : BitVec 32 := Scalar.muli v2 c8_i32_94
  let v140 : BitVec 32 := Scalar.addi c0_i32_95 v139
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_96 : BitVec 32 := 4#32
  let v141 : BitVec 32 := Scalar.muli v9 c4_i32_96
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v143 : BitVec 32 := Scalar.muli v8 c1_i32_97
  let v144 : BitVec 32 := Scalar.addi v142 v143
  v144.toNat
def k0_dev10 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v151 : BitVec 32 := Scalar.muli v2 c8_i32_102
  let v152 : BitVec 32 := Scalar.addi c0_i32_103 v151
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_104 : BitVec 32 := 4#32
  let v153 : BitVec 32 := Scalar.muli v9 c4_i32_104
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v155 : BitVec 32 := Scalar.muli v8 c1_i32_105
  let v156 : BitVec 32 := Scalar.addi v154 v155
  v156.toNat
def k0_dev11 (d0 : Dev nD) : Nat :=
  let c0_i32_130 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_129 : BitVec 32 := 8#32
  let v179 : BitVec 32 := Scalar.muli v10 c8_i32_129
  let v180 : BitVec 32 := Scalar.addi c0_i32_130 v179
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_131 : BitVec 32 := 4#32
  let v181 : BitVec 32 := Scalar.muli v5 c4_i32_131
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v183 : BitVec 32 := Scalar.muli v8 c1_i32_132
  let v184 : BitVec 32 := Scalar.addi v182 v183
  v184.toNat
def k0_dev12 (d0 : Dev nD) : Nat :=
  let c0_i32_156 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_155 : BitVec 32 := 8#32
  let v207 : BitVec 32 := Scalar.muli v10 c8_i32_155
  let v208 : BitVec 32 := Scalar.addi c0_i32_156 v207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_157 : BitVec 32 := 4#32
  let v209 : BitVec 32 := Scalar.muli v5 c4_i32_157
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v211 : BitVec 32 := Scalar.muli v8 c1_i32_158
  let v212 : BitVec 32 := Scalar.addi v210 v211
  v212.toNat
def k0_dev13 (d0 : Dev nD) : Nat :=
  let c0_i32_182 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_181 : BitVec 32 := 8#32
  let v235 : BitVec 32 := Scalar.muli v10 c8_i32_181
  let v236 : BitVec 32 := Scalar.addi c0_i32_182 v235
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_183 : BitVec 32 := 4#32
  let v237 : BitVec 32 := Scalar.muli v5 c4_i32_183
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v239 : BitVec 32 := Scalar.muli v8 c1_i32_184
  let v240 : BitVec 32 := Scalar.addi v238 v239
  v240.toNat
def k0_dev14 (d0 : Dev nD) : Nat :=
  let c0_i32_208 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_207 : BitVec 32 := 8#32
  let v263 : BitVec 32 := Scalar.muli v10 c8_i32_207
  let v264 : BitVec 32 := Scalar.addi c0_i32_208 v263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_209 : BitVec 32 := 4#32
  let v265 : BitVec 32 := Scalar.muli v5 c4_i32_209
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v267 : BitVec 32 := Scalar.muli v8 c1_i32_210
  let v268 : BitVec 32 := Scalar.addi v266 v267
  v268.toNat
def k0_dev15 (d0 : Dev nD) : Nat :=
  let c0_i32_234 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_233 : BitVec 32 := 8#32
  let v291 : BitVec 32 := Scalar.muli v10 c8_i32_233
  let v292 : BitVec 32 := Scalar.addi c0_i32_234 v291
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_235 : BitVec 32 := 4#32
  let v293 : BitVec 32 := Scalar.muli v5 c4_i32_235
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v295 : BitVec 32 := Scalar.muli v8 c1_i32_236
  let v296 : BitVec 32 := Scalar.addi v294 v295
  v296.toNat
def k0_dev16 (d0 : Dev nD) : Nat :=
  let c0_i32_260 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_259 : BitVec 32 := 8#32
  let v319 : BitVec 32 := Scalar.muli v10 c8_i32_259
  let v320 : BitVec 32 := Scalar.addi c0_i32_260 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_261 : BitVec 32 := 4#32
  let v321 : BitVec 32 := Scalar.muli v5 c4_i32_261
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_262 : BitVec 32 := 1#32
  let v323 : BitVec 32 := Scalar.muli v8 c1_i32_262
  let v324 : BitVec 32 := Scalar.addi v322 v323
  v324.toNat
def k0_dev17 (d0 : Dev nD) : Nat :=
  let c0_i32_286 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_285 : BitVec 32 := 8#32
  let v347 : BitVec 32 := Scalar.muli v10 c8_i32_285
  let v348 : BitVec 32 := Scalar.addi c0_i32_286 v347
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_287 : BitVec 32 := 4#32
  let v349 : BitVec 32 := Scalar.muli v5 c4_i32_287
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v351 : BitVec 32 := Scalar.muli v8 c1_i32_288
  let v352 : BitVec 32 := Scalar.addi v350 v351
  v352.toNat
def k0_dev18 (d0 : Dev nD) : Nat :=
  let c0_i32_312 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_311 : BitVec 32 := 8#32
  let v375 : BitVec 32 := Scalar.muli v10 c8_i32_311
  let v376 : BitVec 32 := Scalar.addi c0_i32_312 v375
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v377 : BitVec 32 := Scalar.muli v5 c4_i32_313
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v379 : BitVec 32 := Scalar.muli v8 c1_i32_314
  let v380 : BitVec 32 := Scalar.addi v378 v379
  v380.toNat
def k0_off2 (d0 : Dev nD) (c0_i32_333 : BitVec 32) : Fin 2 → Nat :=
  let c1_i32_321 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v390 : BitVec 32 := Scalar.subi c1_i32_321 v2
  let c512_i32_322 : BitVec 32 := 512#32
  let v391 : BitVec 32 := Scalar.muli v390 c512_i32_322
  let v402 : BitVec 32 := Scalar.addi v391 c0_i32_333
  let c0_i32_335 : BitVec 32 := 0#32
  ![v402.toNat, 0]

class Facts₀ : Prop where
  hamt_1 : (1#32 : BitVec 32).msb = false
  inb_S512x512_S64x512_0_0 : ∀ a, (![0, 0] : Fin 2 → Nat) a + S64x512.size a ≤ S512x512.size a
  h_S64x512 : 0 < S64x512.numel
  bitsLt_bf16_f32 : FTy.bits .bf16 < FTy.bits .f32
  shapeCasts_S64x512_S64x512 : S64x512.ShapeCasts S64x512
  packedbf16_S512x512_S64x512_0_0 : (Rect.unit (s := S512x512) ![0, 0] S64x512.size inb_S512x512_S64x512_0_0).PackedRows (EltTy.packing .bf16)
  inb_S512x512_S64x512_64_0 : ∀ a, (![64, 0] : Fin 2 → Nat) a + S64x512.size a ≤ S512x512.size a
  packedbf16_S512x512_S64x512_64_0 : (Rect.unit (s := S512x512) ![64, 0] S64x512.size inb_S512x512_S64x512_64_0).PackedRows (EltTy.packing .bf16)
  inb_S512x512_S64x512_128_0 : ∀ a, (![128, 0] : Fin 2 → Nat) a + S64x512.size a ≤ S512x512.size a
  packedbf16_S512x512_S64x512_128_0 : (Rect.unit (s := S512x512) ![128, 0] S64x512.size inb_S512x512_S64x512_128_0).PackedRows (EltTy.packing .bf16)
  inb_S512x512_S64x512_192_0 : ∀ a, (![192, 0] : Fin 2 → Nat) a + S64x512.size a ≤ S512x512.size a
  packedbf16_S512x512_S64x512_192_0 : (Rect.unit (s := S512x512) ![192, 0] S64x512.size inb_S512x512_S64x512_192_0).PackedRows (EltTy.packing .bf16)
  inb_S512x512_S64x512_256_0 : ∀ a, (![256, 0] : Fin 2 → Nat) a + S64x512.size a ≤ S512x512.size a
  packedbf16_S512x512_S64x512_256_0 : (Rect.unit (s := S512x512) ![256, 0] S64x512.size inb_S512x512_S64x512_256_0).PackedRows (EltTy.packing .bf16)
  inb_S512x512_S64x512_320_0 : ∀ a, (![320, 0] : Fin 2 → Nat) a + S64x512.size a ≤ S512x512.size a
  packedbf16_S512x512_S64x512_320_0 : (Rect.unit (s := S512x512) ![320, 0] S64x512.size inb_S512x512_S64x512_320_0).PackedRows (EltTy.packing .bf16)
  inb_S512x512_S64x512_384_0 : ∀ a, (![384, 0] : Fin 2 → Nat) a + S64x512.size a ≤ S512x512.size a
  packedbf16_S512x512_S64x512_384_0 : (Rect.unit (s := S512x512) ![384, 0] S64x512.size inb_S512x512_S64x512_384_0).PackedRows (EltTy.packing .bf16)
  inb_S512x512_S64x512_448_0 : ∀ a, (![448, 0] : Fin 2 → Nat) a + S64x512.size a ≤ S512x512.size a
  packedbf16_S512x512_S64x512_448_0 : (Rect.unit (s := S512x512) ![448, 0] S64x512.size inb_S512x512_S64x512_448_0).PackedRows (EltTy.packing .bf16)
  inb_S8_S1_0 : ∀ a, (![0] : Fin 1 → Nat) a + S1.size a ≤ S8.size a
  squeezes_S1_S_ : S1.Squeezes S_
  wordsbf16_S512x512_S64x512_0_0 : (Rect.unit (s := S512x512) ![0, 0] S64x512.size inb_S512x512_S64x512_0_0).WholeWords (EltTy.packing .bf16)
  inb_S8_S1_1 : ∀ a, (![1] : Fin 1 → Nat) a + S1.size a ≤ S8.size a
  wordsbf16_S512x512_S64x512_64_0 : (Rect.unit (s := S512x512) ![64, 0] S64x512.size inb_S512x512_S64x512_64_0).WholeWords (EltTy.packing .bf16)
  inb_S8_S1_2 : ∀ a, (![2] : Fin 1 → Nat) a + S1.size a ≤ S8.size a
  wordsbf16_S512x512_S64x512_128_0 : (Rect.unit (s := S512x512) ![128, 0] S64x512.size inb_S512x512_S64x512_128_0).WholeWords (EltTy.packing .bf16)
  inb_S8_S1_3 : ∀ a, (![3] : Fin 1 → Nat) a + S1.size a ≤ S8.size a
  wordsbf16_S512x512_S64x512_192_0 : (Rect.unit (s := S512x512) ![192, 0] S64x512.size inb_S512x512_S64x512_192_0).WholeWords (EltTy.packing .bf16)
  inb_S8_S1_4 : ∀ a, (![4] : Fin 1 → Nat) a + S1.size a ≤ S8.size a
  wordsbf16_S512x512_S64x512_256_0 : (Rect.unit (s := S512x512) ![256, 0] S64x512.size inb_S512x512_S64x512_256_0).WholeWords (EltTy.packing .bf16)
  inb_S8_S1_5 : ∀ a, (![5] : Fin 1 → Nat) a + S1.size a ≤ S8.size a
  wordsbf16_S512x512_S64x512_320_0 : (Rect.unit (s := S512x512) ![320, 0] S64x512.size inb_S512x512_S64x512_320_0).WholeWords (EltTy.packing .bf16)
  inb_S8_S1_6 : ∀ a, (![6] : Fin 1 → Nat) a + S1.size a ≤ S8.size a
  wordsbf16_S512x512_S64x512_384_0 : (Rect.unit (s := S512x512) ![384, 0] S64x512.size inb_S512x512_S64x512_384_0).WholeWords (EltTy.packing .bf16)
  inb_S8_S1_7 : ∀ a, (![7] : Fin 1 → Nat) a + S1.size a ≤ S8.size a
  wordsbf16_S512x512_S64x512_448_0 : (Rect.unit (s := S512x512) ![448, 0] S64x512.size inb_S512x512_S64x512_448_0).WholeWords (EltTy.packing .bf16)
  inb_S9_S1_8 : ∀ a, (![8] : Fin 1 → Nat) a + S1.size a ≤ S9.size a
  inb_S9_S1_0 : ∀ a, (![0] : Fin 1 → Nat) a + S1.size a ≤ S9.size a
  inb_S9_S1_1 : ∀ a, (![1] : Fin 1 → Nat) a + S1.size a ≤ S9.size a
  inb_S9_S1_2 : ∀ a, (![2] : Fin 1 → Nat) a + S1.size a ≤ S9.size a
  inb_S9_S1_3 : ∀ a, (![3] : Fin 1 → Nat) a + S1.size a ≤ S9.size a
  inb_S9_S1_4 : ∀ a, (![4] : Fin 1 → Nat) a + S1.size a ≤ S9.size a
  inb_S9_S1_5 : ∀ a, (![5] : Fin 1 → Nat) a + S1.size a ≤ S9.size a
  inb_S9_S1_6 : ∀ a, (![6] : Fin 1 → Nat) a + S1.size a ≤ S9.size a
  inb_S9_S1_7 : ∀ a, (![7] : Fin 1 → Nat) a + S1.size a ≤ S9.size a
  hcc0_scratch11 : 0 + S_.numel ≤ 2
  hcc0_scratch5 : 0 + S_.numel ≤ 42
  hcc0_scratch6 : 1 + S9.numel ≤ 42
  hcc0_scratch7 : 10 + S8.numel ≤ 42
  hcc0_scratch8 : 18 + S8.numel ≤ 42
  hcc0_scratch9 : 26 + S8.numel ≤ 42
  hcc0_scratch10 : 34 + S8.numel ≤ 42
  k0_dev1_lt : ∀ d0 : Dev nD, (k0_dev1 d0) < nD
  k0_dev2_lt : ∀ d0 : Dev nD, (k0_dev2 d0) < nD
  k0_off1_inb : ∀ d0 : Dev nD, ∀ a, (k0_off1 d0) a + S512x512.size a ≤ S1024x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off1_wordsbf16 : ∀ d0 : Dev nD, (Rect.unit (s := S1024x512) (k0_off1 d0) S512x512.size (k0_off1_inb d0)).WholeWords (EltTy.packing .bf16)
  k0_off2_inb : ∀ d0 : Dev nD, ∀ (r : Fin 8), ∀ a, (k0_off2 d0 (BitVec.ofNat 32 (64 * r.val))) a + S64x512.size a ≤ S1024x512.size a
  k0_off2_wordsbf16 : ∀ d0 : Dev nD, ∀ (r : Fin 8), (Rect.unit (s := S1024x512) (k0_off2 d0 (BitVec.ofNat 32 (64 * r.val))) S64x512.size (k0_off2_inb d0 r)).WholeWords (EltTy.packing .bf16)

variable [Facts₀]

abbrev cc0_scratch11 : Sems sig S_ := SemArray.consecutive 0 S_ hcc0_scratch11
abbrev cc0_scratch5 : DmaSems sig S_ := SemArray.consecutive 0 S_ hcc0_scratch5
abbrev cc0_scratch6 : DmaSems sig S9 := SemArray.consecutive 1 S9 hcc0_scratch6
abbrev cc0_scratch7 : DmaSems sig S8 := SemArray.consecutive 10 S8 hcc0_scratch7
abbrev cc0_scratch8 : DmaSems sig S8 := SemArray.consecutive 18 S8 hcc0_scratch8
abbrev cc0_scratch9 : DmaSems sig S8 := SemArray.consecutive 26 S8 hcc0_scratch9
abbrev cc0_scratch10 : DmaSems sig S8 := SemArray.consecutive 34 S8 hcc0_scratch10

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | .hbm, ⟨4, _⟩ => ⟨S1024x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S2048x512_S2x1024x512 : S2048x512.ShapeCasts S2x1024x512
  reducesTo_S2x1024x512_S1024x512_d0 : S2x1024x512.ReducesTo [0] S1024x512
  h_S_ : 0 < S_.numel
  bitsLt_bf16_f32 : FTy.bits .bf16 < FTy.bits .f32

variable [Facts₀]

class Facts : Prop extends Facts₀ where

variable [Facts]
-- ==== Proof.Shape.lean ====
import proofs.«900709_g7700000000000710_dist_ar_v7x_xyz2x2x4_y_m1024_n512_bf16_1_alg».proof.Proof.Gen.KernelIdeal.Skeleton
import proofs.«900709_g7700000000000710_dist_ar_v7x_xyz2x2x4_y_m1024_n512_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def yp (c : Dev nD) : Dev nD := ⟨k0_dev1 c, k0_dev1_lt c⟩

def xn (c : Dev nD) : Dev nD := ⟨k0_dev2 c, k0_dev2_lt c⟩

theorem yp_yp (c : Dev nD) : yp (yp c) = c := by revert c; decide +kernel
theorem xn_xn (c : Dev nD) : xn (xn c) = c := by revert c; decide +kernel

theorem yp_half (c : Dev nD) : (yp c).val / 8 = c.val / 8 := by revert c; decide +kernel
theorem xn_half (c : Dev nD) : (xn c).val / 8 = 1 - c.val / 8 := by revert c; decide +kernel
theorem yp_y (c : Dev nD) : (yp c).val / 4 % 2 = 1 - c.val / 4 % 2 := by revert c; decide +kernel

theorem dev1_eq (c : Dev nD) : (⟨k0_dev1 c, k0_dev1_lt c⟩ : Dev nD) = yp c := rfl
theorem dev2_eq (c : Dev nD) : (⟨k0_dev2 c, k0_dev2_lt c⟩ : Dev nD) = xn c := rfl
/-- Each device id computed for a y-copy has one closed form and each for an x-copy another; a computed id with the peer's value is the peer. -/
theorem yp_of {k : ℕ} (hk : k < nD) (c : Dev nD) (h : k = (8 * (c.val / 8) + (c.val % 4) + 4) - 4 * ((c.val / 4) % 2)) :
    (⟨k, hk⟩ : Dev nD) = yp c := Fin.ext (h.trans (k0_dev1_eq c).symm)
theorem xn_of {k : ℕ} (hk : k < nD) (c : Dev nD) (h : k = (4 * ((c.val / 4) % 2) + (c.val % 4) + 8) - 8 * (c.val / 8)) :
    (⟨k, hk⟩ : Dev nD) = xn c := Fin.ext (h.trans (k0_dev2_eq c).symm)

abbrev inM : Memref sig .tc .hbm S1024x512 .f32 := Memref.whole main_arg0
abbrev outM : Memref sig .tc .hbm S1024x512 .bf16 := Memref.whole main_v1

abbrev stgM : Memref sig .tc .vmem S512x512 .f32 := Memref.whole cc0_scratch0

abbrev sndM : Memref sig .tc .vmem S512x512 .bf16 := Memref.whole cc0_scratch1

abbrev yrcM : Memref sig .tc .vmem S512x512 .bf16 := Memref.whole cc0_scratch2

abbrev xrcM : Memref sig .tc .vmem S512x512 .bf16 := Memref.whole cc0_scratch3

abbrev sumM : Memref sig .tc .vmem S512x512 .bf16 := Memref.whole cc0_scratch4

theorem chunk_inb (i : Fin 8) : ∀ a, (![64 * i.val, 0] : Fin 2 → Nat) a + S64x512.size a ≤ S512x512.size a := by
  revert i; decide

abbrev chunk (i : Fin 8) : Rect S512x512 := Rect.unit (s := S512x512) ![64 * i.val, 0] S64x512.size (chunk_inb i)

abbrev oth (c : Dev nD) (i : Fin 8) : Rect S1024x512 :=
  Rect.unit (s := S1024x512) (k0_off2 c (BitVec.ofNat 32 (64 * i.val))) S64x512.size (k0_off2_inb c i)

abbrev own (c : Dev nD) : Rect S1024x512 := Rect.unit (s := S1024x512) (k0_off1 c) S512x512.size (k0_off1_inb c)

variable (m : (ℓ : Loc nD τ sig) → Buf (Elt F) ℓ)

def xin (c : Dev nD) : Buf (Elt F) ((c : Thread nD τ).loc main_arg0) := m ((c : Thread nD τ).loc main_arg0)

def out0 (c : Dev nD) : Buf (Elt F) ((c : Thread nD τ).loc main_v1) := m ((c : Thread nD τ).loc main_v1)

def staged (c : Dev nD) : Vec F S512x512 .f32 := ((inM.slice (own c) (fun _ => rfl)).view).read (Elt F) (xin m c)

def sent (c : Dev nD) : FVec F S512x512 .bf16 := truncf .bf16 (staged m c) bitsLt_bf16_f32

def sums (c : Dev nD) : FVec F S512x512 .bf16 := addf (sent m c) (sent m (yp c))

end Cert.KernelIdeal.AllReduce

end
-- ==== Proof.Cells.lean ====
import proofs.«900709_g7700000000000710_dist_ar_v7x_xyz2x2x4_y_m1024_n512_bf16_1_alg».proof.Proof.Shape

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem
abbrev synS : Sem sig := (cc0_scratch11 : Sems sig S_).sem
abbrev stgS : DmaSem sig := (cc0_scratch5 : DmaSems sig S_).sem

theorem sem1_inb (j : Fin 9) : ∀ a, (![j.val] : Fin 1 → Nat) a + S1.size a ≤ S9.size a := by revert j; decide
theorem sem8_inb (i : Fin 8) : ∀ a, (![i.val] : Fin 1 → Nat) a + S1.size a ≤ S8.size a := by revert i; decide
abbrev outS (j : Fin 9) : DmaSem sig := (((cc0_scratch6 : DmaSems sig S9).slice (Rect.unit (s := S9) ![j.val] S1.size (sem1_inb j))).squeeze S_ squeezes_S1_S_).sem
abbrev ysndS (i : Fin 8) : DmaSem sig := (((cc0_scratch7 : DmaSems sig S8).slice (Rect.unit (s := S8) ![i.val] S1.size (sem8_inb i))).squeeze S_ squeezes_S1_S_).sem
abbrev yrcvS (i : Fin 8) : DmaSem sig := (((cc0_scratch8 : DmaSems sig S8).slice (Rect.unit (s := S8) ![i.val] S1.size (sem8_inb i))).squeeze S_ squeezes_S1_S_).sem
abbrev xsndS (i : Fin 8) : DmaSem sig := (((cc0_scratch9 : DmaSems sig S8).slice (Rect.unit (s := S8) ![i.val] S1.size (sem8_inb i))).squeeze S_ squeezes_S1_S_).sem
abbrev xrcvS (i : Fin 8) : DmaSem sig := (((cc0_scratch10 : DmaSems sig S8).slice (Rect.unit (s := S8) ![i.val] S1.size (sem8_inb i))).squeeze S_ squeezes_S1_S_).sem

abbrev cell (c : Dev nD) (sm : SemLoc sig) : GSem nD τ sig := ((c : Thread nD τ), sm)

inductive Role
  | bar | syn | stg | out (j : Fin 9) | ysnd (i : Fin 8) | yrcv (i : Fin 8) | xsnd (i : Fin 8) | xrcv (i : Fin 8)
  deriving DecidableEq

def Role.sem : Role → SemLoc sig
  | .bar => .reg barS | .syn => .reg synS | .stg => .dma stgS | .out j => .dma (outS j)
  | .ysnd i => .dma (ysndS i) | .yrcv i => .dma (yrcvS i) | .xsnd i => .dma (xsndS i) | .xrcv i => .dma (xrcvS i)

def roleOf : SemLoc sig → Role
  | .reg s => if s.val = 1 then .bar else .syn
  | .dma s =>
    if h0 : s.val = 0 then .stg
    else if h1 : s.val < 10 then .out ⟨s.val - 1, by omega⟩
    else if h2 : s.val < 18 then .ysnd ⟨s.val - 10, by omega⟩
    else if h3 : s.val < 26 then .yrcv ⟨s.val - 18, by omega⟩
    else if h4 : s.val < 34 then .xsnd ⟨s.val - 26, by omega⟩
    else .xrcv ⟨(s.val - 34) % 8, Nat.mod_lt _ (by decide)⟩

abbrev N64 : ℕ := ((sndM.slice (chunk 0) (fun _ => rfl)) : Memref sig .tc .vmem S64x512 .bf16).view.dmaCredit
abbrev NStg : ℕ := (stgM : Memref sig .tc .vmem S512x512 .f32).view.dmaCredit
abbrev NSum : ℕ := ((outM.slice (own 0) (fun _ => rfl)) : Memref sig .tc .hbm S512x512 .bf16).view.dmaCredit

def Role.amount : Role → ℕ
  | .bar => 1 | .syn => 1 | .stg => NStg | .out j => if j.val = 8 then NSum else N64
  | .ysnd _ => N64 | .yrcv _ => N64 | .xsnd _ => N64 | .xrcv _ => N64

def Role.payer : Role → Dev nD → Dev nD
  | .bar, c => yp c | .syn, c => xn c | .yrcv _, c => yp c | .xrcv _, c => xn c | _, c => c

theorem roleOf_sem : ∀ R : Role, roleOf (Role.sem R) = R
  | .bar => rfl | .syn => rfl | .stg => rfl
  | .out j => by revert j; decide
  | .ysnd i => by revert i; decide
  | .yrcv i => by revert i; decide
  | .xsnd i => by revert i; decide
  | .xrcv i => by revert i; decide

theorem Role.amount_pos (R : Role) : 0 < R.amount := by
  cases R <;> simp only [Role.amount] <;> first | exact Nat.one_pos | exact View.dmaCredit_pos _ (by decide) | (split <;> exact View.dmaCredit_pos _ (by decide))

abbrev chunkM (M : Memref sig .tc .vmem S512x512 .bf16) (i : Fin 8) : Memref sig .tc .vmem S64x512 .bf16 := M.slice (chunk i) (fun _ => rfl)

abbrev othM (c : Dev nD) (j : Fin 8) : Memref sig .tc .hbm S64x512 .bf16 := outM.slice (oth c j) (fun _ => rfl)
abbrev ownOutM (c : Dev nD) : Memref sig .tc .hbm S512x512 .bf16 := outM.slice (own c) (fun _ => rfl)
abbrev ownInM (c : Dev nD) : Memref sig .tc .hbm S512x512 .f32 := inM.slice (own c) (fun _ => rfl)

def chunkAt (M : Memref sig .tc .vmem S512x512 .bf16) (d : Dev nD) (i : Fin 8) (q : PosShare TreeShare)
    (f : Buf (Elt F) ((chunkM M i).view.loc (d : Thread nD τ))) : sProp 𝕄 :=
  (chunkM M i).view.loc (d : Thread nD τ) ↦[(chunkM M i).view.set]{q} f

def wholeAt {sp : Space} {s : Shape} {e : EltTy} (M : Memref sig .tc sp s e) (d : Dev nD) (q : PosShare TreeShare)
    (f : Buf (Elt F) (M.view.loc (d : Thread nD τ))) : sProp 𝕄 :=
  M.view.loc (d : Thread nD τ) ↦[M.view.set]{q} f

def outAfter (c : Dev nD) (j : Fin 8) : Buf (Elt F) ((othM c j).view.loc (c : Thread nD τ)) :=
  (othM c j).view.write (Elt F) (out0 m c) ((chunkM xrcM j).view.read (Elt F) (sums m (xn c))) Finset.univ

def outOwn (c : Dev nD) : Buf (Elt F) ((ownOutM c).view.loc (c : Thread nD τ)) :=
  (ownOutM c).view.write (Elt F) (out0 m c) (sumM.view.read (Elt F) (sums m c)) Finset.univ

def pay : Role → Dev nD → sProp 𝕄
  | .bar, c => iprop(∃ f, wholeAt yrcM (yp c) fullShare f)
  | .syn, c => iprop(∃ f, wholeAt xrcM (xn c) fullShare f)
  | .stg, c => iprop(wholeAt stgM c fullShare (staged m c) ∗ wholeAt (ownInM c) c fullShare (xin m c))
  | .out j, c =>
    if h : j.val < 8 then iprop(wholeAt (othM c ⟨j.val, h⟩) c fullShare (outAfter m c ⟨j.val, h⟩) ∗ chunkAt xrcM c ⟨j.val, h⟩ fullShare (sums m (xn c)))
    else iprop(wholeAt (ownOutM c) c fullShare (outOwn m c) ∗ wholeAt sumM c fullShare.right (sums m c))
  | .ysnd i, c => chunkAt sndM c i fullShare.left (sent m c)
  | .yrcv i, c => chunkAt yrcM c i fullShare (sent m (yp c))
  | .xsnd i, c => chunkAt sumM c i fullShare.left (sums m c)
  | .xrcv i, c => chunkAt xrcM c i fullShare (sums m (xn c))

def sched : Rounds.Schedule (GSem nD τ sig) Unit 𝕄 where
  duties g r := if r = 0 ∧ g.1.2 = .tc then {()} else ∅
  unitless _ := False
  amount g _ _ := (roleOf g.2).amount
  payload g _ _ := pay m (roleOf g.2) g.1.1
  amount_pos g _ _ _ := Role.amount_pos _

section Tables
variable (c : Dev nD) (R : Role)

theorem duties_cell : (sched (F := F) m).duties (cell c R.sem) 0 = {()} := by dsimp only [sched]; exact if_pos ⟨rfl, rfl⟩
theorem duties_later (g : GSem nD τ sig) : ∀ r, 1 ≤ r → (sched (F := F) m).duties g r = ∅ :=
  fun r hr => by dsimp only [sched]; rw [if_neg fun h => by omega]
theorem amount_cell (d : Unit) : (sched (F := F) m).amount (cell c R.sem) 0 d = R.amount := by dsimp only [sched]; rw [roleOf_sem]
theorem expect_cell : (sched (F := F) m).expect (cell c R.sem) 0 = R.amount := by
  unfold Schedule.expect Schedule.amountOf; rw [duties_cell, Finset.sum_singleton, amount_cell]
theorem payload_cell (d : Unit) : (sched (F := F) m).payload (cell c R.sem) 0 d = pay m R c := by dsimp only [sched]; rw [roleOf_sem]
theorem rest_cell : bigSep ((sched (F := F) m).duties (cell c R.sem) 0 \ ∅) (fun d => (sched (F := F) m).payload (cell c R.sem) 0 d) = pay m R c := by
  rw [Finset.sdiff_empty, duties_cell, bigSep_singleton, payload_cell]
theorem mem_duties : () ∈ (sched (F := F) m).duties (cell c R.sem) 0 := by rw [duties_cell]; exact Finset.mem_singleton_self _

end Tables

end Cert.KernelIdeal.AllReduce

end
-- ==== Proof.Ledger.lean ====
import proofs.«900709_g7700000000000710_dist_ar_v7x_xyz2x2x4_y_m1024_n512_bf16_1_alg».proof.Proof.Cells

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def payRole (j : ℕ) : Role :=
  if j = 0 then .bar else if j = 1 then .syn
  else if j < 10 then .yrcv ⟨(j - 2) % 8, Nat.mod_lt _ (by decide)⟩ else .xrcv ⟨(j - 10) % 8, Nat.mod_lt _ (by decide)⟩

def payDev (c : Dev nD) (j : ℕ) : Dev nD := if j = 0 then yp c else if j = 1 then xn c else if j < 10 then yp c else xn c
def payT (c : Dev nD) (j : ℕ) : CellTallies nD τ sig Unit := tallyAt (cell (payDev c j) (payRole j).sem) () (payRole j).amount
def owe (c : Dev nD) : ℕ → CellTallies nD τ sig Unit
  | 0 => 0
  | n + 1 => owe c n + payT c (17 - n)

theorem owe_pos (c : Dev nD) : ∀ (n : ℕ) {g : GSem nD τ sig} {u : Unit}, 0 < owe c n g u → ∃ j, 17 - (n - 1) ≤ j ∧ j ≤ 17 ∧ 0 < n ∧ g = cell (payDev c j) (payRole j).sem
  | 0, g, u, h => by simp [owe] at h
  | n + 1, g, u, h => by
    rcases Pipeline.add_pos_cases h with h | h
    · obtain ⟨j, h1, h2, h3, h4⟩ := owe_pos c n h
      exact ⟨j, by omega, h2, Nat.succ_pos _, h4⟩
    · exact ⟨17 - n, by omega, by omega, Nat.succ_pos _, (Pipeline.tallyAt_pos h).1⟩

def Role.level : Role → ℕ
  | .bar => 1 | .syn => 2 | .yrcv _ => 3 | .xrcv _ => 4 | _ => 0

def L (g : GSem nD τ sig) : Finset Unit := if g.1.2 = .tc then {()} else ∅
def lv (g : GSem nD τ sig) (_ : Unit) : ℕ := (roleOf g.2).level

theorem L_of_ne (g : GSem nD τ sig) (h : g.1.2 ≠ .tc) : L g = ∅ := if_neg h
theorem L_tc (c : Dev nD) (sm : SemLoc sig) : L (cell c sm) = {()} := if_pos rfl
theorem lv_cell (c : Dev nD) (R : Role) : lv (cell c R.sem) () = R.level := by unfold lv; rw [roleOf_sem]

/-- No wait can block for ever: a device only waits on a cell of lower level than every cell it still owes a payment to. -/
theorem mayWait_owe (c : Dev nD) (R : Role) (n : ℕ) (h : ∀ j, j < 18 → 18 - n ≤ j → R.level < (payRole j).level) :
    (levAts L lv : sProp 𝕄) ⊢ MayWait (c : Thread nD τ) R.sem () (owe c n) :=
  Pipeline.mayWait_of_levAts (by rw [L_tc]; exact Finset.mem_singleton_self _) fun g i hg => by
    obtain ⟨j, h1, h2, h3, rfl⟩ := owe_pos c n hg
    refine ⟨by rw [L_tc]; exact Finset.mem_singleton_self _, ?_⟩
    rw [lv_cell, lv_cell]; exact h j (by omega) (by omega)

end Cert.KernelIdeal.AllReduce

end
-- ==== Proof.Atoms.lean ====
import proofs.«900709_g7700000000000710_dist_ar_v7x_xyz2x2x4_y_m1024_n512_bf16_1_alg».proof.Proof.Ledger

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What must hold before a program on device `c`'s thread for `Q` to hold of its result. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

def recs (K : Dev nD × SemLoc sig → ℕ) : sProp 𝕄 :=
  iprop((bigSep Finset.univ fun ds : Dev nD × SemLoc sig => cellInv ER (sched m) (K ds) (cell ds.1 ds.2))
    ∗ bigSep Finset.univ fun ds : Dev nD × SemLoc sig => reached ER (cell ds.1 ds.2) 0)

def pos (c : Dev nD) (R : Role) (n : ℕ) : sProp 𝕄 := atPos ER (cell c R.sem) n ∅ 0

def tok (d : Dev nD) (R : Role) : sProp 𝕄 := dutyTok ER (cell d R.sem) 0 ()

def crd (c : Dev nD) (R : Role) : sProp 𝕄 := cred (tallyAt (cell c R.sem) () R.amount)

end Cert.KernelIdeal.AllReduce

end
-- ==== Proof.Steps.lean ====
import proofs.«900709_g7700000000000710_dist_ar_v7x_xyz2x2x4_y_m1024_n512_bf16_1_alg».proof.Proof.Atoms

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

instance recs_persistent (K : Dev nD × SemLoc sig → ℕ) : BI.Persistent (recs m K) := by unfold recs; infer_instance

theorem inv_at' (K : Dev nD × SemLoc sig → ℕ) (ds : Dev nD × SemLoc sig) :
    (bigSep Finset.univ fun ds : Dev nD × SemLoc sig => (cellInv ER (sched m) (K ds) (cell ds.1 ds.2) : sProp 𝕄)) ⊢ cellInv ER (sched m) (K ds) (cell ds.1 ds.2) :=
  bigSep_elim (Finset.mem_univ ds)
theorem reached_at' (ds : Dev nD × SemLoc sig) :
    (bigSep Finset.univ fun ds : Dev nD × SemLoc sig => (reached ER (cell ds.1 ds.2) 0 : sProp 𝕄)) ⊢ reached ER (cell ds.1 ds.2) 0 :=
  bigSep_elim (Finset.mem_univ ds)
theorem inv_at (K : Dev nD × SemLoc sig → ℕ) (d : Dev nD) (R : Role) : recs m K ⊢ cellInv ER (sched m) (K (d, R.sem)) (cell d R.sem) := by
  unfold recs; iintro ⟨H, -⟩; iapply (inv_at' m K (d, R.sem)) $$ H
theorem reached_at (K : Dev nD × SemLoc sig → ℕ) (d : Dev nD) (R : Role) : recs m K ⊢ reached ER (cell d R.sem) 0 := by
  unfold recs; iintro ⟨-, H⟩; iapply (reached_at' (F := F) (d, R.sem)) $$ H

theorem landed_y (d : Dev nD) (i : Fin 8) (fd : Buf (Elt F) ((chunkM yrcM i).view.loc (d : Thread nD τ))) (fs : FVec F S512x512 .bf16) :
    ((chunkM yrcM i).view.loc (d : Thread nD τ) ↦[(chunkM yrcM i).view.set]{fullShare}
        ((chunkM yrcM i).view.write (Elt F) fd ((chunkM sndM i).view.read (Elt F) fs) Finset.univ) : sProp 𝕄)
      ⊢ chunkAt yrcM d i fullShare fs := by
  unfold chunkAt
  refine Entails.of_eq (pointsTo_congr fun j hj => ?_)
  obtain ⟨y, rfl⟩ := View.exists_emb_of_mem_set _ hj
  rw [View.write_emb_of_mem _ _ (Finset.mem_univ y)]
  rfl

theorem landed_x (d : Dev nD) (i : Fin 8) (fd : Buf (Elt F) ((chunkM xrcM i).view.loc (d : Thread nD τ))) (fs : FVec F S512x512 .bf16) :
    ((chunkM xrcM i).view.loc (d : Thread nD τ) ↦[(chunkM xrcM i).view.set]{fullShare}
        ((chunkM xrcM i).view.write (Elt F) fd ((chunkM sumM i).view.read (Elt F) fs) Finset.univ) : sProp 𝕄)
      ⊢ chunkAt xrcM d i fullShare fs := by
  unfold chunkAt
  refine Entails.of_eq (pointsTo_congr fun j hj => ?_)
  obtain ⟨y, rfl⟩ := View.exists_emb_of_mem_set _ hj
  rw [View.write_emb_of_mem _ _ (Finset.mem_univ y)]
  rfl

section Rules
variable (K : Dev nD × SemLoc sig → ℕ)

theorem step_sendX (c n : Dev nD) (hn : n = xn c) (i : Fin 8)
    {hsc : ((chunkM xrcM i : Memref sig (Dev.tc n : Thread nD τ).2.kind .vmem S64x512 .bf16)).view.ref.isScScratch = false}
    {hsrc : (chunkM sumM i).view.WordExact} {hdst : (chunkM xrcM i).view.WordExact}
    {hsem : DmaTarget.Typed .vmem (.dma (xrcvS i)) (.remote (Dev.tc n : Thread nD τ) (chunkM xrcM i) (.dma (xsndS i)) hsc)}
    {α : Type} {Q : α → sProp 𝕄} {k : PUnit → Prog (TpuEff nD τ sig (Elt F) Λ₀ .tc) α}
    (fd : Buf (Elt F) ((chunkM xrcM i).view.loc (xn c : Thread nD τ))) (W : Waits sig Unit)
    {O₀ : CellTallies nD τ sig Unit} (O : CellTallies nD τ sig Unit) (hO : O₀ = O + tallyAt (cell (xn c) (Role.xrcv i).sem) () N64) :
    iprop(recs m K ∗ chunkAt sumM c i fullShare.left (sums m c) ∗ chunkAt xrcM (xn c) i fullShare fd
        ∗ owes (c : Thread nD τ) O₀ W ∗ tok c (.xsnd i) ∗ tok (xn c) (.xrcv i))
      ⊢ iprop(((crd c (.xsnd i) ∗ owes (c : Thread nD τ) O W) -∗ WP c (k ⟨⟩) Q)
          -∗ WP c
              (.op (.enqueueDma (chunkM sumM i) (.remote (Dev.tc n : Thread nD τ) (chunkM xrcM i) (.dma (xsndS i)) hsc) (.dma (xrcvS i)) hsrc hdst hsem) k) Q) := by
  subst hn
  iintro ⟨#Hrec, Hsrc, Hdst, HO, Ht1, Ht2⟩
  ihave #HI1 := (inv_at m K c (.xsnd i)) $$ Hrec
  ihave #HI2 := (inv_at m K (xn c) (.xrcv i)) $$ Hrec
  ihave #HR1 := (reached_at m K c (.xsnd i)) $$ Hrec
  ihave #HR2 := (reached_at m K (xn c) (.xrcv i)) $$ Hrec
  unfold chunkAt tok crd
  iapply (Rounds.wp_send_pointsTo 𝒱₀ ER (sched m) (c : Thread nD τ) none (κ₁ := K (c, (Role.xsnd i).sem)) (κ₂ := K (xn c, (Role.xrcv i).sem))
      (r₁ := 0) (r₂ := 0) (d₁ := ()) (d₂ := ()) (fd := fd)
      (mem_duties m c (.xsnd i)) (mem_duties m (xn c) (.xrcv i))
      () () N64 rfl (amount_cell m c (.xsnd i) ()) (amount_cell m (xn c) (.xrcv i) ()) O hO (W := W)
      (by rw [payload_cell]; exact BI.Entails.refl _)
      (by rw [payload_cell]; show _ ⊢ chunkAt xrcM (xn c) i fullShare (sums m (xn (xn c))); rw [xn_xn]; exact landed_x (xn c) i fd (sums m c)))
    $$ [Hsrc Hdst HO Ht1 Ht2]
  iframe # ∗

theorem step_sendY (c n : Dev nD) (hn : n = yp c) (i : Fin 8)
    {hsc : ((chunkM yrcM i : Memref sig (Dev.tc n : Thread nD τ).2.kind .vmem S64x512 .bf16)).view.ref.isScScratch = false}
    {hsrc : (chunkM sndM i).view.WordExact} {hdst : (chunkM yrcM i).view.WordExact}
    {hsem : DmaTarget.Typed .vmem (.dma (yrcvS i)) (.remote (Dev.tc n : Thread nD τ) (chunkM yrcM i) (.dma (ysndS i)) hsc)}
    {α : Type} {Q : α → sProp 𝕄} {k : PUnit → Prog (TpuEff nD τ sig (Elt F) Λ₀ .tc) α}
    (fd : Buf (Elt F) ((chunkM yrcM i).view.loc (yp c : Thread nD τ))) (W : Waits sig Unit)
    {O₀ : CellTallies nD τ sig Unit} (O : CellTallies nD τ sig Unit) (hO : O₀ = O + tallyAt (cell (yp c) (Role.yrcv i).sem) () N64) :
    iprop(recs m K ∗ chunkAt sndM c i fullShare.left (sent m c) ∗ chunkAt yrcM (yp c) i fullShare fd
        ∗ owes (c : Thread nD τ) O₀ W ∗ tok c (.ysnd i) ∗ tok (yp c) (.yrcv i))
      ⊢ iprop(((crd c (.ysnd i) ∗ owes (c : Thread nD τ) O W) -∗ WP c (k ⟨⟩) Q)
          -∗ WP c
              (.op (.enqueueDma (chunkM sndM i) (.remote (Dev.tc n : Thread nD τ) (chunkM yrcM i) (.dma (ysndS i)) hsc) (.dma (yrcvS i)) hsrc hdst hsem) k) Q) := by
  subst hn
  iintro ⟨#Hrec, Hsrc, Hdst, HO, Ht1, Ht2⟩
  ihave #HI1 := (inv_at m K c (.ysnd i)) $$ Hrec
  ihave #HI2 := (inv_at m K (yp c) (.yrcv i)) $$ Hrec
  ihave #HR1 := (reached_at m K c (.ysnd i)) $$ Hrec
  ihave #HR2 := (reached_at m K (yp c) (.yrcv i)) $$ Hrec
  unfold chunkAt tok crd
  iapply (Rounds.wp_send_pointsTo 𝒱₀ ER (sched m) (c : Thread nD τ) none (κ₁ := K (c, (Role.ysnd i).sem)) (κ₂ := K (yp c, (Role.yrcv i).sem))
      (r₁ := 0) (r₂ := 0) (d₁ := ()) (d₂ := ()) (fd := fd)
      (mem_duties m c (.ysnd i)) (mem_duties m (yp c) (.yrcv i))
      () () N64 rfl (amount_cell m c (.ysnd i) ()) (amount_cell m (yp c) (.yrcv i) ()) O hO (W := W)
      (by rw [payload_cell]; exact BI.Entails.refl _)
      (by rw [payload_cell]; show _ ⊢ chunkAt yrcM (yp c) i fullShare (sent m (yp (yp c))); rw [yp_yp]; exact landed_y (yp c) i fd (sent m c)))
    $$ [Hsrc Hdst HO Ht1 Ht2]
  iframe # ∗

theorem step_wait (c : Dev nD) (R : Role) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ R.sem R.amount K')
    {α : Type} {Q : α → sProp 𝕄} {k : PUnit → Prog (TpuEff nD τ sig (Elt F) Λ₀ .tc) α}
    (O : CellTallies nD τ sig Unit) (W : Waits sig Unit) :
    iprop(recs m K ∗ crd c R ∗ owes (c : Thread nD τ) O W ∗ MayWait (c : Thread nD τ) R.sem () O ∗ pos c R 0)
      ⊢ iprop(((owes (c : Thread nD τ) O (insert (R.sem, ()) W) ∗ pos c R 1 ∗ pay m R c) -∗ WP c (k ⟨⟩) Q)
          -∗ WP c (.op w k) Q) := by
  iintro ⟨#Hrec, Hc, HO, Hmw, Hat⟩ Hk
  ihave #HI := (inv_at m K c R) $$ Hrec
  unfold crd pos
  iapply (Rounds.wp_wait_rest_token 𝒱₀ ER (sched m) (c : Thread nD τ) none (κ := K (c, R.sem)) hw (Set.mem_univ _) () (O := O) (W := W) (R := 0) (m := 0) (T := ∅)
      (by rw [Nat.zero_add, expect_cell])) $$ [Hc HO Hmw Hat]
  · iframe # ∗
  iintro ⟨HO, Hat, -, Hpay⟩
  iapply Hk
  iframe
  iapply (Entails.of_eq (rest_cell m c R)) $$ Hpay

theorem step_load (B : Memref sig .tc .vmem S512x512 .bf16) (c : Dev nD) (i : Fin 8) (q : PosShare TreeShare)
    (f : Buf (Elt F) ((chunkM B i).view.loc (c : Thread nD τ))) {hl : B.view.LoadsAt (chunk i).toLoadRect}
    {α : Type} {Q : α → sProp 𝕄} {k : ((chunk i).toLoadRect.shape.Idx → Elt F .bf16) → Prog (TpuEff nD τ sig (Elt F) Λ₀ .tc) α} :
    chunkAt B c i q f
      ⊢ iprop((chunkAt B c i q f -∗ WP c (k (B.view.readAt (Elt F) (chunk i).toLoadRect f)) Q)
          -∗ WP c (.op (.load B (chunk i).toLoadRect hl) k) Q) := by
  unfold chunkAt
  exact wp_load 𝒱₀ (c : Thread nD τ) none Set.univ (m := B)
    (show B.view.setOn (chunk i).set ⊆ (B.view.slice (chunk i)).set from (View.set_slice B.view (chunk i)).ge)

theorem step_store (B : Memref sig .tc .vmem S512x512 .bf16) (c : Dev nD) (i : Fin 8)
    (f : Buf (Elt F) ((chunkM B i).view.loc (c : Thread nD τ))) (w : (chunk i).shape.Idx → Elt F .bf16)
    {hx : (B.access (chunk i)).Stores Finset.univ} {hm : (Finset.univ : Finset (chunk i).shape.Idx) = Finset.univ ∨ ∀ a, (chunk i).stride a = 1}
    {α : Type} {Q : α → sProp 𝕄} {k : PUnit → Prog (TpuEff nD τ sig (Elt F) Λ₀ .tc) α} :
    chunkAt B c i fullShare f
      ⊢ iprop((chunkAt B c i fullShare ((B.access (chunk i)).write (Elt F) f w Finset.univ) -∗ WP c (k ⟨⟩) Q)
          -∗ WP c (.op (.store B (chunk i) w Finset.univ hx hm) k) Q) := by
  unfold chunkAt
  exact wp_store 𝒱₀ (c : Thread nD τ) none Set.univ (m := B) (r := chunk i) (Mk := Finset.univ) subset_rfl

end Rules

end Cert.KernelIdeal.AllReduce

end
-- ==== Proof.Result.lean ====
import proofs.«900709_g7700000000000710_dist_ar_v7x_xyz2x2x4_y_m1024_n512_bf16_1_alg».proof.Proof.Cells
import Idealize.ShloMosaic.Lib.ValueIdx

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

def lo (j : S1024x512.Idx) : S512x512.Idx := ValueIdx.ix2 (⟨(j 0).val % 512, Nat.mod_lt _ (by decide)⟩ : Fin 512) (⟨(j 1).val, (j 1).isLt⟩ : Fin 512)

def res (c : Dev nD) : Buf (Elt F) ((c : Thread nD τ).loc main_v1) :=
  show Vec F S1024x512 .bf16 from fun j => if (j 0).val / 512 = c.val / 8 then sums m c (lo j) else sums m (xn c) (lo j)

theorem off1_0 (c : Dev nD) : k0_off1 c 0 = 512 * (c.val / 8) := by rw [k0_off1_eq]; rfl
theorem off1_1 (c : Dev nD) : k0_off1 c 1 = 0 := by rw [k0_off1_eq]; rfl
theorem off2_0 (c : Dev nD) (j : Fin 8) : k0_off2 c (BitVec.ofNat 32 (64 * j.val)) 0 = (64 * j.val + 512) - 512 * (c.val / 8) := by
  rw [k0_off2_eq]; rfl
theorem off2_1 (c : Dev nD) (j : Fin 8) : k0_off2 c (BitVec.ofNat 32 (64 * j.val)) 1 = 0 := by rw [k0_off2_eq]; rfl
theorem half_le (c : Dev nD) : c.val / 8 ≤ 1 := by have : c.val < 16 := c.isLt; omega

theorem mem_own (c : Dev nD) (x : S1024x512.Idx) : x ∈ (own c).set ↔ (x 0).val / 512 = c.val / 8 := by
  rw [Rect.mem_set_unit, Fin.forall_fin_two, off1_0, off1_1]
  have h0 := ValueIdx.idx2_lt0 x
  have h1 := ValueIdx.idx2_lt1 x
  have hc := half_le c
  have s0 : S512x512.size 0 = 512 := rfl
  have s1 : S512x512.size 1 = 512 := rfl
  rw [s0, s1]
  constructor
  · rintro ⟨⟨a, b⟩, -⟩; omega
  · intro h; refine ⟨⟨?_, ?_⟩, Nat.zero_le _, ?_⟩ <;> omega

theorem mem_oth (c : Dev nD) (j : Fin 8) (x : S1024x512.Idx) :
    x ∈ (oth c j).set ↔ (x 0).val / 512 ≠ c.val / 8 ∧ (x 0).val % 512 / 64 = j.val := by
  rw [Rect.mem_set_unit, Fin.forall_fin_two, off2_0, off2_1]
  have h0 := ValueIdx.idx2_lt0 x
  have h1 := ValueIdx.idx2_lt1 x
  have hc := half_le c
  have hj := j.isLt
  have s0 : S64x512.size 0 = 64 := rfl
  have s1 : S64x512.size 1 = 512 := rfl
  rw [s0, s1]
  constructor
  · rintro ⟨⟨a, b⟩, -⟩; omega
  · rintro ⟨h, h'⟩; refine ⟨⟨?_, ?_⟩, Nat.zero_le _, ?_⟩ <;> omega

theorem set_ownOut (c : Dev nD) : (ownOutM c).view.set = (own c).set := View.set_slice_whole _ _
theorem set_oth (c : Dev nD) (j : Fin 8) : (othM c j).view.set = (oth c j).set := View.set_slice_whole _ _

theorem own_emb (c : Dev nD) (y : S512x512.Idx) :
    (((own c).emb y 0 : ℕ) = 512 * (c.val / 8) + (y 0).val) ∧ (((own c).emb y 1 : ℕ) = (y 1).val) := by
  constructor
  · show k0_off1 c 0 + 1 * (y 0).val = _; rw [off1_0]; omega
  · show k0_off1 c 1 + 1 * (y 1).val = _; rw [off1_1]; omega
theorem oth_emb (c : Dev nD) (j : Fin 8) (y : S64x512.Idx) :
    (((oth c j).emb y 0 : ℕ) = (64 * j.val + 512) - 512 * (c.val / 8) + (y 0).val) ∧ (((oth c j).emb y 1 : ℕ) = (y 1).val) := by
  constructor
  · show k0_off2 c (BitVec.ofNat 32 (64 * j.val)) 0 + 1 * (y 0).val = _; rw [off2_0]; omega
  · show k0_off2 c (BitVec.ofNat 32 (64 * j.val)) 1 + 1 * (y 1).val = _; rw [off2_1]; omega
theorem chunk_emb (j : Fin 8) (y : S64x512.Idx) :
    (((chunk j).emb y 0 : ℕ) = 64 * j.val + (y 0).val) ∧ (((chunk j).emb y 1 : ℕ) = (y 1).val) := by
  constructor
  · show 64 * j.val + 1 * (y 0).val = _; omega
  · show 0 + 1 * (y 1).val = _; omega

theorem res_own (c : Dev nD) : ∀ x ∈ (ownOutM c).view.set, outOwn m c x = res m c x := by
  intro x hx
  obtain ⟨y, rfl⟩ := View.exists_emb_of_mem_set _ hx
  unfold outOwn
  rw [View.write_emb_of_mem _ _ (Finset.mem_univ y)]
  obtain ⟨e0, e1⟩ := own_emb c y
  have h0 := ValueIdx.idx2_lt0 y
  have hlo : lo ((own c).emb y) = y := by
    funext a
    match a with
    | ⟨0, _⟩ => apply Fin.ext; show ((own c).emb y 0 : ℕ) % 512 = (y 0).val; rw [e0]; omega
    | ⟨1, _⟩ => apply Fin.ext; show ((own c).emb y 1 : ℕ) = (y 1).val; exact e1
  have hrow : ((own c).emb y 0 : ℕ) / 512 = c.val / 8 := by rw [e0]; omega
  show _ = (if ((own c).emb y 0 : ℕ) / 512 = c.val / 8 then sums m c (lo ((own c).emb y)) else sums m (xn c) (lo ((own c).emb y)))
  rw [if_pos hrow, hlo]
  rfl

theorem res_oth (c : Dev nD) (j : Fin 8) : ∀ x ∈ (othM c j).view.set, outAfter m c j x = res m c x := by
  intro x hx
  obtain ⟨y, rfl⟩ := View.exists_emb_of_mem_set _ hx
  unfold outAfter
  rw [View.write_emb_of_mem _ _ (Finset.mem_univ y)]
  obtain ⟨e0, e1⟩ := oth_emb c j y
  obtain ⟨k0, k1⟩ := chunk_emb j y
  have h0 := ValueIdx.idx2_lt0 y
  have hc := half_le c
  have hj := j.isLt
  have hlo : lo ((oth c j).emb y) = (chunk j).emb y := by
    funext a
    match a with
    | ⟨0, _⟩ => apply Fin.ext; show ((oth c j).emb y 0 : ℕ) % 512 = ((chunk j).emb y 0 : ℕ); rw [e0, k0]; omega
    | ⟨1, _⟩ => apply Fin.ext; show ((oth c j).emb y 1 : ℕ) = ((chunk j).emb y 1 : ℕ); rw [e1, k1]
  have hrow : ¬ ((oth c j).emb y 0 : ℕ) / 512 = c.val / 8 := by rw [e0]; omega
  show _ = (if ((oth c j).emb y 0 : ℕ) / 512 = c.val / 8 then sums m c (lo ((oth c j).emb y)) else sums m (xn c) (lo ((oth c j).emb y)))
  rw [if_neg hrow, hlo]
  rfl

theorem out_cover (c : Dev nD) :
    (Finset.univ : Finset (Idx ((c : Thread nD τ).loc main_v1))) = (ownOutM c).view.set ∪ Finset.univ.biUnion fun j : Fin 8 => (othM c j).view.set := by
  refine (Finset.eq_univ_iff_forall.mpr fun x => ?_).symm
  refine Finset.mem_union.mpr ?_
  by_cases h : ((x : S1024x512.Idx) 0).val / 512 = c.val / 8
  · refine Or.inl ?_
    rw [set_ownOut]
    exact (mem_own c x).mpr h
  · have hj : ((x : S1024x512.Idx) 0).val % 512 / 64 < 8 := by omega
    refine Or.inr (Finset.mem_biUnion.mpr ⟨⟨_, hj⟩, Finset.mem_univ _, ?_⟩)
    rw [set_oth]
    exact (mem_oth c ⟨_, hj⟩ x).mpr ⟨h, rfl⟩
theorem out_disjoint_own (c : Dev nD) (j : Fin 8) : Disjoint ((ownOutM c).view.set) ((othM c j).view.set) := by
  rw [set_ownOut, set_oth]
  refine Finset.disjoint_left.mpr fun x h1 h2 => ?_
  exact ((mem_oth c j x).mp h2).1 ((mem_own c x).mp h1)
theorem out_disjoint_oth (c : Dev nD) (i j : Fin 8) (h : i ≠ j) : Disjoint ((othM c i).view.set) ((othM c j).view.set) := by
  rw [set_oth, set_oth]
  refine Finset.disjoint_left.mpr fun x h1 h2 => ?_
  exact h (Fin.ext (((mem_oth c i x).mp h1).2.symm.trans ((mem_oth c j x).mp h2).2))

/-- info: 'Cert.KernelIdeal.AllReduce.res_own' depends on axioms: [propext, Classical.choice, Quot.sound] -/
#guard_msgs in #print axioms res_own
/-- info: 'Cert.KernelIdeal.AllReduce.res_oth' depends on axioms: [propext, Classical.choice, Quot.sound] -/
#guard_msgs in #print axioms res_oth
/-- info: 'Cert.KernelIdeal.AllReduce.out_cover' depends on axioms: [propext, Classical.choice, Quot.sound] -/
#guard_msgs in #print axioms out_cover

end Cert.KernelIdeal.AllReduce

end
-- ==== Proof.State.lean ====
import proofs.«900709_g7700000000000710_dist_ar_v7x_xyz2x2x4_y_m1024_n512_bf16_1_alg».proof.Proof.Steps
import proofs.«900709_g7700000000000710_dist_ar_v7x_xyz2x2x4_y_m1024_n512_bf16_1_alg».proof.Proof.Result

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

def S (i : Fin 8) (q : PosShare TreeShare) : sProp 𝕄 := chunkAt sndM c i q (sent m c)
def S0 (i : Fin 8) : sProp 𝕄 := iprop(∃ f, chunkAt sndM c i fullShare f)

def Y (i : Fin 8) : sProp 𝕄 := chunkAt yrcM c i fullShare (sent m (yp c))

def M (i : Fin 8) (q : PosShare TreeShare) : sProp 𝕄 := chunkAt sumM c i q (sums m c)
def M0 (i : Fin 8) : sProp 𝕄 := iprop(∃ f, chunkAt sumM c i fullShare f)

def X (i : Fin 8) : sProp 𝕄 := chunkAt xrcM c i fullShare (sums m (xn c))

def Ye (i : Fin 8) : sProp 𝕄 := iprop(∃ f, chunkAt yrcM (yp c) i fullShare f)
def Xe (i : Fin 8) : sProp 𝕄 := iprop(∃ f, chunkAt xrcM (xn c) i fullShare f)

def Stg : sProp 𝕄 := wholeAt stgM c fullShare (staged m c)

def InOwn : sProp 𝕄 := wholeAt (ownInM c) c fullShare (xin m c)
def OutOwn0 : sProp 𝕄 := wholeAt (ownOutM c) c fullShare (out0 m c)
def OutJ0 (j : Fin 8) : sProp 𝕄 := wholeAt (othM c j) c fullShare (out0 m c)
def OutOwn1 : sProp 𝕄 := wholeAt (ownOutM c) c fullShare (outOwn m c)
def OutJ1 (j : Fin 8) : sProp 𝕄 := wholeAt (othM c j) c fullShare (outAfter m c j)

def owesN (n : ℕ) : sProp 𝕄 := iprop(∃ W, owes (c : Thread nD τ) (owe c n) W)

def all8 (Φ : Fin 8 → sProp 𝕄) : sProp 𝕄 := iprop(Φ 0 ∗ Φ 1 ∗ Φ 2 ∗ Φ 3 ∗ Φ 4 ∗ Φ 5 ∗ Φ 6 ∗ Φ 7)

def all9 (Φ : Fin 9 → sProp 𝕄) : sProp 𝕄 := iprop(Φ 0 ∗ Φ 1 ∗ Φ 2 ∗ Φ 3 ∗ Φ 4 ∗ Φ 5 ∗ Φ 6 ∗ Φ 7 ∗ Φ 8)

def Wt (R : Role) : sProp 𝕄 := iprop(crd c R ∗ pos c R 0)
def Wd (R : Role) : sProp 𝕄 := iprop(pos c R 1 ∗ pay m R c)

def P1 : sProp 𝕄 := iprop(owesN c 18 ∗ tok (yp c) .bar ∗ tok (xn c) .syn ∗ (∃ f, wholeAt yrcM c fullShare f) ∗ (∃ f, wholeAt xrcM c fullShare f)
  ∗ InOwn m c ∗ (∃ f, wholeAt stgM c fullShare f) ∗ tok c .stg ∗ pos c .stg 0 ∗ S0 c 0)
def Q1 : sProp 𝕄 := iprop(owesN c 16 ∗ Stg m c ∗ InOwn m c ∗ pos c .stg 1 ∗ S0 c 0)

def P2 : sProp 𝕄 := iprop(Stg m c ∗ S0 c 0 ∗ S0 c 1 ∗ S0 c 2 ∗ S0 c 3 ∗ S0 c 4 ∗ S0 c 5 ∗ S0 c 6)
def Q2 : sProp 𝕄 := iprop(Stg m c ∗ S m c 0 fullShare ∗ S m c 1 fullShare ∗ S m c 2 fullShare ∗ S m c 3 fullShare ∗ S m c 4 fullShare ∗ S m c 5 fullShare ∗ S0 c 6)

def P3 : sProp 𝕄 := iprop(Stg m c ∗ S0 c 6 ∗ S0 c 7 ∗ S m c 0 fullShare ∗ Wt c .bar ∗ owesN c 16 ∗ tok c (.ysnd 0) ∗ tok (yp c) (.yrcv 0))
def Q3 : sProp 𝕄 := iprop(Stg m c ∗ S m c 6 fullShare ∗ S m c 7 fullShare ∗ S m c 0 fullShare.right ∗ pos c .bar 1
  ∗ (Ye c 1 ∗ Ye c 2 ∗ Ye c 3 ∗ Ye c 4 ∗ Ye c 5 ∗ Ye c 6 ∗ Ye c 7) ∗ crd c (.ysnd 0) ∗ owesN c 15)

def Psy (i : Fin 8) : sProp 𝕄 := iprop(S m c i fullShare ∗ Ye c i ∗ tok c (.ysnd i) ∗ tok (yp c) (.yrcv i))
def Qsy (i : Fin 8) : sProp 𝕄 := iprop(S m c i fullShare.right ∗ crd c (.ysnd i))

def P4 : sProp 𝕄 := iprop(owesN c 15 ∗ Psy m c 1 ∗ Psy m c 2 ∗ Psy m c 3)
def Q4 : sProp 𝕄 := iprop(owesN c 12 ∗ Qsy m c 1 ∗ Qsy m c 2 ∗ Qsy m c 3)
def P5 : sProp 𝕄 := iprop(owesN c 12 ∗ Psy m c 4 ∗ Psy m c 5 ∗ Psy m c 6)
def Q5 : sProp 𝕄 := iprop(owesN c 9 ∗ Qsy m c 4 ∗ Qsy m c 5 ∗ Qsy m c 6)

def Pad (j : Fin 8) : sProp 𝕄 := iprop(Wt c (.yrcv j) ∗ S m c j fullShare.right ∗ M0 c j)
def Qad (j : Fin 8) : sProp 𝕄 := iprop(pos c (.yrcv j) 1 ∗ Y m c j ∗ S m c j fullShare.right ∗ M m c j fullShare)

def P6 : sProp 𝕄 := iprop(owesN c 9 ∗ Psy m c 7 ∗ Wt c .syn ∗ Pad m c 0)
def Q6 : sProp 𝕄 := iprop(owesN c 8 ∗ Qsy m c 7 ∗ pos c .syn 1 ∗ all8 (Xe c) ∗ Qad m c 0)

def Psx (i : Fin 8) : sProp 𝕄 := iprop(M m c i fullShare ∗ Xe c i ∗ tok c (.xsnd i) ∗ tok (xn c) (.xrcv i))
def Qsx (i : Fin 8) : sProp 𝕄 := iprop(M m c i fullShare.right ∗ crd c (.xsnd i))

def Pxa (t j : Fin 8) (n : ℕ) : sProp 𝕄 := iprop(owesN c n ∗ Psx m c t ∗ Pad m c j)
def Qxa (t j : Fin 8) (n : ℕ) : sProp 𝕄 := iprop(owesN c (n - 1) ∗ Qsx m c t ∗ Qad m c j)

def P13 : sProp 𝕄 := iprop(owesN c 2 ∗ Psx m c 6 ∗ Pad m c 7 ∗ Xe c 7 ∗ tok c (.xsnd 7) ∗ tok (xn c) (.xrcv 7))
def Q13 : sProp 𝕄 := iprop(owesN c 0 ∗ Qsx m c 6 ∗ pos c (.yrcv 7) 1 ∗ Y m c 7 ∗ S m c 7 fullShare.right ∗ Qsx m c 7)

def Pod (j : Fin 8) (j' : Fin 9) : sProp 𝕄 := iprop(Wt c (.xrcv j) ∗ OutJ0 m c j ∗ tok c (.out j'))
def Qod (j : Fin 8) (j' : Fin 9) : sProp 𝕄 := iprop(pos c (.xrcv j) 1 ∗ crd c (.out j'))

def P14 : sProp 𝕄 := iprop(owesN c 0 ∗ all8 (fun i => M m c i fullShare.right) ∗ OutOwn0 m c ∗ tok c (.out 8) ∗ Pod m c 0 0)
def Q14 : sProp 𝕄 := iprop(owesN c 0 ∗ crd c (.out 8) ∗ Qod c 0 0)
def P15 : sProp 𝕄 := iprop(owesN c 0 ∗ Pod m c 1 1 ∗ Pod m c 2 2)
def Q15 : sProp 𝕄 := iprop(owesN c 0 ∗ Qod c 1 1 ∗ Qod c 2 2)
def P16 : sProp 𝕄 := iprop(owesN c 0 ∗ Pod m c 3 3 ∗ Pod m c 4 4)
def Q16 : sProp 𝕄 := iprop(owesN c 0 ∗ Qod c 3 3 ∗ Qod c 4 4)
def P17 : sProp 𝕄 := iprop(owesN c 0 ∗ Pod m c 5 5 ∗ Pod m c 6 6)
def Q17 : sProp 𝕄 := iprop(owesN c 0 ∗ Qod c 5 5 ∗ Qod c 6 6)

def P18 : sProp 𝕄 := iprop(owesN c 0 ∗ Pod m c 7 7 ∗ pos c (.out 8) 0 ∗ crd c (.out 8) ∗ Wt c (.out 0) ∗ Wt c (.out 1) ∗ Wt c (.out 2))
def Q18 : sProp 𝕄 := iprop(owesN c 0 ∗ Qod c 7 7 ∗ Wd m c (.out 8) ∗ Wd m c (.out 0) ∗ Wd m c (.out 1) ∗ Wd m c (.out 2))

def P19 : sProp 𝕄 := iprop(owesN c 0 ∗ Wt c (.out 3) ∗ Wt c (.out 4) ∗ Wt c (.out 5) ∗ Wt c (.out 6) ∗ Wt c (.out 7) ∗ Wt c (.ysnd 0))
def Q19 : sProp 𝕄 := iprop(owesN c 0 ∗ Wd m c (.out 3) ∗ Wd m c (.out 4) ∗ Wd m c (.out 5) ∗ Wd m c (.out 6) ∗ Wd m c (.out 7) ∗ Wd m c (.ysnd 0))
def P20 : sProp 𝕄 := iprop(owesN c 0 ∗ Wt c (.xsnd 0) ∗ Wt c (.ysnd 1) ∗ Wt c (.xsnd 1) ∗ Wt c (.ysnd 2) ∗ Wt c (.xsnd 2))
def Q20 : sProp 𝕄 := iprop(owesN c 0 ∗ Wd m c (.xsnd 0) ∗ Wd m c (.ysnd 1) ∗ Wd m c (.xsnd 1) ∗ Wd m c (.ysnd 2) ∗ Wd m c (.xsnd 2))
def P21 : sProp 𝕄 := iprop(owesN c 0 ∗ Wt c (.ysnd 3) ∗ Wt c (.xsnd 3) ∗ Wt c (.ysnd 4) ∗ Wt c (.xsnd 4) ∗ Wt c (.ysnd 5))
def Q21 : sProp 𝕄 := iprop(owesN c 0 ∗ Wd m c (.ysnd 3) ∗ Wd m c (.xsnd 3) ∗ Wd m c (.ysnd 4) ∗ Wd m c (.xsnd 4) ∗ Wd m c (.ysnd 5))

def posAll (n : ℕ) : sProp 𝕄 := iprop(pos c .bar n ∗ pos c .syn n ∗ pos c .stg n ∗ all9 (fun j => pos c (.out j) n)
  ∗ all8 (fun i => iprop(pos c (.ysnd i) n ∗ pos c (.yrcv i) n ∗ pos c (.xsnd i) n ∗ pos c (.xrcv i) n)))

def toksAll : sProp 𝕄 := iprop(tok (yp c) .bar ∗ tok (xn c) .syn ∗ tok c .stg ∗ all9 (fun j => tok c (.out j))
  ∗ all8 (fun i => iprop(tok c (.ysnd i) ∗ tok (yp c) (.yrcv i) ∗ tok c (.xsnd i) ∗ tok (xn c) (.xrcv i))))

def crdAll : sProp 𝕄 := iprop(crd c .bar ∗ crd c .syn ∗ all8 (fun i => iprop(crd c (.yrcv i) ∗ crd c (.xrcv i))))

def scratchAny : sProp 𝕄 := iprop((∃ f, wholeAt stgM c fullShare f) ∗ (∃ f, wholeAt sndM c fullShare f) ∗ (∃ f, wholeAt yrcM c fullShare f)
  ∗ (∃ f, wholeAt xrcM c fullShare f) ∗ (∃ f, wholeAt sumM c fullShare f))

def closedAll : sProp 𝕄 := iprop(semVal (cell c Role.syn.sem) 0 ∗ semVal (cell c Role.stg.sem) 0 ∗ all9 (fun j => semVal (cell c (Role.out j).sem) 0)
  ∗ all8 (fun i => iprop(semVal (cell c (Role.ysnd i).sem) 0 ∗ semVal (cell c (Role.yrcv i).sem) 0 ∗ semVal (cell c (Role.xsnd i).sem) 0 ∗ semVal (cell c (Role.xrcv i).sem) 0)))

def InRest : sProp 𝕄 := inM.view.loc (c : Thread nD τ) ↦[Finset.univ \ (ownInM c).view.set]{fullShare} xin m c

def EndPieces : sProp 𝕄 := iprop(Stg m c ∗ InOwn m c ∗ InRest m c ∗ posAll c 1
  ∗ all8 (fun i => iprop(S m c i fullShare.left ∗ S m c i fullShare.right)) ∗ all8 (Y m c) ∗ all8 (X m c)
  ∗ all8 (fun i => M m c i fullShare.left) ∗ wholeAt sumM c fullShare.right (sums m c)
  ∗ OutOwn1 m c ∗ all8 (OutJ1 m c))

def Φ₀ : sProp 𝕄 := iprop((∃ K, recs m K ∗ posAll c 0 ∗ toksAll c) ∗ crdAll c ∗ levAts L lv
  ∗ wholeAt inM c fullShare (xin m c) ∗ wholeAt outM c fullShare (out0 m c) ∗ scratchAny c)

def Φ₁ : sProp 𝕄 := iprop(wholeAt inM c fullShare (xin m c) ∗ wholeAt outM c fullShare (res m c) ∗ scratchAny c ∗ closedAll c)

end Cert.KernelIdeal.AllReduce

end
-- ==== Proof.Pieces.lean ====
import proofs.«900709_g7700000000000710_dist_ar_v7x_xyz2x2x4_y_m1024_n512_bf16_1_alg».proof.Proof.State

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem chunk_halves (B : Memref sig .tc .vmem S512x512 .bf16) (d : Dev nD) (i : Fin 8) (q : PosShare TreeShare)
    (f : Buf (Elt F) ((chunkM B i).view.loc (d : Thread nD τ))) :
    (chunkAt B d i q f : sProp 𝕄) ⊣⊢ iprop(chunkAt B d i q.left f ∗ chunkAt B d i q.right f) := by
  unfold chunkAt
  exact pointsTo_share (PosShare.mem_left_op_right q)

theorem whole_halves {sp : Space} {s : Shape} {e : EltTy} (B : Memref sig .tc sp s e) (d : Dev nD) (q : PosShare TreeShare)
    (f : Buf (Elt F) (B.view.loc (d : Thread nD τ))) :
    (wholeAt B d q f : sProp 𝕄) ⊣⊢ iprop(wholeAt B d q.left f ∗ wholeAt B d q.right f) := by
  unfold wholeAt
  exact pointsTo_share (PosShare.mem_left_op_right q)

theorem mem_chunk (i : Fin 8) (x : S512x512.Idx) : x ∈ (chunk i).set ↔ (x 0).val / 64 = i.val := by
  rw [Rect.mem_set_unit, Fin.forall_fin_two]
  have h0 := ValueIdx.idx2_lt0 x
  have h1 := ValueIdx.idx2_lt1 x
  have hi := i.isLt
  have s0 : S64x512.size 0 = 64 := rfl
  have s1 : S64x512.size 1 = 512 := rfl
  have o0 : (![64 * i.val, 0] : Fin 2 → Nat) 0 = 64 * i.val := rfl
  have o1 : (![64 * i.val, 0] : Fin 2 → Nat) 1 = 0 := rfl
  rw [s0, s1, o0, o1]
  constructor
  · rintro ⟨⟨a, b⟩, -⟩; omega
  · intro h; refine ⟨⟨?_, ?_⟩, Nat.zero_le _, ?_⟩ <;> omega

theorem chunks_cover {κ : Kind} {sp : Space} {e : EltTy} (v : View sig κ sp S512x512 e) :
    v.set = Finset.univ.biUnion fun i : Fin 8 => (v.slice (chunk i)).set := by
  ext x
  constructor
  · intro hx
    obtain ⟨y, rfl⟩ := View.exists_emb_of_mem_set v hx
    have h0 := ValueIdx.idx2_lt0 y
    have hlt : (y 0).val / 64 < 8 := by omega
    refine Finset.mem_biUnion.mpr ⟨⟨_, hlt⟩, Finset.mem_univ _, ?_⟩
    rw [View.set_slice]
    exact Finset.mem_map_of_mem _ ((mem_chunk ⟨_, hlt⟩ y).mpr rfl)
  · intro hx
    obtain ⟨i, -, hi⟩ := Finset.mem_biUnion.mp hx
    exact View.set_slice_subset v _ hi

theorem chunks_disjoint {κ : Kind} {sp : Space} {e : EltTy} (v : View sig κ sp S512x512 e) (i j : Fin 8) (h : i ≠ j) :
    Disjoint (v.slice (chunk i)).set (v.slice (chunk j)).set := by
  rw [View.set_slice, View.set_slice]
  refine (Finset.disjoint_map v.emb).mpr (Finset.disjoint_left.mpr fun x h1 h2 => ?_)
  exact h (Fin.ext (((mem_chunk i x).mp h1).symm.trans ((mem_chunk j x).mp h2)))

theorem all8_eq_bigSep (Φ : Fin 8 → sProp 𝕄) : bigSep Finset.univ Φ = all8 Φ := by
  have h : (Finset.univ : Finset (Fin 8)) = insert 0 (insert 1 (insert 2 (insert 3 (insert 4 (insert 5 (insert 6 {7})))))) := by decide
  rw [h, bigSep_insert (by decide), bigSep_insert (by decide), bigSep_insert (by decide), bigSep_insert (by decide),
    bigSep_insert (by decide), bigSep_insert (by decide), bigSep_insert (by decide), bigSep_singleton]
  rfl

theorem all8_mono {Φ Ψ : Fin 8 → sProp 𝕄} (h : ∀ i, Φ i ⊢ Ψ i) : all8 Φ ⊢ all8 Ψ := by
  unfold all8
  exact BIClass.sep_mono (h 0) (BIClass.sep_mono (h 1) (BIClass.sep_mono (h 2) (BIClass.sep_mono (h 3) (BIClass.sep_mono (h 4) (BIClass.sep_mono (h 5) (BIClass.sep_mono (h 6) (h 7)))))))

theorem whole_eq_all8 (B : Memref sig .tc .vmem S512x512 .bf16) (d : Dev nD) (q : PosShare TreeShare) (f : Buf (Elt F) (B.view.loc (d : Thread nD τ))) :
    (wholeAt B d q f : sProp 𝕄) = all8 (fun i => chunkAt B d i q f) := by
  rw [← all8_eq_bigSep]
  unfold wholeAt chunkAt
  rw [chunks_cover B.view]
  exact pointsTo_biUnion Finset.univ _ (fun i _ j _ h => chunks_disjoint B.view i j h)

theorem split8_any (B : Memref sig .tc .vmem S512x512 .bf16) (d : Dev nD) :
    (iprop(∃ f, wholeAt B d fullShare f) : sProp 𝕄) ⊢ all8 (fun i => iprop(∃ f, chunkAt B d i fullShare f)) := by
  refine exists_elim fun f => ?_
  rw [whole_eq_all8 B d fullShare f]
  exact all8_mono fun i => exists_intro (Φ := fun f => chunkAt B d i fullShare f) f

theorem join8_same (B : Memref sig .tc .vmem S512x512 .bf16) (d : Dev nD) (q : PosShare TreeShare) (f : Buf (Elt F) (B.view.loc (d : Thread nD τ))) :
    (all8 (fun i => chunkAt B d i q f) : sProp 𝕄) ⊣⊢ wholeAt B d q f := by
  rw [whole_eq_all8 B d q f]

theorem stored_sent (c : Dev nD) (i : Fin 8) (f0 : Buf (Elt F) ((chunkM sndM i).view.loc (c : Thread nD τ))) (w : (chunk i).shape.Idx → Elt F .bf16)
    (hw : w = truncf .bf16 (stgM.view.readAt (Elt F) (chunk i).toLoadRect (staged m c)) bitsLt_bf16_f32) :
    (chunkAt sndM c i fullShare ((sndM.access (chunk i)).write (Elt F) f0 w Finset.univ) : sProp 𝕄) ⊢ S m c i fullShare := by
  subst hw
  unfold S chunkAt
  refine Entails.of_eq (pointsTo_congr fun j hj => ?_)
  obtain ⟨y, rfl⟩ := View.exists_emb_of_mem_set _ hj
  rw [show (chunkM sndM i).view.emb y = (sndM.access (chunk i)).emb y from rfl, View.write_emb_of_mem _ _ (Finset.mem_univ y)]
  rfl

theorem stored_sums (c : Dev nD) (i : Fin 8) (g0 : Buf (Elt F) ((chunkM sumM i).view.loc (c : Thread nD τ))) (w : (chunk i).shape.Idx → Elt F .bf16)
    (hw : w = addf (sndM.view.readAt (Elt F) (chunk i).toLoadRect (sent m c)) (yrcM.view.readAt (Elt F) (chunk i).toLoadRect (sent m (yp c)))) :
    (chunkAt sumM c i fullShare ((sumM.access (chunk i)).write (Elt F) g0 w Finset.univ) : sProp 𝕄) ⊢ M m c i fullShare := by
  subst hw
  unfold M chunkAt
  refine Entails.of_eq (pointsTo_congr fun j hj => ?_)
  obtain ⟨y, rfl⟩ := View.exists_emb_of_mem_set _ hj
  rw [show (chunkM sumM i).view.emb y = (sumM.access (chunk i)).emb y from rfl, View.write_emb_of_mem _ _ (Finset.mem_univ y)]
  rfl

theorem out_pieces (c : Dev nD) (f : Buf (Elt F) (outM.view.loc (c : Thread nD τ))) :
    (wholeAt outM c fullShare f : sProp 𝕄) = iprop(wholeAt (ownOutM c) c fullShare f ∗ all8 (fun j => wholeAt (othM c j) c fullShare f)) := by
  have hs : (outM.view.set : Finset (Idx ((c : Thread nD τ).loc main_v1)))
      = (ownOutM c).view.set ∪ Finset.univ.biUnion fun j : Fin 8 => (othM c j).view.set :=
    (View.set_whole _).trans (out_cover c)
  have hd : Disjoint (ownOutM c).view.set (Finset.univ.biUnion fun j : Fin 8 => (othM c j).view.set) :=
    (Finset.disjoint_biUnion_right _ _ _).mpr fun j _ => out_disjoint_own c j
  have hu : (((c : Thread nD τ).loc main_v1 ↦[(ownOutM c).view.set ∪ Finset.univ.biUnion fun j : Fin 8 => (othM c j).view.set]{fullShare} f) : sProp 𝕄) ⊣⊢ _ := pointsTo_union hd
  rw [← all8_eq_bigSep]
  unfold wholeAt
  rw [hs, BI.equiv_iff.mp ⟨hu.1, hu.2⟩, pointsTo_biUnion Finset.univ _ (fun i _ j _ h => out_disjoint_oth c i j h)]

theorem in_split (c : Dev nD) : (wholeAt inM c fullShare (xin m c) : sProp 𝕄) ⊣⊢ iprop(InOwn m c ∗ InRest m c) := by
  unfold InOwn InRest wholeAt
  rw [show (inM.view.set : Finset (Idx (inM.view.loc (c : Thread nD τ)))) = Finset.univ from View.set_whole _]
  exact pointsTo_split_subset (Finset.subset_univ _)
theorem out_split (c : Dev nD) : (wholeAt outM c fullShare (out0 m c) : sProp 𝕄) ⊣⊢ iprop(OutOwn0 m c ∗ all8 (OutJ0 m c)) := by
  exact BiEntails.of_eq (out_pieces c (out0 m c))

theorem out_join (c : Dev nD) : (iprop(OutOwn1 m c ∗ all8 (OutJ1 m c)) : sProp 𝕄) ⊢ wholeAt outM c fullShare (res m c) := by
  rw [out_pieces c (res m c)]
  refine BIClass.sep_mono (Entails.of_eq ?_) (all8_mono fun j => Entails.of_eq ?_)
  · unfold OutOwn1 wholeAt; exact pointsTo_congr (res_own m c)
  · unfold OutJ1 wholeAt; exact pointsTo_congr (res_oth m c j)

end Cert.KernelIdeal.AllReduce

end
-- ==== Proof.Moves.lean ====
import proofs.«900709_g7700000000000710_dist_ar_v7x_xyz2x2x4_y_m1024_n512_bf16_1_alg».proof.Proof.Pieces

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- The arguments every part of the body shares, given once. -/
abbrev atBufs {β : Sort _} (p : (a0 : Memref sig .tc .hbm S1024x512 .f32) → a0.IsWhole → (a1 : Memref sig .tc .hbm S1024x512 .bf16) → a1.IsWhole
    → (a2 : Memref sig .tc .vmem S512x512 .f32) → a2.IsWhole → (a3 : Memref sig .tc .vmem S512x512 .bf16) → a3.IsWhole
    → (a4 : Memref sig .tc .vmem S512x512 .bf16) → a4.IsWhole → (a5 : Memref sig .tc .vmem S512x512 .bf16) → a5.IsWhole
    → (a6 : Memref sig .tc .vmem S512x512 .bf16) → a6.IsWhole
    → DmaSems sig S_ → DmaSems sig S9 → DmaSems sig S8 → DmaSems sig S8 → DmaSems sig S8 → DmaSems sig S8 → Sems sig S_ → β) : β :=
  p inM (Memref.isWhole_whole _) outM (Memref.isWhole_whole _) stgM (Memref.isWhole_whole _) sndM (Memref.isWhole_whole _) yrcM (Memref.isWhole_whole _)
    xrcM (Memref.isWhole_whole _) sumM (Memref.isWhole_whole _) cc0_scratch5 cc0_scratch6 cc0_scratch7 cc0_scratch8 cc0_scratch9 cc0_scratch10 cc0_scratch11

/-- `p` takes the pieces `P` to the pieces `Q`, whatever comes after it. -/
abbrev Runs {α : Type} (P Q : sProp 𝕄) (p : Prog (TpuEff nD τ sig (Elt F) Λ₀ .tc) α) : Prop :=
  ∀ Kt : α → sProp 𝕄, iprop(recs m K ∗ levAts L lv ∗ P ∗ (∀ r, Q -∗ Kt r)) ⊢ WP c p Kt

/-- One rule for every wait: the level condition is a finite check over the eighteen payments. -/
theorem wait_cell (R : Role) (N : ℕ) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ R.sem R.amount K')
    (hl : ∀ j, j < 18 → 18 - N ≤ j → R.level < (payRole j).level) {α : Type} {Q : α → sProp 𝕄} {k : PUnit → Prog (TpuEff nD τ sig (Elt F) Λ₀ .tc) α} :
    iprop(recs m K ∗ levAts L lv ∗ owesN c N ∗ Wt c R)
      ⊢ iprop(((owesN c N ∗ Wd m c R) -∗ WP c (k ⟨⟩) Q) -∗ WP c (.op w k) Q) := by
  unfold owesN Wt Wd
  iintro ⟨#Hrec, #Hlev, ⟨%W, HO⟩, Hc, Hp⟩ Hk
  ihave Hmw := (mayWait_owe c R N hl) $$ Hlev
  iapply (step_wait m K c R hw (owe c N) W) $$ [Hc HO Hmw Hp]
  · iframe # ∗
  iintro ⟨HO, Hp, Hpay⟩
  iapply Hk
  iframe
  iexists _; iexact HO

/-- For a copy's semaphore the wait is known by the credit of the copy's destination. -/
theorem wait_dma (R : Role) (N : ℕ) {sem : DmaSem sig} {sp sp' : Space} {s s' : Shape} {e e' : EltTy}
    {src : Memref sig .tc sp' s' e'} {κ' : Kind} {dst : Memref sig κ' sp s e} {hsrc : src.view.WordExact} {hdst : dst.view.WordExact}
    (hl : ∀ j, j < 18 → 18 - N ≤ j → R.level < (payRole j).level) {α : Type} {Q : α → sProp 𝕄} {k : PUnit → Prog (TpuEff nD τ sig (Elt F) Λ₀ .tc) α}
    (hs : R.sem = .dma sem) (ha : dst.view.dmaCredit = R.amount) :
    iprop(recs m K ∗ levAts L lv ∗ owesN c N ∗ Wt c R)
      ⊢ iprop(((owesN c N ∗ Wd m c R) -∗ WP c (k ⟨⟩) Q) -∗ WP c (.op (.waitDma2 sem src dst hsrc hdst) k) Q) :=
  wait_cell m K c R N (fun K' => by rw [hs, ← ha]; rfl) hl

/-- Sending chunk `i` to the y-peer costs the landing chunk there and half the share of chunk `i` here; the half comes back once the copy has been read. -/
theorem sendY (n : Dev nD) (hn : n = yp c) (i : Fin 8) (N' N : ℕ)
    (hO : owe c N' = owe c N + tallyAt (cell (yp c) (Role.yrcv i).sem) () N64)
    {hsc : ((chunkM yrcM i : Memref sig (Dev.tc n : Thread nD τ).2.kind .vmem S64x512 .bf16)).view.ref.isScScratch = false}
    {hsrc : (chunkM sndM i).view.WordExact} {hdst : (chunkM yrcM i).view.WordExact}
    {hsem : DmaTarget.Typed .vmem (.dma (yrcvS i)) (.remote (Dev.tc n : Thread nD τ) (chunkM yrcM i) (.dma (ysndS i)) hsc)} {α : Type} {Q : α → sProp 𝕄} {k : PUnit → Prog (TpuEff nD τ sig (Elt F) Λ₀ .tc) α} :
    iprop(recs m K ∗ owesN c N' ∗ Psy m c i)
      ⊢ iprop(((owesN c N ∗ Qsy m c i) -∗ WP c (k ⟨⟩) Q) -∗ WP c
          (.op (.enqueueDma (chunkM sndM i) (.remote (Dev.tc n : Thread nD τ) (chunkM yrcM i) (.dma (ysndS i)) hsc) (.dma (yrcvS i)) hsrc hdst hsem) k) Q) := by
  unfold owesN Psy Qsy Ye S
  iintro ⟨#Hrec, ⟨%W, HO⟩, HS, ⟨%fd, HY⟩, Ht1, Ht2⟩ Hk
  ihave HS := (chunk_halves sndM c i fullShare (sent m c)).1 $$ HS
  icases HS with ⟨HSl, HSr⟩
  iapply (step_sendY m K c n hn i fd W (owe c N) hO) $$ [HSl HY HO Ht1 Ht2]
  · iframe # ∗
  iintro ⟨Hc, HO⟩
  iapply Hk
  iframe
  iexists W; iexact HO

/-- The same towards the x-neighbour, for a chunk of the sums. -/
theorem sendX (n : Dev nD) (hn : n = xn c) (i : Fin 8) (N' N : ℕ)
    (hO : owe c N' = owe c N + tallyAt (cell (xn c) (Role.xrcv i).sem) () N64)
    {hsc : ((chunkM xrcM i : Memref sig (Dev.tc n : Thread nD τ).2.kind .vmem S64x512 .bf16)).view.ref.isScScratch = false}
    {hsrc : (chunkM sumM i).view.WordExact} {hdst : (chunkM xrcM i).view.WordExact}
    {hsem : DmaTarget.Typed .vmem (.dma (xrcvS i)) (.remote (Dev.tc n : Thread nD τ) (chunkM xrcM i) (.dma (xsndS i)) hsc)} {α : Type} {Q : α → sProp 𝕄} {k : PUnit → Prog (TpuEff nD τ sig (Elt F) Λ₀ .tc) α} :
    iprop(recs m K ∗ owesN c N' ∗ Psx m c i)
      ⊢ iprop(((owesN c N ∗ Qsx m c i) -∗ WP c (k ⟨⟩) Q) -∗ WP c
          (.op (.enqueueDma (chunkM sumM i) (.remote (Dev.tc n : Thread nD τ) (chunkM xrcM i) (.dma (xsndS i)) hsc) (.dma (xrcvS i)) hsrc hdst hsem) k) Q) := by
  unfold owesN Psx Qsx Xe M
  iintro ⟨#Hrec, ⟨%W, HO⟩, HS, ⟨%fd, HY⟩, Ht1, Ht2⟩ Hk
  ihave HS := (chunk_halves sumM c i fullShare (sums m c)).1 $$ HS
  icases HS with ⟨HSl, HSr⟩
  iapply (step_sendX m K c n hn i fd W (owe c N) hO) $$ [HSl HY HO Ht1 Ht2]
  · iframe # ∗
  iintro ⟨Hc, HO⟩
  iapply Hk
  iframe
  iexists W; iexact HO

set_option maxHeartbeats 1600000 in

/-- Once the y-peer's chunk `j` has landed, own chunk plus landed chunk is chunk `j` of the sums. -/
theorem sumChunk (j : Fin 8) (N : ℕ) (hl : ∀ j', j' < 18 → 18 - N ≤ j' → (Role.yrcv j).level < (payRole j').level)
    (py : ((chunk j).toLoadRect.shape.Idx → Elt F .bf16) → ((chunk j).toLoadRect.shape.Idx → Elt F .bf16) → (chunk j).shape.Idx → Elt F .bf16)
    (hpy : ∀ a b, py a b = addf a b)
    {sp' : Space} {s' : Shape} {e' : EltTy} {src : Memref sig .tc sp' s' e'} {hsrc : src.view.WordExact} {hdst : (chunkM yrcM j).view.WordExact}
    {hl1 : sndM.view.LoadsAt (chunk j).toLoadRect} {hl2 : yrcM.view.LoadsAt (chunk j).toLoadRect} {hl3 : sumM.view.LoadsAt (chunk j).toLoadRect}
    {hx : (sumM.access (chunk j)).Stores Finset.univ} {hm : (Finset.univ : Finset (chunk j).shape.Idx) = Finset.univ ∨ ∀ a, (chunk j).stride a = 1} {α : Type} {Q : α → sProp 𝕄} {k : PUnit → Prog (TpuEff nD τ sig (Elt F) Λ₀ .tc) α} :
    iprop(recs m K ∗ levAts L lv ∗ owesN c N ∗ Pad m c j)
      ⊢ iprop(((owesN c N ∗ Qad m c j) -∗ WP c (k ⟨⟩) Q) -∗ WP c
          (.op (.waitDma2 (yrcvS j) src (chunkM yrcM j) hsrc hdst) fun _ => .op (.load sndM (chunk j).toLoadRect hl1) fun a =>
            .op (.load yrcM (chunk j).toLoadRect hl2) fun b => .op (.load sumM (chunk j).toLoadRect hl3) fun _ =>
            .op (.store sumM (chunk j) (py a b) Finset.univ hx hm) k) Q) := by
  unfold Pad Qad M0 S Y M
  iintro ⟨#Hrec, #Hlev, HO, Hw, HS, ⟨%g0, HM⟩⟩ Hk
  iapply (wait_cell m K c (.yrcv j) N (w := .waitDma2 (yrcvS j) src (chunkM yrcM j) hsrc hdst)
      (fun K' => wpE_waitDma2_eq 𝒱₀ (c : Thread nD τ) none Set.univ K') hl) $$ [HO Hw]
  · iframe # ∗
  unfold Wd
  iintro ⟨HO, Hp, HY⟩
  ihave HY := (show (pay m (.yrcv j) c : sProp 𝕄) ⊢ chunkAt yrcM c j fullShare (sent m (yp c)) from BI.Entails.refl _) $$ HY
  iapply (step_load sndM c j fullShare.right (sent m c)) $$ HS; iintro HS
  iapply (step_load yrcM c j fullShare (sent m (yp c))) $$ HY; iintro HY
  iapply (step_load sumM c j fullShare g0) $$ HM; iintro HM
  iapply (step_store sumM c j g0 _) $$ HM; iintro HM
  ihave HM := (stored_sums m c j g0 _ (hpy _ _)) $$ HM
  unfold M
  iapply Hk
  iframe

end Cert.KernelIdeal.AllReduce

end
-- ==== Proof.PartsA.lean ====
import proofs.«900709_g7700000000000710_dist_ar_v7x_xyz2x2x4_y_m1024_n512_bf16_1_alg».proof.Proof.Moves

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem step_load_stg (i : Fin 8) (q : PosShare TreeShare) (f : Buf (Elt F) (stgM.view.loc (c : Thread nD τ)))
    {hl : stgM.view.LoadsAt (chunk i).toLoadRect}
    {α : Type} {Q : α → sProp 𝕄} {k : ((chunk i).toLoadRect.shape.Idx → Elt F .f32) → Prog (TpuEff nD τ sig (Elt F) Λ₀ .tc) α} :
    wholeAt stgM c q f
      ⊢ iprop((wholeAt stgM c q f -∗ WP c (k (stgM.view.readAt (Elt F) (chunk i).toLoadRect f)) Q)
          -∗ WP c (.op (.load stgM (chunk i).toLoadRect hl) k) Q) := by
  unfold wholeAt
  exact wp_load 𝒱₀ (c : Thread nD τ) none Set.univ (m := stgM) (View.setOn_subset_set _ _)

theorem step_store_sent (i : Fin 8) (w : (chunk i).shape.Idx → Elt F .bf16)
    (hw : w = truncf .bf16 (stgM.view.readAt (Elt F) (chunk i).toLoadRect (staged m c)) bitsLt_bf16_f32)
    {hx : (sndM.access (chunk i)).Stores Finset.univ} {hm : (Finset.univ : Finset (chunk i).shape.Idx) = Finset.univ ∨ ∀ a, (chunk i).stride a = 1}
    {α : Type} {Q : α → sProp 𝕄} {k : PUnit → Prog (TpuEff nD τ sig (Elt F) Λ₀ .tc) α} :
    S0 c i
      ⊢ iprop((S m c i fullShare -∗ WP c (k ⟨⟩) Q)
          -∗ WP c (.op (.store sndM (chunk i) w Finset.univ hx hm) k) Q) := by
  unfold S0
  iintro ⟨%f0, Hc⟩ Hk
  iapply (step_store sndM c i f0 w) $$ Hc; iintro Hc
  iapply Hk
  iapply (stored_sent m c i f0 w hw) $$ Hc

theorem step_narrow (i : Fin 8) (pay : Vec F S64x512 .f32 → FVec F S64x512 .bf16)
    (hpay : ∀ v, pay v = truncf .bf16 v bitsLt_bf16_f32)
    {hl1 : stgM.view.LoadsAt (chunk i).toLoadRect} {hl2 : sndM.view.LoadsAt (chunk i).toLoadRect}
    {hx : (sndM.access (chunk i)).Stores Finset.univ} {hm : (Finset.univ : Finset (chunk i).shape.Idx) = Finset.univ ∨ ∀ a, (chunk i).stride a = 1}
    {α : Type} {Q : α → sProp 𝕄} {k : PUnit → Prog (TpuEff nD τ sig (Elt F) Λ₀ .tc) α} :
    iprop(Stg m c ∗ S0 c i)
      ⊢ iprop(((Stg m c ∗ S m c i fullShare) -∗ WP c (k ⟨⟩) Q)
          -∗ WP c (.op (.load stgM (chunk i).toLoadRect hl1) fun v =>
              .op (.load sndM (chunk i).toLoadRect hl2) fun _ => .op (.store sndM (chunk i) (pay v) Finset.univ hx hm) k) Q) := by
  unfold Stg S0
  iintro ⟨Hs, ⟨%f0, Hc⟩⟩ Hk
  iapply (step_load_stg c i fullShare (staged m c)) $$ Hs; iintro Hs
  iapply (step_load sndM c i fullShare f0) $$ Hc; iintro Hc
  iapply (step_store_sent m c i _ (hpay _)) $$ [Hc]
  · unfold S0; iexists f0; iexact Hc
  iintro Hc
  iapply Hk
  iframe

theorem pay_bar : pay m .bar c = iprop(∃ f, wholeAt yrcM (yp c) fullShare f) := rfl
theorem pay_syn : pay m .syn c = iprop(∃ f, wholeAt xrcM (xn c) fullShare f) := rfl
theorem pay_stg : pay m .stg c = iprop(wholeAt stgM c fullShare (staged m c) ∗ wholeAt (ownInM c) c fullShare (xin m c)) := rfl

theorem payload_bar_yp :
    (sched (F := F) m).payload ((yp c : Thread nD τ), SemLoc.reg barS) 0 () = iprop(∃ f, wholeAt yrcM c fullShare f) := by
  have h := payload_cell m (yp c) .bar (); rw [pay_bar, yp_yp] at h; exact h
theorem payload_syn_xn :
    (sched (F := F) m).payload ((xn c : Thread nD τ), SemLoc.reg synS) 0 () = iprop(∃ f, wholeAt xrcM c fullShare f) := by
  have h := payload_cell m (xn c) .syn (); rw [pay_syn, xn_xn] at h; exact h

theorem pay_bar_chunks : (pay m .bar c : sProp 𝕄) ⊢ all8 (Ye c) := by
  rw [pay_bar]; exact split8_any yrcM (yp c)
theorem crd_stg : (cred (tallyAt ((c : Thread nD τ), SemLoc.dma stgS) () NStg) : sProp 𝕄) = crd c .stg := rfl

set_option maxHeartbeats 1600000 in

theorem part1 (Kt : (Σ' (d0 : Dev nD) (v2 : BitVec 32) (v5 : BitVec 32) (v8 : BitVec 32) (v9 : BitVec 32) (v10 : BitVec 32) (v12 : Sems sig S_)
      (v28 : FVec F S64x512 .bf16), Vec F S64x512 .bf16) → sProp 𝕄) :
    iprop(recs m K ∗ levAts L lv ∗ P1 m c
        ∗ (∀ v2 v5 v8 v9 v10 v29, Q1 m c -∗ Kt ⟨c, v2, v5, v8, v9, v10, SemArray.scalar (sig.barrier 0 rfl),
            k0_pay1 (stgM.view.readAt (Elt F) (chunk 0).toLoadRect (staged m c)), v29⟩))
      ⊢ WP c
          (atBufs k0_part1) Kt := by
  unfold WP atBufs; rw [k0_part1_eq_skeleton]; unfold k0_part1_skel
  simp only [semSignalWord, semWaitWord, Prog.lift, Prog.bind_op, Prog.bind_ret, Prog.pure_eq_ret, wp_deviceId]
  simp only [dev1_eq c, dev2_eq c]
  unfold P1 Q1 owesN
  iintro ⟨#Hrec, #Hlev, ⟨⟨%W, HO⟩, Htb, Hts, ⟨%fy, Hyr⟩, ⟨%fx, Hxr⟩, Hin, ⟨%fd, Hstg⟩, Htg, Hpg, H0⟩, Hk⟩
  ihave #HIb := (inv_at m K (yp c) .bar) $$ Hrec
  ihave #HRb := (reached_at m K (yp c) .bar) $$ Hrec
  ihave #HIs := (inv_at m K (xn c) .syn) $$ Hrec
  ihave #HRs := (reached_at m K (xn c) .syn) $$ Hrec
  ihave #HIg := (inv_at m K c .stg) $$ Hrec
  ihave #HRg := (reached_at m K c .stg) $$ Hrec
  unfold tok

  iapply (Rounds.wp_signal 𝒱₀ ER (sched m) (c : Thread nD τ) none (dst := (yp c : Thread nD τ)) (κ := K (yp c, Role.bar.sem))
      (r := 0) (d := ()) (mem_duties m (yp c) .bar) ((amount_cell m (yp c) .bar ()).trans (by rfl)) () (owe c 17) rfl)
    $$ [HO Htb Hyr]
  · isplitr; · iexact HIb
    isplitl [HO]; · iexact HO
    isplitl [Htb]; · iexact Htb
    isplitl [Hyr]
    · rw [payload_bar_yp]
      iexists fy; iexact Hyr
    iexact HRb
  iintro HO

  iapply (Rounds.wp_signal 𝒱₀ ER (sched m) (c : Thread nD τ) none (dst := (xn c : Thread nD τ)) (κ := K (xn c, Role.syn.sem))
      (r := 0) (d := ()) (mem_duties m (xn c) .syn) ((amount_cell m (xn c) .syn ()).trans (by rfl)) () (owe c 16) rfl)
    $$ [HO Hts Hxr]
  · isplitr; · iexact HIs
    isplitl [HO]; · iexact HO
    isplitl [Hts]; · iexact Hts
    isplitl [Hxr]
    · rw [payload_syn_xn]
      iexists fx; iexact Hxr
    iexact HRs
  iintro HO

  unfold InOwn wholeAt
  iapply (Rounds.wp_copy_pointsTo 𝒱₀ ER (sched m) (c : Thread nD τ) none (src := ownInM c) (dst := stgM) (sem := .dma stgS)
      (q := fullShare) (fs := xin m c) (fd := fd) (r := 0) (d := ()) (κ := K (c, Role.stg.sem))
      (mem_duties m c .stg) () NStg rfl (amount_cell m c .stg ())
      (by
        refine BI.Entails.trans ?_ (Entails.of_eq (payload_cell m c .stg ()).symm)
        rw [pay_stg]; unfold wholeAt staged
        have hw : stgM.view.write (Elt F) fd ((ownInM c).view.read (Elt F) (xin m c)) Finset.univ = (ownInM c).view.read (Elt F) (xin m c) :=
          View.write_whole_univ cc0_scratch0 fd _
        rw [hw]; exact BI.Entails.refl _))
    $$ [Hin Hstg Htg]
  · isplitr; · iexact HIg
    isplitl [Hin]; · iexact Hin
    isplitl [Hstg]; · iexact Hstg
    isplitl [Htg]; · iexact Htg
    iexact HRg
  iintro Hcg

  iapply (step_wait m K c .stg (fun K' => wpE_waitDma2_eq 𝒱₀ (c : Thread nD τ) none Set.univ K') (owe c 16) W) $$ [Hcg HO Hpg]
  · isplitr; · iexact Hrec
    isplitl [Hcg]; · iapply (Entails.of_eq (crd_stg c)); iexact Hcg
    isplitl [HO]; · iexact HO
    isplitr
    · iapply (mayWait_owe c .stg 16 (by decide)); iexact Hlev
    iexact Hpg
  iintro ⟨HO, Hpg, Hpay⟩
  ihave Hpay := (Entails.of_eq (pay_stg m c)) $$ Hpay
  icases Hpay with ⟨Hs, Hin⟩

  unfold S0
  icases H0 with ⟨%f0, H0⟩
  iapply (step_load_stg c 0 fullShare (staged m c)) $$ Hs; iintro Hs
  iapply (step_load sndM c 0 fullShare f0) $$ H0; iintro H0
  unfold WP; rw [wp_ret]; imodintro
  ispecialize Hk $$ %_ %_ %_ %_ %_ %(sndM.view.readAt (Elt F) (chunk 0).toLoadRect f0)
  iapply Hk
  unfold Stg wholeAt
  isplitl [HO]; · iexists _; iexact HO
  isplitl [Hs]; · iexact Hs
  isplitl [Hin]; · iexact Hin
  isplitl [Hpg]; · iexact Hpg
  iexists f0; iexact H0

set_option maxHeartbeats 1600000 in

theorem part2 (v28 : FVec F S64x512 .bf16) (v29 : Vec F S64x512 .bf16)
    (hv : v28 = k0_pay1 (stgM.view.readAt (Elt F) (chunk 0).toLoadRect (staged m c)))
    (Kt : (Σ' (v58 : FVec F S64x512 .bf16), Vec F S64x512 .bf16) → sProp 𝕄) :
    iprop(recs m K ∗ levAts L lv ∗ P2 m c
        ∗ (∀ v59, Q2 m c -∗ Kt ⟨k0_pay8 (stgM.view.readAt (Elt F) (chunk 6).toLoadRect (staged m c)), v59⟩))
      ⊢ WP c
          (atBufs k0_part2 v28 v29) Kt := by
  unfold WP atBufs; rw [k0_part2_eq_skeleton]; unfold k0_part2_skel
  simp only [Prog.lift, Prog.bind_op, Prog.bind_ret, Prog.pure_eq_ret]
  unfold P2 Q2
  iintro ⟨#Hrec, #Hlev, ⟨Hs, H0, H1, H2, H3, H4, H5, H6⟩, Hk⟩

  iapply (step_store_sent m c 0 _ (by rw [hv]; exact shapeCast_self _ _)) $$ H0; iintro H0

  iapply (step_narrow m c 1 k0_pay3 (fun v => shapeCast_self _ _)) $$ [Hs H1]
  · iframe
  iintro ⟨Hs, H1⟩
  iapply (step_narrow m c 2 k0_pay4 (fun v => shapeCast_self _ _)) $$ [Hs H2]
  · iframe
  iintro ⟨Hs, H2⟩
  iapply (step_narrow m c 3 k0_pay5 (fun v => shapeCast_self _ _)) $$ [Hs H3]
  · iframe
  iintro ⟨Hs, H3⟩
  iapply (step_narrow m c 4 k0_pay6 (fun v => shapeCast_self _ _)) $$ [Hs H4]
  · iframe
  iintro ⟨Hs, H4⟩
  iapply (step_narrow m c 5 k0_pay7 (fun v => shapeCast_self _ _)) $$ [Hs H5]
  · iframe
  iintro ⟨Hs, H5⟩

  unfold Stg S0
  icases H6 with ⟨%f6, H6⟩
  iapply (step_load_stg c 6 fullShare (staged m c)) $$ Hs; iintro Hs
  iapply (step_load sndM c 6 fullShare f6) $$ H6; iintro H6
  unfold WP; rw [wp_ret]; imodintro
  ispecialize Hk $$ %(sndM.view.readAt (Elt F) (chunk 6).toLoadRect f6)
  iapply Hk
  iframe
  iexists f6; iexact H6

set_option maxHeartbeats 1600000 in

theorem part3 (v2 v8 v9 : BitVec 32) (v59 : Vec F S64x512 .bf16) (Kt : PUnit → sProp 𝕄) :
    iprop(recs m K ∗ levAts L lv ∗ P3 m c ∗ (Q3 m c -∗ Kt ⟨⟩))
      ⊢ WP c
          (atBufs k0_part3 c v2 v8 v9 (SemArray.scalar (sig.barrier 0 rfl))
            (k0_pay8 (stgM.view.readAt (Elt F) (chunk 6).toLoadRect (staged m c))) v59) Kt := by
  unfold WP atBufs; rw [k0_part3_eq_skeleton]; unfold k0_part3_skel
  simp only [semWaitWord, Prog.lift, Prog.bind_op, Prog.bind_ret, Prog.pure_eq_ret]
  unfold P3 Q3 Wt owesN
  iintro ⟨#Hrec, #Hlev, ⟨Hs, H6, H7, H0, ⟨Hcb, Hpb⟩, ⟨%W, HO⟩, Ht1, Ht2⟩, Hk⟩

  iapply (step_store_sent m c 6 _ (shapeCast_self _ _)) $$ H6; iintro H6
  iapply (step_narrow m c 7 k0_pay10 (fun v => shapeCast_self _ _)) $$ [Hs H7]
  · iframe
  iintro ⟨Hs, H7⟩

  iapply (step_wait m K c .bar (fun K' => wpE_semWait_eq 𝒱₀ (c : Thread nD τ) none Set.univ K') (owe c 16) W) $$ [Hcb HO Hpb]
  · isplitr; · iexact Hrec
    isplitl [Hcb]; · iexact Hcb
    isplitl [HO]; · iexact HO
    isplitr
    · iapply (mayWait_owe c .bar 16 (by decide)); iexact Hlev
    iexact Hpb
  iintro ⟨HO, Hpb, Hpay⟩
  ihave Hy := (pay_bar_chunks m c) $$ Hpay
  unfold all8 Ye
  icases Hy with ⟨⟨%fd, Hy0⟩, Hy1, Hy2, Hy3, Hy4, Hy5, Hy6, Hy7⟩

  unfold S
  ihave H0' := (chunk_halves sndM c 0 fullShare (sent m c)).1 $$ H0
  icases H0' with ⟨H0l, H0r⟩
  iapply (step_sendY m K c _ (yp_of _ c (k0_dev3_eq c)) 0 fd _ (owe c 15) rfl) $$ [H0l Hy0 HO Ht1 Ht2]
  · isplitr; · iexact Hrec
    isplitl [H0l]; · iexact H0l
    isplitl [Hy0]; · iexact Hy0
    isplitl [HO]; · iexact HO
    isplitl [Ht1]; · iexact Ht1
    iexact Ht2
  iintro ⟨Hcy, HO⟩
  unfold WP; rw [wp_ret]; imodintro
  iapply Hk
  iframe
  iexists _; iexact HO

end Cert.KernelIdeal.AllReduce

end
-- ==== Proof.PartsB.lean ====
import proofs.«900709_g7700000000000710_dist_ar_v7x_xyz2x2x4_y_m1024_n512_bf16_1_alg».proof.Proof.Moves

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem part4 (v2 v8 v9 : BitVec 32) : Runs m K c (P4 m c) (Q4 m c) (atBufs k0_part4 c v2 v8 v9) := fun Kt => by
  unfold WP atBufs; rw [k0_part4_eq_skeleton]; unfold k0_part4_skel
  simp only [Prog.lift, Prog.bind_op, Prog.bind_ret, Prog.pure_eq_ret]
  unfold P4 Q4
  iintro ⟨#Hrec, -, ⟨HO, H1, H2, H3⟩, Hk⟩
  iapply (sendY m K c _ (yp_of _ c (k0_dev4_eq c)) 1 15 14 rfl) $$ [HO H1]
  · iframe # ∗
  iintro ⟨HO, H1⟩
  iapply (sendY m K c _ (yp_of _ c (k0_dev5_eq c)) 2 14 13 rfl) $$ [HO H2]
  · iframe # ∗
  iintro ⟨HO, H2⟩
  iapply (sendY m K c _ (yp_of _ c (k0_dev6_eq c)) 3 13 12 rfl) $$ [HO H3]
  · iframe # ∗
  iintro ⟨HO, H3⟩
  unfold WP; rw [wp_ret]; imodintro
  iapply Hk $$ %_
  iframe

theorem part5 (v2 v8 v9 : BitVec 32) : Runs m K c (P5 m c) (Q5 m c) (atBufs k0_part5 c v2 v8 v9) := fun Kt => by
  unfold WP atBufs; rw [k0_part5_eq_skeleton]; unfold k0_part5_skel
  simp only [Prog.lift, Prog.bind_op, Prog.bind_ret, Prog.pure_eq_ret]
  unfold P5 Q5
  iintro ⟨#Hrec, -, ⟨HO, H1, H2, H3⟩, Hk⟩
  iapply (sendY m K c _ (yp_of _ c (k0_dev7_eq c)) 4 12 11 rfl) $$ [HO H1]
  · iframe # ∗
  iintro ⟨HO, H1⟩
  iapply (sendY m K c _ (yp_of _ c (k0_dev8_eq c)) 5 11 10 rfl) $$ [HO H2]
  · iframe # ∗
  iintro ⟨HO, H2⟩
  iapply (sendY m K c _ (yp_of _ c (k0_dev9_eq c)) 6 10 9 rfl) $$ [HO H3]
  · iframe # ∗
  iintro ⟨HO, H3⟩
  unfold WP; rw [wp_ret]; imodintro
  iapply Hk $$ %_
  iframe

theorem part6 (v2 v8 v9 w : BitVec 32) : Runs m K c (P6 m c) (Q6 m c) (atBufs k0_part6 c v2 v8 v9 w) := fun Kt => by
  unfold WP atBufs; rw [k0_part6_eq_skeleton]; unfold k0_part6_skel
  simp only [Prog.lift, Prog.bind_op, Prog.bind_ret, Prog.pure_eq_ret, semWaitWord]
  unfold P6 Q6
  iintro ⟨#Hrec, #Hlev, ⟨HO, H7, Hs, HA⟩, Hk⟩
  iapply (sendY m K c _ (yp_of _ c (k0_dev10_eq c)) 7 9 8 rfl) $$ [HO H7]
  · iframe # ∗
  iintro ⟨HO, H7⟩
  iapply (wait_cell m K c .syn 8 (fun K' => wpE_semWait_eq 𝒱₀ (c : Thread nD τ) none Set.univ K') (by decide)) $$ [HO Hs]
  · iframe # ∗
  unfold Wd
  iintro ⟨HO, Hps, Hpay⟩
  ihave HXe := (show (pay m .syn c : sProp 𝕄) ⊢ all8 (Xe c) from split8_any xrcM (xn c)) $$ Hpay
  iapply (sumChunk m K c 0 8 (by decide) k0_pay11 (fun _ _ => shapeCast_self _ _)) $$ [HO HA]
  · iframe # ∗
  iintro ⟨HO, HA⟩
  unfold WP; rw [wp_ret]; imodintro
  iapply Hk $$ %_
  iframe

end Cert.KernelIdeal.AllReduce

end
-- ==== Proof.PartsC.lean ====
import proofs.«900709_g7700000000000710_dist_ar_v7x_xyz2x2x4_y_m1024_n512_bf16_1_alg».proof.Proof.Moves

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem part7 (v2 v5 v8 v9 v10 w : BitVec 32) : Runs m K c (Pxa m c 0 1 8) (Qxa m c 0 1 8) (atBufs k0_part7 c v2 v5 v8 v9 v10 w) := fun Kt => by
  unfold WP atBufs; rw [k0_part7_eq_skeleton]; unfold k0_part7_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev11_eq c)) 0 8 7 rfl) $$ [HO HP]
  · iframe # ∗
  iintro ⟨HO, HP⟩
  iapply (sumChunk m K c 1 7 (by decide) k0_pay12 (fun _ _ => shapeCast_self _ _)) $$ [HO HA]
  · iframe # ∗
  iintro ⟨HO, HA⟩
  unfold WP; rw [wp_ret]; imodintro
  iapply Hk $$ %_
  iframe

theorem part8 (v2 v5 v8 v9 v10 w : BitVec 32) : Runs m K c (Pxa m c 1 2 7) (Qxa m c 1 2 7) (atBufs k0_part8 c v2 v5 v8 v9 v10 w) := fun Kt => by
  unfold WP atBufs; rw [k0_part8_eq_skeleton]; unfold k0_part8_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev12_eq c)) 1 7 6 rfl) $$ [HO HP]
  · iframe # ∗
  iintro ⟨HO, HP⟩
  iapply (sumChunk m K c 2 6 (by decide) k0_pay13 (fun _ _ => shapeCast_self _ _)) $$ [HO HA]
  · iframe # ∗
  iintro ⟨HO, HA⟩
  unfold WP; rw [wp_ret]; imodintro
  iapply Hk $$ %_
  iframe

theorem part9 (v2 v5 v8 v9 v10 w : BitVec 32) : Runs m K c (Pxa m c 2 3 6) (Qxa m c 2 3 6) (atBufs k0_part9 c v2 v5 v8 v9 v10 w) := fun Kt => by
  unfold WP atBufs; rw [k0_part9_eq_skeleton]; unfold k0_part9_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev13_eq c)) 2 6 5 rfl) $$ [HO HP]
  · iframe # ∗
  iintro ⟨HO, HP⟩
  iapply (sumChunk m K c 3 5 (by decide) k0_pay14 (fun _ _ => shapeCast_self _ _)) $$ [HO HA]
  · iframe # ∗
  iintro ⟨HO, HA⟩
  unfold WP; rw [wp_ret]; imodintro
  iapply Hk $$ %_
  iframe

theorem part10 (v2 v5 v8 v9 v10 : BitVec 32) : Runs m K c (Pxa m c 3 4 5) (Qxa m c 3 4 5) (atBufs k0_part10 c v2 v5 v8 v9 v10) := fun Kt => by
  unfold WP atBufs; rw [k0_part10_eq_skeleton]; unfold k0_part10_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev14_eq c)) 3 5 4 rfl) $$ [HO HP]
  · iframe # ∗
  iintro ⟨HO, HP⟩
  iapply (sumChunk m K c 4 4 (by decide) k0_pay15 (fun _ _ => shapeCast_self _ _)) $$ [HO HA]
  · iframe # ∗
  iintro ⟨HO, HA⟩
  unfold WP; rw [wp_ret]; imodintro
  iapply Hk $$ %_
  iframe

theorem part11 (v2 v5 v8 v9 v10 : BitVec 32) : Runs m K c (Pxa m c 4 5 4) (Qxa m c 4 5 4) (atBufs k0_part11 c v2 v5 v8 v9 v10) := fun Kt => by
  unfold WP atBufs; rw [k0_part11_eq_skeleton]; unfold k0_part11_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev15_eq c)) 4 4 3 rfl) $$ [HO HP]
  · iframe # ∗
  iintro ⟨HO, HP⟩
  iapply (sumChunk m K c 5 3 (by decide) k0_pay16 (fun _ _ => shapeCast_self _ _)) $$ [HO HA]
  · iframe # ∗
  iintro ⟨HO, HA⟩
  unfold WP; rw [wp_ret]; imodintro
  iapply Hk $$ %_
  iframe

theorem part12 (v2 v5 v8 v9 v10 : BitVec 32) : Runs m K c (Pxa m c 5 6 3) (Qxa m c 5 6 3) (atBufs k0_part12 c v2 v5 v8 v9 v10) := fun Kt => by
  unfold WP atBufs; rw [k0_part12_eq_skeleton]; unfold k0_part12_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev16_eq c)) 5 3 2 rfl) $$ [HO HP]
  · iframe # ∗
  iintro ⟨HO, HP⟩
  iapply (sumChunk m K c 6 2 (by decide) k0_pay17 (fun _ _ => shapeCast_self _ _)) $$ [HO HA]
  · iframe # ∗
  iintro ⟨HO, HA⟩
  unfold WP; rw [wp_ret]; imodintro
  iapply Hk $$ %_
  iframe

theorem part13 (v2 v5 v8 v9 v10 : BitVec 32) : Runs m K c (P13 m c) (Q13 m c) (atBufs k0_part13 c v2 v5 v8 v9 v10) := fun Kt => by
  unfold WP atBufs; rw [k0_part13_eq_skeleton]; unfold k0_part13_skel
  simp only [Prog.lift, Prog.bind_op, Prog.bind_ret, Prog.pure_eq_ret]
  unfold P13 Q13
  iintro ⟨#Hrec, #Hlev, ⟨HO, HP, HA, HXe, Ht1, Ht2⟩, Hk⟩
  iapply (sendX m K c _ (xn_of _ c (k0_dev17_eq c)) 6 2 1 rfl) $$ [HO HP]
  · iframe # ∗
  iintro ⟨HO, HP⟩
  iapply (sumChunk m K c 7 1 (by decide) k0_pay18 (fun _ _ => shapeCast_self _ _)) $$ [HO HA]
  · iframe # ∗
  iintro ⟨HO, HA⟩
  unfold Qad
  icases HA with ⟨Hp, HY, HS, HM⟩
  iapply (sendX m K c _ (xn_of _ c (k0_dev18_eq c)) 7 1 0 rfl) $$ [HO HM HXe Ht1 Ht2]
  · unfold Psx; iframe # ∗
  iintro ⟨HO, HM⟩
  unfold WP; rw [wp_ret]; imodintro
  iapply Hk $$ %_
  iframe

end Cert.KernelIdeal.AllReduce

end
-- ==== Proof.PartsD.lean ====
import proofs.«900709_g7700000000000710_dist_ar_v7x_xyz2x2x4_y_m1024_n512_bf16_1_alg».proof.Proof.Moves

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem pay_out_lt (j : Fin 8) : pay m (.out ⟨j.val, by omega⟩) c = iprop(OutJ1 m c j ∗ X m c j) :=
  dif_pos j.isLt

theorem pay_out8 : pay m (.out 8) c = iprop(OutOwn1 m c ∗ wholeAt sumM c fullShare.right (sums m c)) := by
  have h8 : ¬ ((8 : Fin 9).val < 8) := by decide
  simp only [pay, dif_neg h8]; rfl

theorem amount_out_lt (j : Fin 8) : (Role.out ⟨j.val, by omega⟩).amount = N64 :=
  if_neg (by have := j.isLt; simp only; omega)

theorem amount_out8 : (Role.out 8).amount = NSum := by
  show (if (8 : Fin 9).val = 8 then NSum else N64) = NSum
  exact if_pos rfl

theorem pay_xrcv (j : Fin 8) : pay m (.xrcv j) c = X m c j := rfl

set_option maxHeartbeats 800000 in

/-- Any copy into rows of the result has the same shape: it lends its source at some share, takes the rows, and both return at the wait of its cell. -/
theorem step_copy {s : Shape} (src : Memref sig .tc .vmem s .bf16) (dst : Memref sig .tc .hbm s .bf16) (j' : Fin 9) (q : PosShare TreeShare)
    (fs : Buf (Elt F) (src.view.loc (c : Thread nD τ))) (fd : Buf (Elt F) (dst.view.loc (c : Thread nD τ)))
    (hN : dst.view.amount (Role.out j').sem = (Role.out j').amount)
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m (.out j') c)
    {hsrc : src.view.WordExact} {hdst : dst.view.WordExact}
    {hsem : DmaTarget.Typed (nD := nD) .vmem (.dma (outS j')) (DmaTarget.here dst : DmaTarget nD τ sig (Dev.tc c : Thread nD τ).2 .hbm s .bf16)} {α : Type} {Q : α → sProp 𝕄} {k : PUnit → Prog (TpuEff nD τ sig (Elt F) Λ₀ .tc) α} :
    iprop(recs m K ∗ (src.view.loc (c : Thread nD τ) ↦[src.view.set]{q} fs) ∗ (dst.view.loc (c : Thread nD τ) ↦[dst.view.set]{fullShare} fd) ∗ tok c (.out j'))
      ⊢ iprop((crd c (.out j') -∗ WP c (k ⟨⟩) Q) -∗ WP c (.op (.enqueueDma src (.here dst) (.dma (outS j')) hsrc hdst hsem) k) Q) := by
  iintro ⟨#Hrec, Hsrc, Hdst, Ht⟩
  ihave #HI := (inv_at m K c (.out j')) $$ Hrec
  ihave #HR := (reached_at m K c (.out j')) $$ Hrec
  unfold tok crd
  iapply (Rounds.wp_copy_pointsTo 𝒱₀ ER (sched m) (c : Thread nD τ) none (κ := K (c, (Role.out j').sem))
      (src := src) (dst := dst) (sem := (Role.out j').sem) (hsrc := hsrc) (hdst := hdst) (hsem := hsem)
      (r := 0) (d := ()) (q := q) (fs := fs) (fd := fd)
      (mem_duties m c (.out j')) () (Role.out j').amount hN (amount_cell m c (.out j') ())
      (by rw [payload_cell]; exact hpay)) $$ [Hsrc Hdst Ht]
  iframe # ∗

theorem step_copyOut (j : Fin 8) (j' : Fin 9) (hj : j' = ⟨j.val, by omega⟩)
    {hsrc : (chunkM xrcM j).view.WordExact} {hdst : (othM c j).view.WordExact}
    {hsem : DmaTarget.Typed (nD := nD) .vmem (.dma (outS j')) (DmaTarget.here (othM c j) : DmaTarget nD τ sig (Dev.tc c : Thread nD τ).2 .hbm S64x512 .bf16)} {α : Type} {Q : α → sProp 𝕄} {k : PUnit → Prog (TpuEff nD τ sig (Elt F) Λ₀ .tc) α} :
    iprop(recs m K ∗ X m c j ∗ OutJ0 m c j ∗ tok c (.out j'))
      ⊢ iprop((crd c (.out j') -∗ WP c (k ⟨⟩) Q) -∗ WP c (.op (.enqueueDma (chunkM xrcM j) (.here (othM c j)) (.dma (outS j')) hsrc hdst hsem) k) Q) := by
  subst hj
  unfold X OutJ0 chunkAt wholeAt
  exact step_copy m K c (chunkM xrcM j) (othM c j) ⟨j.val, by omega⟩ fullShare (sums m (xn c)) (out0 m c) (amount_out_lt j).symm
    (by rw [pay_out_lt]; exact BI.Entails.refl _)

theorem step_copySums {hsrc : sumM.view.WordExact} {hdst : (ownOutM c).view.WordExact}
    {hsem : DmaTarget.Typed (nD := nD) .vmem (.dma (outS 8)) (DmaTarget.here (ownOutM c) : DmaTarget nD τ sig (Dev.tc c : Thread nD τ).2 .hbm S512x512 .bf16)} {α : Type} {Q : α → sProp 𝕄} {k : PUnit → Prog (TpuEff nD τ sig (Elt F) Λ₀ .tc) α} :
    iprop(recs m K ∗ wholeAt sumM c fullShare.right (sums m c) ∗ OutOwn0 m c ∗ tok c (.out 8))
      ⊢ iprop((crd c (.out 8) -∗ WP c (k ⟨⟩) Q) -∗ WP c (.op (.enqueueDma sumM (.here (ownOutM c)) (.dma (outS 8)) hsrc hdst hsem) k) Q) := by
  unfold OutOwn0 wholeAt
  exact step_copy m K c sumM (ownOutM c) 8 fullShare.right (sums m c) (out0 m c) amount_out8.symm (by rw [pay_out8]; exact BI.Entails.refl _)

/-- A chunk of the x-neighbour's sums is written to the result only after it has landed. -/
theorem outChunk (j : Fin 8) (j' : Fin 9) (hj : j' = ⟨j.val, by omega⟩)
    {sem : DmaSem sig} {sp sp' : Space} {s s' : Shape} {e e' : EltTy} {src : Memref sig .tc sp' s' e'} {κ' : Kind} {dst : Memref sig κ' sp s e}
    {hsrc : src.view.WordExact} {hdst : dst.view.WordExact} {hs2 : (chunkM xrcM j).view.WordExact} {hd2 : (othM c j).view.WordExact}
    {hsem : DmaTarget.Typed (nD := nD) .vmem (.dma (outS j')) (DmaTarget.here (othM c j) : DmaTarget nD τ sig (Dev.tc c : Thread nD τ).2 .hbm S64x512 .bf16)}
    {α : Type} {Q : α → sProp 𝕄} {k : PUnit → Prog (TpuEff nD τ sig (Elt F) Λ₀ .tc) α} (hs : (Role.xrcv j).sem = .dma sem) (ha : dst.view.dmaCredit = (Role.xrcv j).amount) :
    iprop(recs m K ∗ levAts L lv ∗ owesN c 0 ∗ Pod m c j j')
      ⊢ iprop(((owesN c 0 ∗ Qod c j j') -∗ WP c (k ⟨⟩) Q) -∗ WP c
          (.op (.waitDma2 sem src dst hsrc hdst) fun _ => .op (.enqueueDma (chunkM xrcM j) (.here (othM c j)) (.dma (outS j')) hs2 hd2 hsem) k) Q) := by
  unfold Pod Qod
  iintro ⟨#Hrec, #Hlev, HO, Hw, HJ, Ht⟩ Hk
  iapply (wait_dma m K c (.xrcv j) 0 (fun _ _ _ => by omega) hs ha) $$ [HO Hw]
  · iframe # ∗
  unfold Wd
  iintro ⟨HO, Hp, HX⟩
  ihave HX := (Entails.of_eq (pay_xrcv m c j)) $$ HX
  iapply (step_copyOut m K c j j' hj) $$ [HX HJ Ht]
  · iframe # ∗
  iintro Hc
  iapply Hk
  iframe

theorem part14 (v2 v5 v8 v10 : BitVec 32) : Runs m K c (P14 m c) (Q14 c) (atBufs k0_part14 c v2 v5 v8 v10) := fun Kt => by
  unfold WP atBufs; rw [k0_part14_eq_skeleton]; unfold k0_part14_skel
  simp only [Prog.lift, Prog.bind_op, Prog.bind_ret, Prog.pure_eq_ret]
  unfold P14 Q14 M
  iintro ⟨#Hrec, #Hlev, ⟨HO, HM, HOwn, Ht8, HP⟩, Hk⟩
  ihave HM := (join8_same sumM c fullShare.right (sums m c)).1 $$ HM
  iapply (step_copySums m K c) $$ [HM HOwn Ht8]
  · iframe # ∗
  iintro Hc8
  iapply (outChunk m K c 0 0 rfl) $$ [HO HP]
  · rfl
  · rfl
  · iframe # ∗
  iintro ⟨HO, HP⟩
  unfold WP; rw [wp_ret]; imodintro
  iapply Hk $$ %_
  iframe

theorem part15 (v5 v8 v10 v391 : BitVec 32) : Runs m K c (P15 m c) (Q15 c) (atBufs k0_part15 c v5 v8 v10 v391) := fun Kt => by
  unfold WP atBufs; rw [k0_part15_eq_skeleton]; unfold k0_part15_skel
  simp only [Prog.lift, Prog.bind_op, Prog.bind_ret, Prog.pure_eq_ret]
  unfold P15 Q15
  iintro ⟨#Hrec, #Hlev, ⟨HO, H1, H2⟩, Hk⟩
  iapply (outChunk m K c 1 1 rfl) $$ [HO H1]
  · rfl
  · rfl
  · iframe # ∗
  iintro ⟨HO, H1⟩
  iapply (outChunk m K c 2 2 rfl) $$ [HO H2]
  · rfl
  · rfl
  · iframe # ∗
  iintro ⟨HO, H2⟩
  unfold WP; rw [wp_ret]; imodintro
  iapply Hk $$ %_
  iframe

theorem part16 (v5 v8 v10 v391 : BitVec 32) : Runs m K c (P16 m c) (Q16 c) (atBufs k0_part16 c v5 v8 v10 v391) := fun Kt => by
  unfold WP atBufs; rw [k0_part16_eq_skeleton]; unfold k0_part16_skel
  simp only [Prog.lift, Prog.bind_op, Prog.bind_ret, Prog.pure_eq_ret]
  unfold P16 Q16
  iintro ⟨#Hrec, #Hlev, ⟨HO, H1, H2⟩, Hk⟩
  iapply (outChunk m K c 3 3 rfl) $$ [HO H1]
  · rfl
  · rfl
  · iframe # ∗
  iintro ⟨HO, H1⟩
  iapply (outChunk m K c 4 4 rfl) $$ [HO H2]
  · rfl
  · rfl
  · iframe # ∗
  iintro ⟨HO, H2⟩
  unfold WP; rw [wp_ret]; imodintro
  iapply Hk $$ %_
  iframe

theorem part17 (v5 v8 v10 v391 v470 v471 : BitVec 32) : Runs m K c (P17 m c) (Q17 c) (atBufs k0_part17 c v5 v8 v10 v391 v470 v471) := fun Kt => by
  unfold WP atBufs; rw [k0_part17_eq_skeleton]; unfold k0_part17_skel
  simp only [Prog.lift, Prog.bind_op, Prog.bind_ret, Prog.pure_eq_ret]
  unfold P17 Q17
  iintro ⟨#Hrec, #Hlev, ⟨HO, H1, H2⟩, Hk⟩
  iapply (outChunk m K c 5 5 rfl) $$ [HO H1]
  · rfl
  · rfl
  · iframe # ∗
  iintro ⟨HO, H1⟩
  iapply (outChunk m K c 6 6 rfl) $$ [HO H2]
  · rfl
  · rfl
  · iframe # ∗
  iintro ⟨HO, H2⟩
  unfold WP; rw [wp_ret]; imodintro
  iapply Hk $$ %_
  iframe

theorem part18 (v5 v8 v391 v498 w : BitVec 32) : Runs m K c (P18 m c) (Q18 m c) (atBufs k0_part18 c v5 v8 v391 v498 w) := fun Kt => by
  unfold WP atBufs; rw [k0_part18_eq_skeleton]; unfold k0_part18_skel
  simp only [Prog.lift, Prog.bind_op, Prog.bind_ret, Prog.pure_eq_ret]
  unfold P18 Q18
  iintro ⟨#Hrec, #Hlev, ⟨HO, HP, Hp8, Hc8, Hd0, Hd1, Hd2⟩, Hk⟩
  iapply (outChunk m K c 7 7 rfl) $$ [HO HP]
  · rfl
  · rfl
  · iframe # ∗
  iintro ⟨HO, HP⟩
  iapply (wait_dma m K c (.out 8) 0 (by decide)) $$ [HO Hp8 Hc8]
  · rfl
  · rfl
  · unfold Wt; iframe # ∗
  iintro ⟨HO, Hp8⟩
  iapply (wait_dma m K c (.out 0) 0 (by decide)) $$ [HO Hd0]
  · rfl
  · rfl
  · iframe # ∗
  iintro ⟨HO, Hd0⟩
  iapply (wait_dma m K c (.out 1) 0 (by decide)) $$ [HO Hd1]
  · rfl
  · rfl
  · iframe # ∗
  iintro ⟨HO, Hd1⟩
  iapply (wait_dma m K c (.out 2) 0 (by decide)) $$ [HO Hd2]
  · rfl
  · rfl
  · iframe # ∗
  iintro ⟨HO, Hd2⟩
  unfold WP; rw [wp_ret]; imodintro
  iapply Hk $$ %_
  iframe

end Cert.KernelIdeal.AllReduce

end
-- ==== Proof.PartsE.lean ====
import proofs.«900709_g7700000000000710_dist_ar_v7x_xyz2x2x4_y_m1024_n512_bf16_1_alg».proof.Proof.Moves

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem part19 : Runs m K c (P19 c) (Q19 m c) (atBufs k0_part19 c) := fun Kt => by
  unfold WP atBufs; rw [k0_part19_eq_skeleton]; unfold k0_part19_skel
  simp only [Prog.lift, Prog.bind_op, Prog.bind_ret, Prog.pure_eq_ret]
  unfold P19 Q19
  iintro ⟨#Hrec, #Hlev, ⟨HO, H1, H2, H3, H4, H5, H6⟩, Hk⟩
  iapply (wait_dma m K c (.out 3) 0 (by decide)) $$ [HO H1]
  · rfl
  · rfl
  · iframe # ∗
  iintro ⟨HO, H1⟩
  iapply (wait_dma m K c (.out 4) 0 (by decide)) $$ [HO H2]
  · rfl
  · rfl
  · iframe # ∗
  iintro ⟨HO, H2⟩
  iapply (wait_dma m K c (.out 5) 0 (by decide)) $$ [HO H3]
  · rfl
  · rfl
  · iframe # ∗
  iintro ⟨HO, H3⟩
  iapply (wait_dma m K c (.out 6) 0 (by decide)) $$ [HO H4]
  · rfl
  · rfl
  · iframe # ∗
  iintro ⟨HO, H4⟩
  iapply (wait_dma m K c (.out 7) 0 (by decide)) $$ [HO H5]
  · rfl
  · rfl
  · iframe # ∗
  iintro ⟨HO, H5⟩
  iapply (wait_dma m K c (.ysnd 0) 0 (by decide)) $$ [HO H6]
  · rfl
  · rfl
  · iframe # ∗
  iintro ⟨HO, H6⟩
  unfold WP; rw [wp_ret]; imodintro
  iapply Hk $$ %_
  iframe

theorem part20 : Runs m K c (P20 c) (Q20 m c) (atBufs k0_part20) := fun Kt => by
  unfold WP atBufs; rw [k0_part20_eq_skeleton]; unfold k0_part20_skel
  simp only [Prog.lift, Prog.bind_op, Prog.bind_ret, Prog.pure_eq_ret]
  unfold P20 Q20
  iintro ⟨#Hrec, #Hlev, ⟨HO, H1, H2, H3, H4, H5⟩, Hk⟩
  iapply (wait_dma m K c (.xsnd 0) 0 (by decide)) $$ [HO H1]
  · rfl
  · rfl
  · iframe # ∗
  iintro ⟨HO, H1⟩
  iapply (wait_dma m K c (.ysnd 1) 0 (by decide)) $$ [HO H2]
  · rfl
  · rfl
  · iframe # ∗
  iintro ⟨HO, H2⟩
  iapply (wait_dma m K c (.xsnd 1) 0 (by decide)) $$ [HO H3]
  · rfl
  · rfl
  · iframe # ∗
  iintro ⟨HO, H3⟩
  iapply (wait_dma m K c (.ysnd 2) 0 (by decide)) $$ [HO H4]
  · rfl
  · rfl
  · iframe # ∗
  iintro ⟨HO, H4⟩
  iapply (wait_dma m K c (.xsnd 2) 0 (by decide)) $$ [HO H5]
  · rfl
  · rfl
  · iframe # ∗
  iintro ⟨HO, H5⟩
  unfold WP; rw [wp_ret]; imodintro
  iapply Hk $$ %_
  iframe

theorem part21 : Runs m K c (P21 c) (Q21 m c) (atBufs k0_part21) := fun Kt => by
  unfold WP atBufs; rw [k0_part21_eq_skeleton]; unfold k0_part21_skel
  simp only [Prog.lift, Prog.bind_op, Prog.bind_ret, Prog.pure_eq_ret]
  unfold P21 Q21
  iintro ⟨#Hrec, #Hlev, ⟨HO, H1, H2, H3, H4, H5⟩, Hk⟩
  iapply (wait_dma m K c (.ysnd 3) 0 (by decide)) $$ [HO H1]
  · rfl
  · rfl
  · iframe # ∗
  iintro ⟨HO, H1⟩
  iapply (wait_dma m K c (.xsnd 3) 0 (by decide)) $$ [HO H2]
  · rfl
  · rfl
  · iframe # ∗
  iintro ⟨HO, H2⟩
  iapply (wait_dma m K c (.ysnd 4) 0 (by decide)) $$ [HO H3]
  · rfl
  · rfl
  · iframe # ∗
  iintro ⟨HO, H3⟩
  iapply (wait_dma m K c (.xsnd 4) 0 (by decide)) $$ [HO H4]
  · rfl
  · rfl
  · iframe # ∗
  iintro ⟨HO, H4⟩
  iapply (wait_dma m K c (.ysnd 5) 0 (by decide)) $$ [HO H5]
  · rfl
  · rfl
  · iframe # ∗
  iintro ⟨HO, H5⟩
  unfold WP; rw [wp_ret]; imodintro
  iapply Hk $$ %_
  iframe

theorem close_cell (R : Role) : iprop(recs m K ∗ pos c R 1) ⊢ iprop(|={Set.univ}=> semVal (cell c R.sem) 0) := by
  iintro ⟨#Hrec, Hp⟩
  ihave #HI := (inv_at m K c R) $$ Hrec
  unfold pos
  iapply (Rounds.cell_close ER (sched m) (Set.mem_univ (K (c, R.sem))) (fun h => h) (R := 1) (duties_later m (cell c R.sem))) $$ [Hp]
  iframe # ∗

theorem close_four (i : Fin 8) :
    iprop(recs m K ∗ (pos c (.ysnd i) 1 ∗ pos c (.yrcv i) 1 ∗ pos c (.xsnd i) 1 ∗ pos c (.xrcv i) 1))
      ⊢ iprop(|={Set.univ}=> (semVal (cell c (Role.ysnd i).sem) 0 ∗ semVal (cell c (Role.yrcv i).sem) 0
          ∗ semVal (cell c (Role.xsnd i).sem) 0 ∗ semVal (cell c (Role.xrcv i).sem) 0)) := by
  iintro ⟨#Hrec, H1, H2, H3, H4⟩
  imod (close_cell m K c (.ysnd i)) $$ [H1] with G1
  · iframe # ∗
  imod (close_cell m K c (.yrcv i)) $$ [H2] with G2
  · iframe # ∗
  imod (close_cell m K c (.xsnd i)) $$ [H3] with G3
  · iframe # ∗
  imod (close_cell m K c (.xrcv i)) $$ [H4] with G4
  · iframe # ∗
  imodintro
  iframe

theorem all8_upd (A B : Fin 8 → sProp 𝕄) (h : ∀ i, iprop(recs m K ∗ A i) ⊢ iprop(|={Set.univ}=> B i)) :
    iprop(recs m K ∗ all8 A) ⊢ iprop(|={Set.univ}=> all8 B) := by
  unfold all8
  iintro ⟨#Hrec, H0, H1, H2, H3, H4, H5, H6, H7⟩
  imod (h 0) $$ [H0] with G0
  · iframe # ∗
  imod (h 1) $$ [H1] with G1
  · iframe # ∗
  imod (h 2) $$ [H2] with G2
  · iframe # ∗
  imod (h 3) $$ [H3] with G3
  · iframe # ∗
  imod (h 4) $$ [H4] with G4
  · iframe # ∗
  imod (h 5) $$ [H5] with G5
  · iframe # ∗
  imod (h 6) $$ [H6] with G6
  · iframe # ∗
  imod (h 7) $$ [H7] with G7
  · iframe # ∗
  imodintro
  iframe

theorem all9_upd (A B : Fin 9 → sProp 𝕄) (h : ∀ i, iprop(recs m K ∗ A i) ⊢ iprop(|={Set.univ}=> B i)) :
    iprop(recs m K ∗ all9 A) ⊢ iprop(|={Set.univ}=> all9 B) := by
  unfold all9
  iintro ⟨#Hrec, H0, H1, H2, H3, H4, H5, H6, H7, H8⟩
  imod (h 0) $$ [H0] with G0
  · iframe # ∗
  imod (h 1) $$ [H1] with G1
  · iframe # ∗
  imod (h 2) $$ [H2] with G2
  · iframe # ∗
  imod (h 3) $$ [H3] with G3
  · iframe # ∗
  imod (h 4) $$ [H4] with G4
  · iframe # ∗
  imod (h 5) $$ [H5] with G5
  · iframe # ∗
  imod (h 6) $$ [H6] with G6
  · iframe # ∗
  imod (h 7) $$ [H7] with G7
  · iframe # ∗
  imod (h 8) $$ [H8] with G8
  · iframe # ∗
  imodintro
  iframe

theorem cells_closed : iprop(recs m K ∗ posAll c 1) ⊢ iprop(|={Set.univ}=> closedAll c) := by
  unfold posAll closedAll
  iintro ⟨#Hrec, -, Hsyn, Hstg, Hout, Hrest⟩
  imod (close_cell m K c .syn) $$ [Hsyn] with Gsyn
  · iframe # ∗
  imod (close_cell m K c .stg) $$ [Hstg] with Gstg
  · iframe # ∗
  imod (all9_upd m K (fun j => pos c (.out j) 1) (fun j => semVal (cell c (Role.out j).sem) 0) (fun j => close_cell m K c (.out j))) $$ [Hout] with Gout
  · iframe # ∗
  imod (all8_upd m K (fun i => iprop(pos c (.ysnd i) 1 ∗ pos c (.yrcv i) 1 ∗ pos c (.xsnd i) 1 ∗ pos c (.xrcv i) 1))
      (fun i => iprop(semVal (cell c (Role.ysnd i).sem) 0 ∗ semVal (cell c (Role.yrcv i).sem) 0 ∗ semVal (cell c (Role.xsnd i).sem) 0 ∗ semVal (cell c (Role.xrcv i).sem) 0))
      (fun i => close_four m K c i)) $$ [Hrest] with Grest
  · iframe # ∗
  imodintro
  iframe

theorem snd_back :
    (all8 (fun i => iprop(S m c i fullShare.left ∗ S m c i fullShare.right)) : sProp 𝕄) ⊢ wholeAt sndM c fullShare (sent m c) :=
  (all8_mono fun i => (chunk_halves sndM c i fullShare (sent m c)).2).trans (join8_same sndM c fullShare (sent m c)).1

theorem y_back : (all8 (Y m c) : sProp 𝕄) ⊢ wholeAt yrcM c fullShare (sent m (yp c)) := (join8_same yrcM c fullShare (sent m (yp c))).1
theorem x_back : (all8 (X m c) : sProp 𝕄) ⊢ wholeAt xrcM c fullShare (sums m (xn c)) := (join8_same xrcM c fullShare (sums m (xn c))).1
theorem ml_back : (all8 (fun i => M m c i fullShare.left) : sProp 𝕄) ⊢ wholeAt sumM c fullShare.left (sums m c) :=
  (join8_same sumM c fullShare.left (sums m c)).1

theorem finish : iprop(recs m K ∗ EndPieces m c) ⊢ iprop(|={Set.univ}=> Φ₁ m c) := by
  unfold EndPieces Φ₁ scratchAny Stg
  iintro ⟨#Hrec, Hstg, Hin, Hir, Hpos, Hsnd, Hy, Hx, Hml, Hmr, Hoo, Hoj⟩
  imod (cells_closed m K c) $$ [Hpos] with Hcl
  · iframe # ∗
  imodintro
  isplitl [Hin Hir]
  · iapply (in_split m c).2; iframe
  isplitl [Hoo Hoj]
  · iapply (out_join m c); iframe
  isplitr [Hcl]
  · isplitl [Hstg]; · iexists (staged m c); iexact Hstg
    isplitl [Hsnd]; · iexists (sent m c); iapply (snd_back m c) $$ Hsnd
    isplitl [Hy]; · iexists (sent m (yp c)); iapply (y_back m c) $$ Hy
    isplitl [Hx]; · iexists (sums m (xn c)); iapply (x_back m c) $$ Hx
    iexists (sums m c)
    iapply (whole_halves sumM c fullShare (sums m c)).2
    isplitl [Hml]; · iapply (ml_back m c) $$ Hml
    iexact Hmr
  iexact Hcl

/-- info: 'Cert.KernelIdeal.AllReduce.part19' depends on axioms: [propext, Classical.choice, Quot.sound] -/
#guard_msgs in #print axioms part19
/-- info: 'Cert.KernelIdeal.AllReduce.part20' depends on axioms: [propext, Classical.choice, Quot.sound] -/
#guard_msgs in #print axioms part20
/-- info: 'Cert.KernelIdeal.AllReduce.part21' depends on axioms: [propext, Classical.choice, Quot.sound] -/
#guard_msgs in #print axioms part21

end Cert.KernelIdeal.AllReduce

end
-- ==== Proof.Data.lean ====
import proofs.«900709_g7700000000000710_dist_ar_v7x_xyz2x2x4_y_m1024_n512_bf16_1_alg».proof.Proof.State

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owe c 18
    | ⟨_ + 1, _⟩ => 0

end Cert.KernelIdeal.AllReduce

end
-- ==== Proof.Body.lean ====
import proofs.«900709_g7700000000000710_dist_ar_v7x_xyz2x2x4_y_m1024_n512_bf16_1_alg».proof.Proof.PartsA
import proofs.«900709_g7700000000000710_dist_ar_v7x_xyz2x2x4_y_m1024_n512_bf16_1_alg».proof.Proof.PartsB
import proofs.«900709_g7700000000000710_dist_ar_v7x_xyz2x2x4_y_m1024_n512_bf16_1_alg».proof.Proof.PartsC
import proofs.«900709_g7700000000000710_dist_ar_v7x_xyz2x2x4_y_m1024_n512_bf16_1_alg».proof.Proof.PartsD
import proofs.«900709_g7700000000000710_dist_ar_v7x_xyz2x2x4_y_m1024_n512_bf16_1_alg».proof.Proof.PartsE
import proofs.«900709_g7700000000000710_dist_ar_v7x_xyz2x2x4_y_m1024_n512_bf16_1_alg».proof.Proof.Data

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem end_pay_out8 (c : Dev nD) : pay m (.out 8) c = iprop(OutOwn1 m c ∗ wholeAt sumM c fullShare.right (sums m c)) := rfl
theorem end_pay_out0 (c : Dev nD) : pay m (.out 0) c = iprop(OutJ1 m c 0 ∗ X m c 0) := rfl
theorem end_pay_out1 (c : Dev nD) : pay m (.out 1) c = iprop(OutJ1 m c 1 ∗ X m c 1) := rfl
theorem end_pay_out2 (c : Dev nD) : pay m (.out 2) c = iprop(OutJ1 m c 2 ∗ X m c 2) := rfl
theorem end_pay_out3 (c : Dev nD) : pay m (.out 3) c = iprop(OutJ1 m c 3 ∗ X m c 3) := rfl
theorem end_pay_out4 (c : Dev nD) : pay m (.out 4) c = iprop(OutJ1 m c 4 ∗ X m c 4) := rfl
theorem end_pay_out5 (c : Dev nD) : pay m (.out 5) c = iprop(OutJ1 m c 5 ∗ X m c 5) := rfl
theorem end_pay_out6 (c : Dev nD) : pay m (.out 6) c = iprop(OutJ1 m c 6 ∗ X m c 6) := rfl
theorem end_pay_out7 (c : Dev nD) : pay m (.out 7) c = iprop(OutJ1 m c 7 ∗ X m c 7) := rfl
theorem end_pay_ysnd (c : Dev nD) (i : Fin 8) : pay m (.ysnd i) c = S m c i fullShare.left := rfl
theorem end_pay_xsnd (c : Dev nD) (i : Fin 8) : pay m (.xsnd i) c = M m c i fullShare.left := rfl

set_option maxHeartbeats 4000000 in
set_option maxRecDepth 8000 in

theorem sound_body (K : Dev nD × SemLoc sig → ℕ) (c : Dev nD) (Kt : PUnit → sProp 𝕄) :
    iprop(recs m K ∗ levAts L lv ∗ posAll c 0 ∗ toksAll c ∗ crdAll c ∗ owesN c 18
        ∗ wholeAt inM c fullShare (xin m c) ∗ wholeAt outM c fullShare (out0 m c) ∗ scratchAny c
        ∗ ((Φ₁ m c ∗ owesN c 0) -∗ Kt ⟨⟩))
      ⊢ WP c (atBufs cc0_body) Kt := by
  unfold WP atBufs; rw [cc0_body_eq_skeleton]; unfold cc0_body_skel
  rw [k0_part22_eq_skeleton]; unfold k0_part22_skel
  simp only [Prog.lift, Prog.bind_op, Prog.bind_ret, Prog.pure_eq_ret, wp_bind]
  unfold posAll toksAll crdAll scratchAny all8 all9
  iintro ⟨#Hrec, #Hlev,
    ⟨HpB, HpS, HpG, ⟨Hpo0, Hpo1, Hpo2, Hpo3, Hpo4, Hpo5, Hpo6, Hpo7, Hpo8⟩,
      ⟨Hpys0, Hpyr0, Hpxs0, Hpxr0⟩, ⟨Hpys1, Hpyr1, Hpxs1, Hpxr1⟩, ⟨Hpys2, Hpyr2, Hpxs2, Hpxr2⟩, ⟨Hpys3, Hpyr3, Hpxs3, Hpxr3⟩,
      ⟨Hpys4, Hpyr4, Hpxs4, Hpxr4⟩, ⟨Hpys5, Hpyr5, Hpxs5, Hpxr5⟩, ⟨Hpys6, Hpyr6, Hpxs6, Hpxr6⟩, ⟨Hpys7, Hpyr7, Hpxs7, Hpxr7⟩⟩,
    ⟨HtB, HtS, HtG, ⟨Hto0, Hto1, Hto2, Hto3, Hto4, Hto5, Hto6, Hto7, Hto8⟩,
      ⟨Htys0, Htyr0, Htxs0, Htxr0⟩, ⟨Htys1, Htyr1, Htxs1, Htxr1⟩, ⟨Htys2, Htyr2, Htxs2, Htxr2⟩, ⟨Htys3, Htyr3, Htxs3, Htxr3⟩,
      ⟨Htys4, Htyr4, Htxs4, Htxr4⟩, ⟨Htys5, Htyr5, Htxs5, Htxr5⟩, ⟨Htys6, Htyr6, Htxs6, Htxr6⟩, ⟨Htys7, Htyr7, Htxs7, Htxr7⟩⟩,
    ⟨HcB, HcS, ⟨Hcyr0, Hcxr0⟩, ⟨Hcyr1, Hcxr1⟩, ⟨Hcyr2, Hcxr2⟩, ⟨Hcyr3, Hcxr3⟩, ⟨Hcyr4, Hcxr4⟩, ⟨Hcyr5, Hcxr5⟩, ⟨Hcyr6, Hcxr6⟩, ⟨Hcyr7, Hcxr7⟩⟩,
    HO, Hin, Hout, ⟨Hstg, Hsnd, Hyrc, Hxrc, Hsum⟩, Hk⟩

  ihave HSs := (split8_any sndM c) $$ Hsnd
  ihave HMs := (split8_any sumM c) $$ Hsum
  ihave Hin' := (in_split m c).1 $$ Hin
  ihave Hout' := (out_split m c).1 $$ Hout
  unfold all8
  icases HSs with ⟨HS0, HS1, HS2, HS3, HS4, HS5, HS6, HS7⟩
  icases HMs with ⟨HM0, HM1, HM2, HM3, HM4, HM5, HM6, HM7⟩
  icases Hin' with ⟨HinO, HinR⟩
  icases Hout' with ⟨HoutO, HoJ0, HoJ1, HoJ2, HoJ3, HoJ4, HoJ5, HoJ6, HoJ7⟩

  iapply (part1 m K c _)
  iframe Hrec Hlev
  isplitl [HO HtB HtS Hyrc Hxrc HinO Hstg HtG HpG HS0]
  · unfold P1 S0; iframe
  iintro %v2 %v5 %v8 %v9 %v10 %v29 HQ
  unfold Q1
  icases HQ with ⟨HO, Hstg, HinO, HpG, HS0⟩

  iapply (part2 m K c _ v29 rfl _)
  iframe Hrec Hlev
  isplitl [Hstg HS0 HS1 HS2 HS3 HS4 HS5 HS6]
  · unfold P2 S0; iframe
  iintro %v59 HQ
  unfold Q2
  icases HQ with ⟨Hstg, HS0, HS1, HS2, HS3, HS4, HS5, HS6⟩

  iapply (part3 m K c v2 v8 v9 v59 _)
  iframe Hrec Hlev
  isplitl [Hstg HS6 HS7 HS0 HcB HpB HO Htys0 Htyr0]
  · unfold P3 S0 Wt; iframe
  iintro HQ
  unfold Q3
  icases HQ with ⟨Hstg, HS6, HS7, HS0, HpB, ⟨HYe1, HYe2, HYe3, HYe4, HYe5, HYe6, HYe7⟩, Hcys0, HO⟩

  iapply (part4 m K c v2 v8 v9 _)
  iframe Hrec Hlev
  isplitl [HO HS1 HYe1 Htys1 Htyr1 HS2 HYe2 Htys2 Htyr2 HS3 HYe3 Htys3 Htyr3]
  · unfold P4 Psy; iframe
  iintro %_ HQ
  unfold Q4 Qsy
  icases HQ with ⟨HO, ⟨HS1, Hcys1⟩, ⟨HS2, Hcys2⟩, ⟨HS3, Hcys3⟩⟩

  iapply (part5 m K c v2 v8 v9 _)
  iframe Hrec Hlev
  isplitl [HO HS4 HYe4 Htys4 Htyr4 HS5 HYe5 Htys5 Htyr5 HS6 HYe6 Htys6 Htyr6]
  · unfold P5 Psy; iframe
  iintro %w5 HQ
  unfold Q5 Qsy
  icases HQ with ⟨HO, ⟨HS4, Hcys4⟩, ⟨HS5, Hcys5⟩, ⟨HS6, Hcys6⟩⟩

  iapply (part6 m K c v2 v8 v9 w5 _)
  iframe Hrec Hlev
  isplitl [HO HS7 HYe7 Htys7 Htyr7 HcS HpS Hcyr0 Hpyr0 HS0 HM0]
  · unfold P6 Psy Pad Wt M0; iframe
  iintro %w6 HQ
  unfold Q6 Qsy Qad all8
  icases HQ with ⟨HO, ⟨HS7, Hcys7⟩, HpS, ⟨HXe0, HXe1, HXe2, HXe3, HXe4, HXe5, HXe6, HXe7⟩, ⟨Hpyr0, HY0, HS0, HM0⟩⟩

  iapply (part7 m K c v2 v5 v8 v9 v10 w6 _)
  iframe Hrec Hlev
  isplitl [HO HM0 HXe0 Htxs0 Htxr0 Hcyr1 Hpyr1 HS1 HM1]
  · unfold Pxa Psx Pad Wt M0; iframe
  iintro %w7 HQ
  unfold Qxa Qsx Qad
  icases HQ with ⟨HO, ⟨HM0, Hcxs0⟩, ⟨Hpyr1, HY1, HS1, HM1⟩⟩

  iapply (part8 m K c v2 v5 v8 v9 v10 w7 _)
  iframe Hrec Hlev
  isplitl [HO HM1 HXe1 Htxs1 Htxr1 Hcyr2 Hpyr2 HS2 HM2]
  · unfold Pxa Psx Pad Wt M0; iframe
  iintro %w8 HQ
  unfold Qxa Qsx Qad
  icases HQ with ⟨HO, ⟨HM1, Hcxs1⟩, ⟨Hpyr2, HY2, HS2, HM2⟩⟩

  iapply (part9 m K c v2 v5 v8 v9 v10 w8 _)
  iframe Hrec Hlev
  isplitl [HO HM2 HXe2 Htxs2 Htxr2 Hcyr3 Hpyr3 HS3 HM3]
  · unfold Pxa Psx Pad Wt M0; iframe
  iintro %_ HQ
  unfold Qxa Qsx Qad
  icases HQ with ⟨HO, ⟨HM2, Hcxs2⟩, ⟨Hpyr3, HY3, HS3, HM3⟩⟩

  iapply (part10 m K c v2 v5 v8 v9 v10 _)
  iframe Hrec Hlev
  isplitl [HO HM3 HXe3 Htxs3 Htxr3 Hcyr4 Hpyr4 HS4 HM4]
  · unfold Pxa Psx Pad Wt M0; iframe
  iintro %_ HQ
  unfold Qxa Qsx Qad
  icases HQ with ⟨HO, ⟨HM3, Hcxs3⟩, ⟨Hpyr4, HY4, HS4, HM4⟩⟩

  iapply (part11 m K c v2 v5 v8 v9 v10 _)
  iframe Hrec Hlev
  isplitl [HO HM4 HXe4 Htxs4 Htxr4 Hcyr5 Hpyr5 HS5 HM5]
  · unfold Pxa Psx Pad Wt M0; iframe
  iintro %_ HQ
  unfold Qxa Qsx Qad
  icases HQ with ⟨HO, ⟨HM4, Hcxs4⟩, ⟨Hpyr5, HY5, HS5, HM5⟩⟩

  iapply (part12 m K c v2 v5 v8 v9 v10 _)
  iframe Hrec Hlev
  isplitl [HO HM5 HXe5 Htxs5 Htxr5 Hcyr6 Hpyr6 HS6 HM6]
  · unfold Pxa Psx Pad Wt M0; iframe
  iintro %_ HQ
  unfold Qxa Qsx Qad
  icases HQ with ⟨HO, ⟨HM5, Hcxs5⟩, ⟨Hpyr6, HY6, HS6, HM6⟩⟩

  iapply (part13 m K c v2 v5 v8 v9 v10 _)
  iframe Hrec Hlev
  isplitl [HO HM6 HXe6 Htxs6 Htxr6 Hcyr7 Hpyr7 HS7 HM7 HXe7 Htxs7 Htxr7]
  · unfold P13 Psx Pad Wt M0; iframe
  iintro %_ HQ
  unfold Q13 Qsx
  icases HQ with ⟨HO, ⟨HM6, Hcxs6⟩, Hpyr7, HY7, HS7, ⟨HM7, Hcxs7⟩⟩

  iapply (part14 m K c v2 v5 v8 v10 _)
  iframe Hrec Hlev
  isplitl [HO HM0 HM1 HM2 HM3 HM4 HM5 HM6 HM7 HoutO Hto8 Hcxr0 Hpxr0 HoJ0 Hto0]
  · unfold P14 Pod Wt all8; iframe
  iintro %v391 HQ
  unfold Q14 Qod
  icases HQ with ⟨HO, Hco8, ⟨Hpxr0, Hco0⟩⟩

  iapply (part15 m K c v5 v8 v10 v391 _)
  iframe Hrec Hlev
  isplitl [HO Hcxr1 Hpxr1 HoJ1 Hto1 Hcxr2 Hpxr2 HoJ2 Hto2]
  · unfold P15 Pod Wt; iframe
  iintro %_ HQ
  unfold Q15 Qod
  icases HQ with ⟨HO, ⟨Hpxr1, Hco1⟩, ⟨Hpxr2, Hco2⟩⟩

  iapply (part16 m K c v5 v8 v10 v391 _)
  iframe Hrec Hlev
  isplitl [HO Hcxr3 Hpxr3 HoJ3 Hto3 Hcxr4 Hpxr4 HoJ4 Hto4]
  · unfold P16 Pod Wt; iframe
  iintro %r16 HQ
  unfold Q16 Qod
  icases HQ with ⟨HO, ⟨Hpxr3, Hco3⟩, ⟨Hpxr4, Hco4⟩⟩

  iapply (part17 m K c v5 v8 v10 v391 r16.1 r16.2 _)
  iframe Hrec Hlev
  isplitl [HO Hcxr5 Hpxr5 HoJ5 Hto5 Hcxr6 Hpxr6 HoJ6 Hto6]
  · unfold P17 Pod Wt; iframe
  iintro %r17 HQ
  unfold Q17 Qod
  icases HQ with ⟨HO, ⟨Hpxr5, Hco5⟩, ⟨Hpxr6, Hco6⟩⟩

  iapply (part18 m K c v5 v8 v391 r17.1 r17.2 _)
  iframe Hrec Hlev
  isplitl [HO Hcxr7 Hpxr7 HoJ7 Hto7 Hpo8 Hco8 Hco0 Hpo0 Hco1 Hpo1 Hco2 Hpo2]
  · unfold P18 Pod Wt; iframe
  iintro %_ HQ
  unfold Q18 Qod Wd
  rw [end_pay_out8, end_pay_out0, end_pay_out1, end_pay_out2]
  icases HQ with ⟨HO, ⟨Hpxr7, Hco7⟩, ⟨Hpo8, HoutO, HsumR⟩, ⟨Hpo0, HoJ0, HX0⟩, ⟨Hpo1, HoJ1, HX1⟩, ⟨Hpo2, HoJ2, HX2⟩⟩

  iapply (part19 m K c _)
  iframe Hrec Hlev
  isplitl [HO Hco3 Hpo3 Hco4 Hpo4 Hco5 Hpo5 Hco6 Hpo6 Hco7 Hpo7 Hcys0 Hpys0]
  · unfold P19 Wt; iframe
  iintro %_ HQ
  unfold Q19 Wd
  rw [end_pay_out3, end_pay_out4, end_pay_out5, end_pay_out6, end_pay_out7]
  simp only [end_pay_ysnd, end_pay_xsnd]
  icases HQ with ⟨HO, ⟨Hpo3, HoJ3, HX3⟩, ⟨Hpo4, HoJ4, HX4⟩, ⟨Hpo5, HoJ5, HX5⟩, ⟨Hpo6, HoJ6, HX6⟩, ⟨Hpo7, HoJ7, HX7⟩, ⟨Hpys0, HSl0⟩⟩

  iapply (part20 m K c _)
  iframe Hrec Hlev
  isplitl [HO Hcxs0 Hpxs0 Hcys1 Hpys1 Hcxs1 Hpxs1 Hcys2 Hpys2 Hcxs2 Hpxs2]
  · unfold P20 Wt; iframe
  iintro %_ HQ
  unfold Q20 Wd
  simp only [end_pay_ysnd, end_pay_xsnd]
  icases HQ with ⟨HO, ⟨Hpxs0, HMl0⟩, ⟨Hpys1, HSl1⟩, ⟨Hpxs1, HMl1⟩, ⟨Hpys2, HSl2⟩, ⟨Hpxs2, HMl2⟩⟩

  iapply (part21 m K c _)
  iframe Hrec Hlev
  isplitl [HO Hcys3 Hpys3 Hcxs3 Hpxs3 Hcys4 Hpys4 Hcxs4 Hpxs4 Hcys5 Hpys5]
  · unfold P21 Wt; iframe
  iintro %_ HQ
  unfold Q21 Wd
  simp only [end_pay_ysnd, end_pay_xsnd]
  icases HQ with ⟨HO, ⟨Hpys3, HSl3⟩, ⟨Hpxs3, HMl3⟩, ⟨Hpys4, HSl4⟩, ⟨Hpxs4, HMl4⟩, ⟨Hpys5, HSl5⟩⟩

  iapply (wait_dma m K c (.xsnd 5) 0 (by decide)) $$ [HO Hcxs5 Hpxs5]
  · rfl
  · rfl
  · unfold Wt; iframe # ∗
  iintro ⟨HO, Hw⟩
  unfold Wd
  simp only [end_pay_ysnd, end_pay_xsnd]
  icases Hw with ⟨Hpxs5, HMl5⟩
  iapply (wait_dma m K c (.ysnd 6) 0 (by decide)) $$ [HO Hcys6 Hpys6]
  · rfl
  · rfl
  · unfold Wt; iframe # ∗
  iintro ⟨HO, Hw⟩
  unfold Wd
  simp only [end_pay_ysnd, end_pay_xsnd]
  icases Hw with ⟨Hpys6, HSl6⟩
  iapply (wait_dma m K c (.xsnd 6) 0 (by decide)) $$ [HO Hcxs6 Hpxs6]
  · rfl
  · rfl
  · unfold Wt; iframe # ∗
  iintro ⟨HO, Hw⟩
  unfold Wd
  simp only [end_pay_ysnd, end_pay_xsnd]
  icases Hw with ⟨Hpxs6, HMl6⟩
  unfold WP; rw [wp_ret]
  imodintro
  iapply (wait_dma m K c (.ysnd 7) 0 (by decide)) $$ [HO Hcys7 Hpys7]
  · rfl
  · rfl
  · unfold Wt; iframe # ∗
  iintro ⟨HO, Hw⟩
  unfold Wd
  simp only [end_pay_ysnd, end_pay_xsnd]
  icases Hw with ⟨Hpys7, HSl7⟩
  iapply (wait_dma m K c (.xsnd 7) 0 (by decide)) $$ [HO Hcxs7 Hpxs7]
  · rfl
  · rfl
  · unfold Wt; iframe # ∗
  iintro ⟨HO, Hw⟩
  unfold Wd
  simp only [end_pay_ysnd, end_pay_xsnd]
  icases Hw with ⟨Hpxs7, HMl7⟩

  imod (finish m K c) $$ [Hstg HinO HinR HpB HpS HpG Hpo0 Hpo1 Hpo2 Hpo3 Hpo4 Hpo5 Hpo6 Hpo7 Hpo8
      Hpys0 Hpyr0 Hpxs0 Hpxr0 Hpys1 Hpyr1 Hpxs1 Hpxr1 Hpys2 Hpyr2 Hpxs2 Hpxr2 Hpys3 Hpyr3 Hpxs3 Hpxr3
      Hpys4 Hpyr4 Hpxs4 Hpxr4 Hpys5 Hpyr5 Hpxs5 Hpxr5 Hpys6 Hpyr6 Hpxs6 Hpxr6 Hpys7 Hpyr7 Hpxs7 Hpxr7
      HSl0 HS0 HSl1 HS1 HSl2 HS2 HSl3 HS3 HSl4 HS4 HSl5 HS5 HSl6 HS6 HSl7 HS7
      HY0 HY1 HY2 HY3 HY4 HY5 HY6 HY7 HX0 HX1 HX2 HX3 HX4 HX5 HX6 HX7
      HMl0 HMl1 HMl2 HMl3 HMl4 HMl5 HMl6 HMl7 HsumR HoutO HoJ0 HoJ1 HoJ2 HoJ3 HoJ4 HoJ5 HoJ6 HoJ7] with HΦ
  · isplitr; · iexact Hrec
    unfold EndPieces posAll all8 all9
    beta_reduce
    iframe
  rw [wp_ret]
  imodintro
  iapply Hk
  iframe

theorem univ_W0 : (Finset.univ : Finset (Fin cfg0.W)) = ∅ := by decide

theorem body_obligation (c : Dev nD) : Pipeline.BodyObligationLoose (dats m 0 c) (defs₀ (F := F)) 𝒱₀ () Set.univ := fun t => by
  rw [fin_N t, univ_W0, bigSep_empty, bigSep_empty]
  show iprop(Φ₀ m c ∗ (dats m 0 c).owesAt () t₀.castSucc ∗ emp)
    ⊢ WP c (atBufs cc0_body)
        (fun _ => iprop(Φ₁ m c ∗ (dats m 0 c).owesAt () t₀.succ ∗ emp))
  unfold Φ₀ Dat.owesAt Pipeline.owesWithin
  rw [show (dats m 0 c).owed t₀.castSucc = owe c 18 from rfl, show (dats m 0 c).owed t₀.succ = 0 from rfl]
  iintro ⟨⟨⟨%K, Hrec, Hpos, Htok⟩, Hcrd, Hlev, Hin, Hout, Hscr⟩, ⟨%W, %hW, HO⟩, -⟩
  iapply (sound_body m K c fun _ => iprop(Φ₁ m c ∗ (∃ W, ⌜↑W ⊆ (dats m 0 c).bound () t₀.succ⌝ ∗ owes (c : Thread nD τ) 0 W) ∗ emp))
  isplitl [Hrec]; · iexact Hrec
  isplitl [Hlev]; · iexact Hlev
  isplitl [Hpos]; · iexact Hpos
  isplitl [Htok]; · iexact Htok
  isplitl [Hcrd]; · iexact Hcrd
  isplitl [HO]; · unfold owesN; iexists W; iexact HO
  isplitl [Hin]; · iexact Hin
  isplitl [Hout]; · iexact Hout
  isplitl [Hscr]; · iexact Hscr
  unfold owesN
  iintro ⟨HΦ, ⟨%W', HO⟩⟩
  isplitl [HΦ]; · iexact HΦ
  isplitl [HO]
  · iexists W'; isplitr; · ipureintro; exact fun _ _ => Or.inl trivial
    iexact HO
  iempintro

/-- info: 'Cert.KernelIdeal.AllReduce.body_obligation' depends on axioms: [propext, Classical.choice, Quot.sound] -/
#guard_msgs in #print axioms body_obligation

end Cert.KernelIdeal.AllReduce

end
-- ==== Proof.Launch.lean ====
import proofs.«900709_g7700000000000710_dist_ar_v7x_xyz2x2x4_y_m1024_n512_bf16_1_alg».proof.Proof.Data

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem sep_assoc_eq (A B C : sProp 𝕄) : iprop((A ∗ B) ∗ C) = iprop(A ∗ B ∗ C) :=
  Std.Associative.assoc (op := (BI.sep : sProp 𝕄 → sProp 𝕄 → sProp 𝕄)) A B C

def restRoles (Φ : Role → sProp 𝕄) : sProp 𝕄 := iprop(Φ .syn ∗ Φ .stg ∗ all9 (fun j => Φ (.out j))
  ∗ all8 (fun i => iprop(Φ (.ysnd i) ∗ Φ (.yrcv i) ∗ Φ (.xsnd i) ∗ Φ (.xrcv i))))
def allRoles (Φ : Role → sProp 𝕄) : sProp 𝕄 := iprop(Φ .bar ∗ restRoles Φ)

def semList : List (SemLoc sig) := [Role.syn.sem, Role.stg.sem, (Role.out 0).sem, (Role.out 1).sem, (Role.out 2).sem, (Role.out 3).sem, (Role.out 4).sem, (Role.out 5).sem, (Role.out 6).sem, (Role.out 7).sem, (Role.out 8).sem, (Role.ysnd 0).sem, (Role.yrcv 0).sem, (Role.xsnd 0).sem, (Role.xrcv 0).sem, (Role.ysnd 1).sem, (Role.yrcv 1).sem, (Role.xsnd 1).sem, (Role.xrcv 1).sem, (Role.ysnd 2).sem, (Role.yrcv 2).sem, (Role.xsnd 2).sem, (Role.xrcv 2).sem, (Role.ysnd 3).sem, (Role.yrcv 3).sem, (Role.xsnd 3).sem, (Role.xrcv 3).sem, (Role.ysnd 4).sem, (Role.yrcv 4).sem, (Role.xsnd 4).sem, (Role.xrcv 4).sem, (Role.ysnd 5).sem, (Role.yrcv 5).sem, (Role.xsnd 5).sem, (Role.xrcv 5).sem, (Role.ysnd 6).sem, (Role.yrcv 6).sem, (Role.xsnd 6).sem, (Role.xrcv 6).sem, (Role.ysnd 7).sem, (Role.yrcv 7).sem, (Role.xsnd 7).sem, (Role.xrcv 7).sem]

theorem semList_univ : (Finset.univ.erase (SemLoc.reg barS) : Finset (SemLoc sig)) = semList.toFinset := by decide
theorem semList_nodup : (semList : List (SemLoc sig)).Nodup := by decide

omit [FloatOps F] in

theorem bigSep_rest (Ψ : SemLoc sig → sProp 𝕄) : bigSep (Finset.univ.erase (SemLoc.reg barS)) Ψ = restRoles (fun R => Ψ R.sem) := by
  rw [bigSep_eq_bigSepL_of_eq semList semList_univ semList_nodup]
  unfold restRoles all9 all8 semList
  simp only [bigSepL_cons_cons, bigSepL_singleton, sep_assoc_eq]
  rfl

omit [FloatOps F] in

theorem bigSep_roles (Ψ : SemLoc sig → sProp 𝕄) : bigSep Finset.univ Ψ = allRoles (fun R => Ψ R.sem) := by
  rw [bigSep_univ_at Ψ (SemLoc.reg barS), bigSep_rest]; rfl

theorem payDev_payDev (c : Dev nD) (j : ℕ) : payDev (payDev c j) j = c := by
  unfold payDev; split_ifs <;> first | rw [yp_yp] | rw [xn_xn]

omit [FloatOps F] in
theorem cred_pay (c : Dev nD) (j : ℕ) : (Pipeline.launchCred (fun d => payT d j) c : sProp 𝕄) ⊢ crd c (payRole j) :=
  Pipeline.launchCred_tallyAt (payRole j).sem (fun d => payDev d j) (fun d => payDev d j) (fun c => payDev_payDev c j) (fun c => payDev_payDev c j)
    () (payRole j).amount c

omit [FloatOps F] in
theorem launchCred_owe_succ (c : Dev nD) (n : ℕ) :
    (Pipeline.launchCred (fun d => owe d (n + 1)) c : sProp 𝕄) = iprop(Pipeline.launchCred (fun d => owe d n) c ∗ Pipeline.launchCred (fun d => payT d (17 - n)) c) :=
  Pipeline.launchCred_add (fun d => owe d n) (fun d => payT d (17 - n)) c

omit [FloatOps F] in
theorem creds (c : Dev nD) : (Pipeline.launchCred (fun d => owe d 18) c : sProp 𝕄) ⊢ crdAll c := by
  simp only [launchCred_owe_succ]
  unfold crdAll all8
  iintro ⟨⟨⟨⟨⟨⟨⟨⟨⟨⟨⟨⟨⟨⟨⟨⟨⟨⟨-, H17⟩, H16⟩, H15⟩, H14⟩, H13⟩, H12⟩, H11⟩, H10⟩, H9⟩, H8⟩, H7⟩, H6⟩, H5⟩, H4⟩, H3⟩, H2⟩, H1⟩, H0⟩
  isplitl [H0]; · iapply (cred_pay (F := F) c 0); iexact H0
  isplitl [H1]; · iapply (cred_pay (F := F) c 1); iexact H1
  isplitl [H2 H10]
  · isplitl [H2]; · iapply (cred_pay (F := F) c 2); iexact H2
    iapply (cred_pay (F := F) c 10); iexact H10
  isplitl [H3 H11]
  · isplitl [H3]; · iapply (cred_pay (F := F) c 3); iexact H3
    iapply (cred_pay (F := F) c 11); iexact H11
  isplitl [H4 H12]
  · isplitl [H4]; · iapply (cred_pay (F := F) c 4); iexact H4
    iapply (cred_pay (F := F) c 12); iexact H12
  isplitl [H5 H13]
  · isplitl [H5]; · iapply (cred_pay (F := F) c 5); iexact H5
    iapply (cred_pay (F := F) c 13); iexact H13
  isplitl [H6 H14]
  · isplitl [H6]; · iapply (cred_pay (F := F) c 6); iexact H6
    iapply (cred_pay (F := F) c 14); iexact H14
  isplitl [H7 H15]
  · isplitl [H7]; · iapply (cred_pay (F := F) c 7); iexact H7
    iapply (cred_pay (F := F) c 15); iexact H15
  isplitl [H8 H16]
  · isplitl [H8]; · iapply (cred_pay (F := F) c 8); iexact H8
    iapply (cred_pay (F := F) c 16); iexact H16
  isplitl [H9]; · iapply (cred_pay (F := F) c 9); iexact H9
  iapply (cred_pay (F := F) c 17); iexact H17

abbrev kcell (ds : Dev nD × SemLoc sig) : GSem nD τ sig := cell ds.1 ds.2
theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  subst h1; subst h2; rfl
def allCells : Finset (GSem nD τ sig) := Finset.univ.map ⟨kcell, kcell_injective⟩

abbrev ktok (ds : Dev nD × SemLoc sig) : GSem nD τ sig × ℕ × Unit := (kcell ds, 0, ())
theorem ktok_injective : Function.Injective (ktok : Dev nD × SemLoc sig → GSem nD τ sig × ℕ × Unit) :=
  fun a b h => kcell_injective (congrArg Prod.fst h)
def allToks : Finset (GSem nD τ sig × ℕ × Unit) := Finset.univ.map ⟨ktok, ktok_injective⟩

def u₀ : UU :=
  (initOf (Pipeline.cells cfgs cellOf_inj) (Pipeline.launchToks cfgs cellOf_inj), initOf allCells allToks)

def G (c : Dev nD) : sProp 𝕄 :=
  iprop((bigSep Finset.univ fun sm : SemLoc sig => roundState ER (sched m) (kcell (c, sm)) 0)
    ∗ (bigSep Finset.univ fun sm : SemLoc sig => iprop(atPos ER (kcell (c, sm)) 0 ∅ 0 ∗ reached ER (kcell (c, sm)) 0))
    ∗ bigSep Finset.univ fun sm : SemLoc sig => dutyTok ER (kcell (c, sm)) 0 ())

def G' (c : Dev nD) : sProp 𝕄 := iprop(∃ K, recs m K ∗ posAll c 0 ∗ toksAll c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ (kcell (c, sm)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun sm : SemLoc sig => dutyTok ER (kcell (c, sm)) 0 () := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev OwnK : Type := {sm : SemLoc sig // sm ≠ SemLoc.reg barS}
abbrev osem : OwnK → SemLoc sig := Subtype.val

theorem scoped_of_ne : ∀ sm : SemLoc sig, sm ≠ SemLoc.reg barS → sm.isScoped .tc = true := by decide
theorem ownSemFacts : Pipeline.OwnSemFacts cfg0.spec osem :=
  ⟨fun k => scoped_of_ne k.1 k.2, Subtype.val_injective, fun k w s => w.elim0⟩

omit [FloatOps F] in
theorem ownSems0_rest (c : Dev nD) : (Pipeline.ownSems0 (Ix := Unit) (Name := ℕ) (U := UU) (Lvl := ℕ) (Val := Elt F) (τ := τ) osem c : sProp 𝕄)
    = bigSep (Finset.univ.erase (SemLoc.reg barS)) fun sm : SemLoc sig => semVal (kcell (c, sm)) 0 := by
  unfold Pipeline.ownSems0
  exact bigSep_subtype_ne (SemLoc.reg barS) (fun sm : SemLoc sig => (semVal (kcell (c, sm)) 0 : sProp 𝕄))
omit [FloatOps F] in
theorem ownSems0_eq (c : Dev nD) : (Pipeline.ownSems0 (Ix := Unit) (Name := ℕ) (U := UU) (Lvl := ℕ) (Val := Elt F) (τ := τ) osem c : sProp 𝕄) = closedAll c := by
  rw [ownSems0_rest, bigSep_rest]; rfl
omit [FloatOps F] in
theorem unscopedSems0_eq (c : Dev nD) : (unscopedSems0 c : sProp 𝕄) = semVal (kcell (c, SemLoc.reg barS)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [ownSems0_rest, unscopedSems0_eq, bigSep_univ_at (fun sm : SemLoc sig => (semVal (kcell (c, sm)) 0 : sProp 𝕄)) (SemLoc.reg barS)]
  iintro ⟨HS, HB⟩
  isplitl [HB] <;> iassumption

instance sched_payload_storable (g : GSem nD τ sig) (r : ℕ) (d : Unit) :
    BI.Storable (upEmb : UEmb _ 𝕄) ((sched (F := F) m).payload g r d) := by
  show BI.Storable upEmb (pay m (roleOf g.2) g.1.1)
  generalize roleOf g.2 = R
  cases R <;> dsimp only [pay] <;> (try split) <;> (try unfold chunkAt) <;> (try unfold wholeAt) <;> infer_instance

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (sched m) κ (kcell (c, sm))))
          ∗ (bigSep Finset.univ fun sm : SemLoc sig => iprop(atPos ER (kcell (c, sm)) 0 ∅ 0 ∗ reached ER (kcell (c, sm)) 0))
          ∗ bigSep Finset.univ fun sm : SemLoc sig => dutyTok ER (kcell (c, sm)) 0 ()) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (kcell (c, sm)) 0) ∗ bigSep Finset.univ fun sm : SemLoc sig => roundState ER (sched m) (kcell (c, sm)) 0)
      ⊢ (|={Set.univ}=> bigSep Finset.univ fun sm : SemLoc sig => iprop(∃ κ : ℕ, cellInv ER (sched m) κ (kcell (c, sm))) : sProp 𝕄) from by
        rw [← bigSep_sep']
        exact (bigSep_mono fun sm _ => (Rounds.body_intro ER (sched m) (kcell (c, sm))).trans inv_alloc).trans (bigSep_fupd _ _)) $$ [Hv Hst] with Hinv
  · isplitl [Hv] <;> iassumption
  imodintro
  iframe

theorem Role.payer_payer : ∀ (R : Role) (c : Dev nD), R.payer (R.payer c) = c
  | .bar, c => yp_yp c | .syn, c => xn_xn c | .stg, _ => rfl | .out _, _ => rfl
  | .ysnd _, _ => rfl | .yrcv _, c => yp_yp c | .xsnd _, _ => rfl | .xrcv _, c => xn_xn c

def payE : Dev nD × SemLoc sig ≃ Dev nD × SemLoc sig where
  toFun ds := ((roleOf ds.2).payer ds.1, ds.2)
  invFun ds := ((roleOf ds.2).payer ds.1, ds.2)
  left_inv ds := by rcases ds with ⟨c, sm⟩; exact Prod.ext (Role.payer_payer _ _) rfl
  right_inv ds := by rcases ds with ⟨c, sm⟩; exact Prod.ext (Role.payer_payer _ _) rfl

omit [FloatOps F] in

theorem toks_around :
    (bigSep Finset.univ fun c : Dev nD => bigSep Finset.univ fun sm : SemLoc sig => (dutyTok ER (kcell (c, sm)) 0 () : sProp 𝕄))
      = bigSep Finset.univ fun c : Dev nD => bigSep Finset.univ fun sm : SemLoc sig => dutyTok ER (kcell ((roleOf sm).payer c, sm)) 0 () := by
  rw [← bigSep_univ_prod (fun ds : Dev nD × SemLoc sig => (dutyTok ER (kcell ds) 0 () : sProp 𝕄)), bigSep_univ_equiv payE, bigSep_univ_prod]
  rfl

omit [FloatOps F] in
theorem toks_roles (c : Dev nD) :
    (bigSep Finset.univ fun sm : SemLoc sig => (dutyTok ER (kcell ((roleOf sm).payer c, sm)) 0 () : sProp 𝕄)) = toksAll c := by
  rw [bigSep_roles]
  have h : (fun R : Role => (dutyTok ER (kcell ((roleOf R.sem).payer c, R.sem)) 0 () : sProp 𝕄)) = fun R => tok (R.payer c) R :=
    funext fun R => by rw [roleOf_sem]; rfl
  rw [h]; rfl

omit [FloatOps F] in
theorem pos_roles (c : Dev nD) :
    (bigSep Finset.univ fun sm : SemLoc sig => (atPos ER (kcell (c, sm)) 0 ∅ 0 : sProp 𝕄)) = posAll c 0 := by
  rw [bigSep_roles]; rfl

theorem ghost_intro (K : Dev nD × SemLoc sig → ℕ) (c : Dev nD) :
    iprop(recs m K ∗ (bigSep Finset.univ fun sm : SemLoc sig => (atPos ER (kcell (c, sm)) 0 ∅ 0 : sProp 𝕄))
        ∗ bigSep Finset.univ fun sm : SemLoc sig => (dutyTok ER (kcell ((roleOf sm).payer c, sm)) 0 () : sProp 𝕄))
      ⊢ G' m c := by
  rw [pos_roles, toks_roles]
  unfold G'
  iintro ⟨HR, Hp, Ht⟩
  iexists K
  iframe

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (sched m) κ (kcell (c, sm))))
          ∗ (bigSep Finset.univ fun sm : SemLoc sig => iprop(atPos ER (kcell (c, sm)) 0 ∅ 0 ∗ reached ER (kcell (c, sm)) 0))
          ∗ bigSep Finset.univ fun sm : SemLoc sig => dutyTok ER (kcell (c, sm)) 0 ()) : sProp 𝕄)
      ⊢ bigSep Finset.univ (G' m) := by
  rw [bigSep_sep', bigSep_sep', ← bigSep_univ_prod (fun ds : Dev nD × SemLoc sig => iprop(∃ κ : ℕ, cellInv ER (sched m) κ (kcell ds))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ds : Dev nD × SemLoc sig => (reached ER (kcell ds) 0 : sProp 𝕄)), toks_around]
  iintro ⟨HI, ⟨Hat, #HR⟩, Htok⟩
  ihave HK := (BI.bigSep_exists_pi Finset.univ (fun (ds : Dev nD × SemLoc sig) (κ : ℕ) => (cellInv ER (sched m) κ (kcell ds) : sProp 𝕄))) $$ HI
  icases HK with ⟨%K, #HI⟩
  iapply (bigSep_with_persistent (R := recs m K) fun c _ => ghost_intro m K c)
  isplitr
  · unfold recs; isplitl; · iexact HI
    iexact HR
  · iapply (Entails.of_eq (bigSep_sep' Finset.univ (fun c : Dev nD => bigSep Finset.univ fun sm : SemLoc sig => (atPos ER (kcell (c, sm)) 0 ∅ 0 : sProp 𝕄))
      (fun c : Dev nD => bigSep Finset.univ fun sm : SemLoc sig => (dutyTok ER (kcell ((roleOf sm).payer c, sm)) 0 () : sProp 𝕄))).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem wholeAt_univ {sp : Space} {s : Shape} {e : EltTy} (B : Memref sig .tc sp s e) (h : B.view.set = Finset.univ) (d : Dev nD) (q : PosShare TreeShare)
    (f : Buf (Elt F) (B.view.loc (d : Thread nD τ))) : (wholeAt B d q f : sProp 𝕄) = (B.view.loc (d : Thread nD τ) ↦{q} f) := by
  unfold wholeAt; rw [h]

def Xl (c : Dev nD) : sProp 𝕄 := iprop(G' m c ∗ crdAll c ∗ levAts L lv ∗ wholeAt inM c fullShare (xin m c) ∗ wholeAt outM c fullShare (out0 m c))

def Yl (c : Dev nD) : sProp 𝕄 := iprop((((c : Thread nD τ).loc main_arg0) ↦{fullShare} xin m c) ∗ (((c : Thread nD τ).loc main_v1) ↦{fullShare} res m c))

theorem start_intro (c : Dev nD) :
    iprop(Pipeline.unscopedRestP Pipeline.Prefetch.none cfg0.spec c (fun b => m ((c : Thread nD τ).loc b)) ∗ levAts L lv
        ∗ Pipeline.launchCred (fun d => owe d 18) c ∗ prngReg c (ρ c) ∗ G' m c)
      ⊢ |={Set.univ}=> iprop(Xl m c ∗ emp) := by
  rw [Pipeline.unscopedRestP_none, unscopedRest0_eq]
  iintro ⟨⟨Hin, Hout⟩, Hlev, Hcr, -, HG⟩
  ihave Hc := (creds (F := F) c) $$ Hcr
  imodintro
  unfold Xl
  rw [wholeAt_univ inM (View.set_whole _), wholeAt_univ outM (View.set_whole _)]
  isplitl
  · isplitl [HG]; · iexact HG
    isplitl [Hc]; · iexact Hc
    isplitl [Hlev]; · iexact Hlev
    isplitl [Hin]; · iexact Hin
    iexact Hout
  · iempintro

theorem phi0_intro (c : Dev nD) :
    iprop(Xl m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xl G' scratchAny
  iintro ⟨⟨HG, Hc, Hlev, Hin, Hout⟩, -, ⟨%f0, H0⟩, ⟨%f1, H1⟩, ⟨%f2, H2⟩, ⟨%f3, H3⟩, ⟨%f4, H4⟩⟩
  iframe
  isplitl [H0]; · iexists f0; rw [wholeAt_univ stgM (View.set_whole _)]; iexact H0
  isplitl [H1]; · iexists f1; rw [wholeAt_univ sndM (View.set_whole _)]; iexact H1
  isplitl [H2]; · iexists f2; rw [wholeAt_univ yrcM (View.set_whole _)]; iexact H2
  isplitl [H3]; · iexists f3; rw [wholeAt_univ xrcM (View.set_whole _)]; iexact H3
  iexists f4; rw [wholeAt_univ sumM (View.set_whole _)]; iexact H4

theorem phi1_exit (c : Dev nD) :
    (dats m 0 c).Φ (Fin.last cfg0.N) ⊢ iprop(Yl m c ∗ Pipeline.ownSems0 osem c ∗ Pipeline.scopedRest cfg0.spec c) := by
  rw [show (dats m 0 c).Φ (Fin.last cfg0.N) = Φ₁ m c from rfl, scopedRest0_eq, ownSems0_eq]
  unfold Φ₁ Yl scratchAny
  rw [wholeAt_univ inM (View.set_whole _), wholeAt_univ outM (View.set_whole _)]
  iintro ⟨Hin, Hout, ⟨⟨%f0, H0⟩, ⟨%f1, H1⟩, ⟨%f2, H2⟩, ⟨%f3, H3⟩, ⟨%f4, H4⟩⟩, Hcl⟩
  iframe
  isplitl [H0]; · iexists f0; rw [← wholeAt_univ stgM (View.set_whole _)]; iexact H0
  isplitl [H1]; · iexists f1; rw [← wholeAt_univ sndM (View.set_whole _)]; iexact H1
  isplitl [H2]; · iexists f2; rw [← wholeAt_univ yrcM (View.set_whole _)]; iexact H2
  isplitl [H3]; · iexists f3; rw [← wholeAt_univ xrcM (View.set_whole _)]; iexact H3
  iexists f4; rw [← wholeAt_univ sumM (View.set_whole _)]; iexact H4

theorem waits (c : Dev nD) : (levAts L lv : sProp 𝕄) ⊢ Pipeline.cellsWaits cfgs (dats m) () 0 c :=
  Pipeline.cellsWaits_intro cfgs (dats m) () 0 c fun w s t => w.elim0

set_option maxRecDepth 8000 in

theorem run_main (hbody : ∀ c, Pipeline.BodyObligationLoose (dats m 0 c) (defs₀ (F := F)) 𝒱₀ () Set.univ) :
    θ_run defs (onTc (τ := τ) (main (F := F))) (s₀ m ρ)
      (fun r => ∀ c : Dev nD, r.2.mem ((c : Thread nD τ).loc main_v1) = res m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := fun c => owe c 18) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := Xl m) (Y := Yl m) (Z := fun _ => iprop(emp))
    (hX := start_intro m ρ) (hin := phi0_intro m) (hout := phi1_exit m)
    (QY := fun c s => s.mem ((c : Thread nD τ).loc main_v1) = res m c ∧ s.mem ((c : Thread nD τ).loc main_arg0) = m ((c : Thread nD τ).loc main_arg0))
    (hY := fun c s' => by
      unfold Yl
      iintro ⟨⟨Hin, Hout⟩, -, HSI⟩
      icombine HSI Hin gives %hin
      icombine HSI Hout gives %hout
      imodintro
      isplitr; · ipureintro; exact ⟨Buf.eq_of_forall_mem_univ hout, Buf.eq_of_forall_mem_univ hin⟩
      iexact HSI)
    (hQ := fun _ h c => (h c).2.2)

/-- info: 'Cert.KernelIdeal.AllReduce.run_main' depends on axioms: [propext, Classical.choice, Quot.sound] -/
#guard_msgs in #print axioms run_main

end Cert.KernelIdeal.AllReduce

end
-- ==== Proof.RefValue.lean ====
import proofs.«900709_g7700000000000710_dist_ar_v7x_xyz2x2x4_y_m1024_n512_bf16_1_alg».proof.Defs
import proofs.«900709_g7700000000000710_dist_ar_v7x_xyz2x2x4_y_m1024_n512_bf16_1_alg».proof.Proof.Gen.ReferenceIdeal
import proofs.«900709_g7700000000000710_dist_ar_v7x_xyz2x2x4_y_m1024_n512_bf16_1_alg».proof.Proof.Gen.Pre_finite_inputs_ReferenceIdeal
import proofs.«900709_g7700000000000710_dist_ar_v7x_xyz2x2x4_y_m1024_n512_bf16_1_alg».proof.Proof.Gen.ReferenceIdeal.Run
import proofs.«900709_g7700000000000710_dist_ar_v7x_xyz2x2x4_y_m1024_n512_bf16_1_alg».proof.Proof.Gen.ReferenceIdeal.Read
import proofs.«900709_g7700000000000710_dist_ar_v7x_xyz2x2x4_y_m1024_n512_bf16_1_alg».proof.Proof.Result
import Idealize.ShloMosaic.Lib.ValueIdx
import Idealize.ShloMosaic.PureOps.Ideal.Laws

noncomputable section

namespace Cert.KernelIdeal.AllReduce.Ref

open Idealize.ShloMosaic Idealize.ShloMosaic.TcCoe Idealize.SL.Sem
open Idealize.ShloMosaic.ValueIdx
open Cert.KernelIdeal (S1024x512 S512x512)
open Cert.KernelIdeal.AllReduce

theorem frame_ri : Cert.frame_ReferenceIdeal :=
  fun m ρ _ => (θ_run Cert.ReferenceIdeal.defs _ _).mono (fun _ h c => (h c).2) (Cert.ReferenceIdeal.Value.run (F := Ideal) m ρ)

def vref (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v2) :=
  Cert.ReferenceIdeal.Read.val_main_v2 (F := Ideal)
    (m' (((0 : Dev Cert.ReferenceIdeal.nD).tc : Thread Cert.ReferenceIdeal.nD Cert.ReferenceIdeal.τ).loc Cert.ReferenceIdeal.main_arg0))

theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v2) = vref m'
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' g')

def half (X : (⟨2, ![2048, 512]⟩ : Shape).Idx → EReal) (k : Fin 2) (j : S1024x512.Idx) : EReal :=
  X (ix2 (⟨k.val * 1024 + (j 0).val, by have := idx2_lt0 j; have := k.isLt; omega⟩ : Fin 2048) (⟨(j 1).val, idx2_lt1 j⟩ : Fin 512))

theorem vref_apply (m' : (ℓ : Loc Cert.ReferenceIdeal.nD Cert.ReferenceIdeal.τ Cert.ReferenceIdeal.sig) → Buf (Elt Ideal) ℓ) (j : S1024x512.Idx) :
    (show (⟨2, ![1024, 512]⟩ : Shape).Idx → EReal from vref m') j
      = half (m' (((0 : Dev Cert.ReferenceIdeal.nD).tc : Thread Cert.ReferenceIdeal.nD Cert.ReferenceIdeal.τ).loc Cert.ReferenceIdeal.main_arg0)) 0 j
        + half (m' (((0 : Dev Cert.ReferenceIdeal.nD).tc : Thread Cert.ReferenceIdeal.nD Cert.ReferenceIdeal.τ).loc Cert.ReferenceIdeal.main_arg0)) 1 j := by
  unfold vref
  generalize (m' (((0 : Dev Cert.ReferenceIdeal.nD).tc : Thread Cert.ReferenceIdeal.nD Cert.ReferenceIdeal.τ).loc Cert.ReferenceIdeal.main_arg0)) = X
  show Cert.ReferenceIdeal.Read.val_main_v1 (F := Ideal) X j = _
  rw [Cert.ReferenceIdeal.Read.val_main_v1_apply, Fin.sum_univ_two, Cert.ReferenceIdeal.Read.val_main_cst_apply,
    Cert.ReferenceIdeal.Read.val_main_v0_apply, Cert.ReferenceIdeal.Read.val_main_v0_apply]
  show Ideal.ofBits .f32 0x00000000#32 + _ = _
  rw [Ideal.ofBits_zero_f32, zero_add]
  have h0 := idx2_lt0 j
  have h1 := idx2_lt1 j
  unfold half
  congr 1
  · congr 1
    apply Shape.idx_ext₂
    · show ((0 * 1024 + (j 0).val) * 512 + (j 1).val) / 512 = 0 * 1024 + (j 0).val; omega
    · show ((0 * 1024 + (j 0).val) * 512 + (j 1).val) % 512 = (j 1).val; omega
  · congr 1
    apply Shape.idx_ext₂
    · show ((1 * 1024 + (j 0).val) * 512 + (j 1).val) / 512 = 1 * 1024 + (j 0).val; omega
    · show ((1 * 1024 + (j 0).val) * 512 + (j 1).val) % 512 = (j 1).val; omega

theorem mesh_row : ∀ d : Dev Cert.KernelIdeal.nD, ((Layout.meshBlock [2, 2, 4] ![[1], []] d) 0).val = d.val / 4 % 2 := by decide
theorem mesh_col : ∀ d : Dev Cert.KernelIdeal.nD, ((Layout.meshBlock [2, 2, 4] ![[1], []] d) 1).val = 0 := by decide

theorem block_row (X : (⟨2, ![2048, 512]⟩ : Shape).Idx → EReal) (d : Dev Cert.KernelIdeal.nD) (j : S1024x512.Idx) :
    (Layout.blockN ⟨2, ![1024, 512]⟩ ⟨2, ![2048, 512]⟩ (Layout.meshBlock [2, 2, 4] ![[1], []] d) X) j
      = half X ⟨d.val / 4 % 2, Nat.mod_lt _ (by decide)⟩ j := by
  rw [Layout.blockN_apply]
  unfold half
  congr 1
  apply Shape.idx_ext₂
  · rw [Layout.TilesN.idx_val]
    show ((Layout.meshBlock [2, 2, 4] ![[1], []] d) 0).val * 1024 + (j 0).val = d.val / 4 % 2 * 1024 + (j 0).val
    rw [mesh_row d]
  · rw [Layout.TilesN.idx_val]
    show ((Layout.meshBlock [2, 2, 4] ![[1], []] d) 1).val * 512 + (j 1).val = (j 1).val
    rw [mesh_col d]; omega

theorem own_emb_lo (d : Dev Cert.KernelIdeal.nD) (j : S1024x512.Idx) (hj : (j 0).val / 512 = d.val / 8) : (own d).emb (lo j) = j := by
  obtain ⟨e0, e1⟩ := own_emb d (lo j)
  have h0 := idx2_lt0 j
  apply Shape.idx_ext₂
  · rw [e0]; show 512 * (d.val / 8) + (j 0).val % 512 = (j 0).val; omega
  · rw [e1]; rfl

theorem staged_lo (m : (ℓ : Loc Cert.KernelIdeal.nD Cert.KernelIdeal.τ Cert.KernelIdeal.sig) → Buf (Elt Ideal) ℓ) (d : Dev Cert.KernelIdeal.nD)
    (j : S1024x512.Idx) (hj : (j 0).val / 512 = d.val / 8) :
    (show EReal from staged (F := Ideal) m d (lo j))
      = (show (⟨2, ![1024, 512]⟩ : Shape).Idx → EReal from m ((d.tc : Thread Cert.KernelIdeal.nD Cert.KernelIdeal.τ).loc Cert.KernelIdeal.main_arg0)) j := by
  show (show (⟨2, ![1024, 512]⟩ : Shape).Idx → EReal from m ((d.tc : Thread Cert.KernelIdeal.nD Cert.KernelIdeal.τ).loc Cert.KernelIdeal.main_arg0)) ((own d).emb (lo j)) = _
  rw [own_emb_lo d j hj]

theorem sums_lo (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[1], []] c) (m' (((0 : Dev Cert.ReferenceIdeal.nD).tc : Thread Cert.ReferenceIdeal.nD Cert.ReferenceIdeal.τ).loc Cert.ReferenceIdeal.main_arg0)))
    (d : Dev Cert.KernelIdeal.nD) (j : S1024x512.Idx) (hj : (j 0).val / 512 = d.val / 8) :
    (show EReal from sums (F := Ideal) m d (lo j))
      = half (m' (((0 : Dev Cert.ReferenceIdeal.nD).tc : Thread Cert.ReferenceIdeal.nD Cert.ReferenceIdeal.τ).loc Cert.ReferenceIdeal.main_arg0)) 0 j
        + half (m' (((0 : Dev Cert.ReferenceIdeal.nD).tc : Thread Cert.ReferenceIdeal.nD Cert.ReferenceIdeal.τ).loc Cert.ReferenceIdeal.main_arg0)) 1 j := by
  have h1 := staged_lo m d j hj
  have h2 := staged_lo m (yp d) j (hj.trans (yp_half d).symm)
  rw [hagree d] at h1
  rw [hagree (yp d)] at h2
  generalize (m' (((0 : Dev Cert.ReferenceIdeal.nD).tc : Thread Cert.ReferenceIdeal.nD Cert.ReferenceIdeal.τ).loc Cert.ReferenceIdeal.main_arg0)) = X at h1 h2 ⊢
  have k1 := h1.trans (block_row X d j)
  have k2 := h2.trans (block_row X (yp d) j)
  show (show EReal from staged (F := Ideal) m d (lo j)) + (show EReal from staged (F := Ideal) m (yp d) (lo j)) = _
  rw [k1, k2]
  have hy := yp_y d
  obtain h | h : d.val / 4 % 2 = 0 ∨ d.val / 4 % 2 = 1 := by omega
  · have e1 : (⟨d.val / 4 % 2, Nat.mod_lt _ (by decide)⟩ : Fin 2) = 0 := Fin.ext h
    have e2 : (⟨(yp d).val / 4 % 2, Nat.mod_lt _ (by decide)⟩ : Fin 2) = 1 := Fin.ext (by show (yp d).val / 4 % 2 = 1; omega)
    rw [e1, e2]
  · have e1 : (⟨d.val / 4 % 2, Nat.mod_lt _ (by decide)⟩ : Fin 2) = 1 := Fin.ext h
    have e2 : (⟨(yp d).val / 4 % 2, Nat.mod_lt _ (by decide)⟩ : Fin 2) = 0 := Fin.ext (by show (yp d).val / 4 % 2 = 0; omega)
    rw [e1, e2]
    exact add_comm (G := EReal) _ _

/-- Over the extended reals casting to bf16 changes nothing and addition commutes, so `own + peer` on one device and `peer + own` on the other are both the reference's row. -/
theorem res_eq_vref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.AllReduce.res (F := Ideal) m c = vref m' := by
  show (show (⟨2, ![1024, 512]⟩ : Shape).Idx → EReal from Cert.KernelIdeal.AllReduce.res (F := Ideal) m c) = (show (⟨2, ![1024, 512]⟩ : Shape).Idx → EReal from vref m')
  funext j
  refine Eq.trans ?_ (vref_apply m' j).symm
  have h0 := idx2_lt0 j
  have hc := half_le c
  by_cases h : (j 0).val / 512 = c.val / 8
  · show (if (j 0).val / 512 = c.val / 8 then sums (F := Ideal) m c (lo j) else sums (F := Ideal) m (xn c) (lo j)) = _
    rw [if_pos h]
    exact sums_lo m m' hagree c j h
  · show (if (j 0).val / 512 = c.val / 8 then sums (F := Ideal) m c (lo j) else sums (F := Ideal) m (xn c) (lo j)) = _
    rw [if_neg h]
    exact sums_lo m m' hagree (xn c) j (by rw [xn_half]; omega)

/-- info: 'Cert.KernelIdeal.AllReduce.Ref.frame_ri' depends on axioms: [propext, Classical.choice, Quot.sound] -/
#guard_msgs in #print axioms frame_ri
/-- info: 'Cert.KernelIdeal.AllReduce.Ref.ref_run' depends on axioms: [propext, Classical.choice, Quot.sound] -/
#guard_msgs in #print axioms ref_run
/-- info: 'Cert.KernelIdeal.AllReduce.Ref.res_eq_vref' depends on axioms: [propext, Classical.choice, Quot.sound] -/
#guard_msgs in #print axioms res_eq_vref

end Cert.KernelIdeal.AllReduce.Ref

end
-- ==== Proof.Bits.Shape.lean ====
import proofs.«900709_g7700000000000710_dist_ar_v7x_xyz2x2x4_y_m1024_n512_bf16_1_alg».proof.Proof.Gen.Kernel.Skeleton
import proofs.«900709_g7700000000000710_dist_ar_v7x_xyz2x2x4_y_m1024_n512_bf16_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def yp (c : Dev nD) : Dev nD := ⟨k0_dev1 c, k0_dev1_lt c⟩

def xn (c : Dev nD) : Dev nD := ⟨k0_dev2 c, k0_dev2_lt c⟩

theorem yp_yp (c : Dev nD) : yp (yp c) = c := by revert c; decide +kernel
theorem xn_xn (c : Dev nD) : xn (xn c) = c := by revert c; decide +kernel

theorem yp_half (c : Dev nD) : (yp c).val / 8 = c.val / 8 := by revert c; decide +kernel
theorem xn_half (c : Dev nD) : (xn c).val / 8 = 1 - c.val / 8 := by revert c; decide +kernel
theorem yp_y (c : Dev nD) : (yp c).val / 4 % 2 = 1 - c.val / 4 % 2 := by revert c; decide +kernel

theorem dev1_eq (c : Dev nD) : (⟨k0_dev1 c, k0_dev1_lt c⟩ : Dev nD) = yp c := rfl
theorem dev2_eq (c : Dev nD) : (⟨k0_dev2 c, k0_dev2_lt c⟩ : Dev nD) = xn c := rfl
/-- Each device id computed for a y-copy has one closed form and each for an x-copy another; a computed id with the peer's value is the peer. -/
theorem yp_of {k : ℕ} (hk : k < nD) (c : Dev nD) (h : k = (8 * (c.val / 8) + (c.val % 4) + 4) - 4 * ((c.val / 4) % 2)) :
    (⟨k, hk⟩ : Dev nD) = yp c := Fin.ext (h.trans (k0_dev1_eq c).symm)
theorem xn_of {k : ℕ} (hk : k < nD) (c : Dev nD) (h : k = (4 * ((c.val / 4) % 2) + (c.val % 4) + 8) - 8 * (c.val / 8)) :
    (⟨k, hk⟩ : Dev nD) = xn c := Fin.ext (h.trans (k0_dev2_eq c).symm)

abbrev inM : Memref sig .tc .hbm S1024x512 .f32 := Memref.whole main_arg0
abbrev outM : Memref sig .tc .hbm S1024x512 .bf16 := Memref.whole main_v1

abbrev stgM : Memref sig .tc .vmem S512x512 .f32 := Memref.whole cc0_scratch0

abbrev sndM : Memref sig .tc .vmem S512x512 .bf16 := Memref.whole cc0_scratch1

abbrev yrcM : Memref sig .tc .vmem S512x512 .bf16 := Memref.whole cc0_scratch2

abbrev xrcM : Memref sig .tc .vmem S512x512 .bf16 := Memref.whole cc0_scratch3

abbrev sumM : Memref sig .tc .vmem S512x512 .bf16 := Memref.whole cc0_scratch4

theorem chunk_inb (i : Fin 8) : ∀ a, (![64 * i.val, 0] : Fin 2 → Nat) a + S64x512.size a ≤ S512x512.size a := by
  revert i; decide

abbrev chunk (i : Fin 8) : Rect S512x512 := Rect.unit (s := S512x512) ![64 * i.val, 0] S64x512.size (chunk_inb i)

abbrev oth (c : Dev nD) (i : Fin 8) : Rect S1024x512 :=
  Rect.unit (s := S1024x512) (k0_off2 c (BitVec.ofNat 32 (64 * i.val))) S64x512.size (k0_off2_inb c i)

abbrev own (c : Dev nD) : Rect S1024x512 := Rect.unit (s := S1024x512) (k0_off1 c) S512x512.size (k0_off1_inb c)

variable (m : (ℓ : Loc nD τ sig) → Buf (Elt F) ℓ)

def xin (c : Dev nD) : Buf (Elt F) ((c : Thread nD τ).loc main_arg0) := m ((c : Thread nD τ).loc main_arg0)

def out0 (c : Dev nD) : Buf (Elt F) ((c : Thread nD τ).loc main_v1) := m ((c : Thread nD τ).loc main_v1)

def staged (c : Dev nD) : Vec F S512x512 .f32 := ((inM.slice (own c) (fun _ => rfl)).view).read (Elt F) (xin m c)

def sent (c : Dev nD) : FVec F S512x512 .bf16 := truncf .bf16 (staged m c) bitsLt_bf16_f32

def sums (c : Dev nD) : FVec F S512x512 .bf16 := addf (sent m c) (sent m (yp c))

end Cert.Kernel.AllReduce

end
-- ==== Proof.Bits.Cells.lean ====
import proofs.«900709_g7700000000000710_dist_ar_v7x_xyz2x2x4_y_m1024_n512_bf16_1_alg».proof.Proof.Bits.Shape

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem
abbrev synS : Sem sig := (cc0_scratch11 : Sems sig S_).sem
abbrev stgS : DmaSem sig := (cc0_scratch5 : DmaSems sig S_).sem

theorem sem1_inb (j : Fin 9) : ∀ a, (![j.val] : Fin 1 → Nat) a + S1.size a ≤ S9.size a := by revert j; decide
theorem sem8_inb (i : Fin 8) : ∀ a, (![i.val] : Fin 1 → Nat) a + S1.size a ≤ S8.size a := by revert i; decide
abbrev outS (j : Fin 9) : DmaSem sig := (((cc0_scratch6 : DmaSems sig S9).slice (Rect.unit (s := S9) ![j.val] S1.size (sem1_inb j))).squeeze S_ squeezes_S1_S_).sem
abbrev ysndS (i : Fin 8) : DmaSem sig := (((cc0_scratch7 : DmaSems sig S8).slice (Rect.unit (s := S8) ![i.val] S1.size (sem8_inb i))).squeeze S_ squeezes_S1_S_).sem
abbrev yrcvS (i : Fin 8) : DmaSem sig := (((cc0_scratch8 : DmaSems sig S8).slice (Rect.unit (s := S8) ![i.val] S1.size (sem8_inb i))).squeeze S_ squeezes_S1_S_).sem
abbrev xsndS (i : Fin 8) : DmaSem sig := (((cc0_scratch9 : DmaSems sig S8).slice (Rect.unit (s := S8) ![i.val] S1.size (sem8_inb i))).squeeze S_ squeezes_S1_S_).sem
abbrev xrcvS (i : Fin 8) : DmaSem sig := (((cc0_scratch10 : DmaSems sig S8).slice (Rect.unit (s := S8) ![i.val] S1.size (sem8_inb i))).squeeze S_ squeezes_S1_S_).sem

abbrev cell (c : Dev nD) (sm : SemLoc sig) : GSem nD τ sig := ((c : Thread nD τ), sm)

inductive Role
  | bar | syn | stg | out (j : Fin 9) | ysnd (i : Fin 8) | yrcv (i : Fin 8) | xsnd (i : Fin 8) | xrcv (i : Fin 8)
  deriving DecidableEq

def Role.sem : Role → SemLoc sig
  | .bar => .reg barS | .syn => .reg synS | .stg => .dma stgS | .out j => .dma (outS j)
  | .ysnd i => .dma (ysndS i) | .yrcv i => .dma (yrcvS i) | .xsnd i => .dma (xsndS i) | .xrcv i => .dma (xrcvS i)

def roleOf : SemLoc sig → Role
  | .reg s => if s.val = 1 then .bar else .syn
  | .dma s =>
    if h0 : s.val = 0 then .stg
    else if h1 : s.val < 10 then .out ⟨s.val - 1, by omega⟩
    else if h2 : s.val < 18 then .ysnd ⟨s.val - 10, by omega⟩
    else if h3 : s.val < 26 then .yrcv ⟨s.val - 18, by omega⟩
    else if h4 : s.val < 34 then .xsnd ⟨s.val - 26, by omega⟩
    else .xrcv ⟨(s.val - 34) % 8, Nat.mod_lt _ (by decide)⟩

abbrev N64 : ℕ := ((sndM.slice (chunk 0) (fun _ => rfl)) : Memref sig .tc .vmem S64x512 .bf16).view.dmaCredit
abbrev NStg : ℕ := (stgM : Memref sig .tc .vmem S512x512 .f32).view.dmaCredit
abbrev NSum : ℕ := ((outM.slice (own 0) (fun _ => rfl)) : Memref sig .tc .hbm S512x512 .bf16).view.dmaCredit

def Role.amount : Role → ℕ
  | .bar => 1 | .syn => 1 | .stg => NStg | .out j => if j.val = 8 then NSum else N64
  | .ysnd _ => N64 | .yrcv _ => N64 | .xsnd _ => N64 | .xrcv _ => N64

def Role.payer : Role → Dev nD → Dev nD
  | .bar, c => yp c | .syn, c => xn c | .yrcv _, c => yp c | .xrcv _, c => xn c | _, c => c

theorem roleOf_sem : ∀ R : Role, roleOf (Role.sem R) = R
  | .bar => rfl | .syn => rfl | .stg => rfl
  | .out j => by revert j; decide
  | .ysnd i => by revert i; decide
  | .yrcv i => by revert i; decide
  | .xsnd i => by revert i; decide
  | .xrcv i => by revert i; decide

theorem Role.amount_pos (R : Role) : 0 < R.amount := by
  cases R <;> simp only [Role.amount] <;> first | exact Nat.one_pos | exact View.dmaCredit_pos _ (by decide) | (split <;> exact View.dmaCredit_pos _ (by decide))

abbrev chunkM (M : Memref sig .tc .vmem S512x512 .bf16) (i : Fin 8) : Memref sig .tc .vmem S64x512 .bf16 := M.slice (chunk i) (fun _ => rfl)

abbrev othM (c : Dev nD) (j : Fin 8) : Memref sig .tc .hbm S64x512 .bf16 := outM.slice (oth c j) (fun _ => rfl)
abbrev ownOutM (c : Dev nD) : Memref sig .tc .hbm S512x512 .bf16 := outM.slice (own c) (fun _ => rfl)
abbrev ownInM (c : Dev nD) : Memref sig .tc .hbm S512x512 .f32 := inM.slice (own c) (fun _ => rfl)

def chunkAt (M : Memref sig .tc .vmem S512x512 .bf16) (d : Dev nD) (i : Fin 8) (q : PosShare TreeShare)
    (f : Buf (Elt F) ((chunkM M i).view.loc (d : Thread nD τ))) : sProp 𝕄 :=
  (chunkM M i).view.loc (d : Thread nD τ) ↦[(chunkM M i).view.set]{q} f

def wholeAt {sp : Space} {s : Shape} {e : EltTy} (M : Memref sig .tc sp s e) (d : Dev nD) (q : PosShare TreeShare)
    (f : Buf (Elt F) (M.view.loc (d : Thread nD τ))) : sProp 𝕄 :=
  M.view.loc (d : Thread nD τ) ↦[M.view.set]{q} f

def outAfter (c : Dev nD) (j : Fin 8) : Buf (Elt F) ((othM c j).view.loc (c : Thread nD τ)) :=
  (othM c j).view.write (Elt F) (out0 m c) ((chunkM xrcM j).view.read (Elt F) (sums m (xn c))) Finset.univ

def outOwn (c : Dev nD) : Buf (Elt F) ((ownOutM c).view.loc (c : Thread nD τ)) :=
  (ownOutM c).view.write (Elt F) (out0 m c) (sumM.view.read (Elt F) (sums m c)) Finset.univ

def pay : Role → Dev nD → sProp 𝕄
  | .bar, c => iprop(∃ f, wholeAt yrcM (yp c) fullShare f)
  | .syn, c => iprop(∃ f, wholeAt xrcM (xn c) fullShare f)
  | .stg, c => iprop(wholeAt stgM c fullShare (staged m c) ∗ wholeAt (ownInM c) c fullShare (xin m c))
  | .out j, c =>
    if h : j.val < 8 then iprop(wholeAt (othM c ⟨j.val, h⟩) c fullShare (outAfter m c ⟨j.val, h⟩) ∗ chunkAt xrcM c ⟨j.val, h⟩ fullShare (sums m (xn c)))
    else iprop(wholeAt (ownOutM c) c fullShare (outOwn m c) ∗ wholeAt sumM c fullShare.right (sums m c))
  | .ysnd i, c => chunkAt sndM c i fullShare.left (sent m c)
  | .yrcv i, c => chunkAt yrcM c i fullShare (sent m (yp c))
  | .xsnd i, c => chunkAt sumM c i fullShare.left (sums m c)
  | .xrcv i, c => chunkAt xrcM c i fullShare (sums m (xn c))

def sched : Rounds.Schedule (GSem nD τ sig) Unit 𝕄 where
  duties g r := if r = 0 ∧ g.1.2 = .tc then {()} else ∅
  unitless _ := False
  amount g _ _ := (roleOf g.2).amount
  payload g _ _ := pay m (roleOf g.2) g.1.1
  amount_pos g _ _ _ := Role.amount_pos _

section Tables
variable (c : Dev nD) (R : Role)

theorem duties_cell : (sched (F := F) m).duties (cell c R.sem) 0 = {()} := by dsimp only [sched]; exact if_pos ⟨rfl, rfl⟩
theorem duties_later (g : GSem nD τ sig) : ∀ r, 1 ≤ r → (sched (F := F) m).duties g r = ∅ :=
  fun r hr => by dsimp only [sched]; rw [if_neg fun h => by omega]
theorem amount_cell (d : Unit) : (sched (F := F) m).amount (cell c R.sem) 0 d = R.amount := by dsimp only [sched]; rw [roleOf_sem]
theorem expect_cell : (sched (F := F) m).expect (cell c R.sem) 0 = R.amount := by
  unfold Schedule.expect Schedule.amountOf; rw [duties_cell, Finset.sum_singleton, amount_cell]
theorem payload_cell (d : Unit) : (sched (F := F) m).payload (cell c R.sem) 0 d = pay m R c := by dsimp only [sched]; rw [roleOf_sem]
theorem rest_cell : bigSep ((sched (F := F) m).duties (cell c R.sem) 0 \ ∅) (fun d => (sched (F := F) m).payload (cell c R.sem) 0 d) = pay m R c := by
  rw [Finset.sdiff_empty, duties_cell, bigSep_singleton, payload_cell]
theorem mem_duties : () ∈ (sched (F := F) m).duties (cell c R.sem) 0 := by rw [duties_cell]; exact Finset.mem_singleton_self _

end Tables

end Cert.Kernel.AllReduce

end
-- ==== Proof.Bits.Ledger.lean ====
import proofs.«900709_g7700000000000710_dist_ar_v7x_xyz2x2x4_y_m1024_n512_bf16_1_alg».proof.Proof.Bits.Cells

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def payRole (j : ℕ) : Role :=
  if j = 0 then .bar else if j = 1 then .syn
  else if j < 10 then .yrcv ⟨(j - 2) % 8, Nat.mod_lt _ (by decide)⟩ else .xrcv ⟨(j - 10) % 8, Nat.mod_lt _ (by decide)⟩

def payDev (c : Dev nD) (j : ℕ) : Dev nD := if j = 0 then yp c else if j = 1 then xn c else if j < 10 then yp c else xn c
def payT (c : Dev nD) (j : ℕ) : CellTallies nD τ sig Unit := tallyAt (cell (payDev c j) (payRole j).sem) () (payRole j).amount
def owe (c : Dev nD) : ℕ → CellTallies nD τ sig Unit
  | 0 => 0
  | n + 1 => owe c n + payT c (17 - n)

theorem owe_pos (c : Dev nD) : ∀ (n : ℕ) {g : GSem nD τ sig} {u : Unit}, 0 < owe c n g u → ∃ j, 17 - (n - 1) ≤ j ∧ j ≤ 17 ∧ 0 < n ∧ g = cell (payDev c j) (payRole j).sem
  | 0, g, u, h => by simp [owe] at h
  | n + 1, g, u, h => by
    rcases Pipeline.add_pos_cases h with h | h
    · obtain ⟨j, h1, h2, h3, h4⟩ := owe_pos c n h
      exact ⟨j, by omega, h2, Nat.succ_pos _, h4⟩
    · exact ⟨17 - n, by omega, by omega, Nat.succ_pos _, (Pipeline.tallyAt_pos h).1⟩

def Role.level : Role → ℕ
  | .bar => 1 | .syn => 2 | .yrcv _ => 3 | .xrcv _ => 4 | _ => 0

def L (g : GSem nD τ sig) : Finset Unit := if g.1.2 = .tc then {()} else ∅
def lv (g : GSem nD τ sig) (_ : Unit) : ℕ := (roleOf g.2).level

theorem L_of_ne (g : GSem nD τ sig) (h : g.1.2 ≠ .tc) : L g = ∅ := if_neg h
theorem L_tc (c : Dev nD) (sm : SemLoc sig) : L (cell c sm) = {()} := if_pos rfl
theorem lv_cell (c : Dev nD) (R : Role) : lv (cell c R.sem) () = R.level := by unfold lv; rw [roleOf_sem]

/-- No wait can block for ever: a device only waits on a cell of lower level than every cell it still owes a payment to. -/
theorem mayWait_owe (c : Dev nD) (R : Role) (n : ℕ) (h : ∀ j, j < 18 → 18 - n ≤ j → R.level < (payRole j).level) :
    (levAts L lv : sProp 𝕄) ⊢ MayWait (c : Thread nD τ) R.sem () (owe c n) :=
  Pipeline.mayWait_of_levAts (by rw [L_tc]; exact Finset.mem_singleton_self _) fun g i hg => by
    obtain ⟨j, h1, h2, h3, rfl⟩ := owe_pos c n hg
    refine ⟨by rw [L_tc]; exact Finset.mem_singleton_self _, ?_⟩
    rw [lv_cell, lv_cell]; exact h j (by omega) (by omega)

end Cert.Kernel.AllReduce

end
-- ==== Proof.Bits.Atoms.lean ====
import proofs.«900709_g7700000000000710_dist_ar_v7x_xyz2x2x4_y_m1024_n512_bf16_1_alg».proof.Proof.Bits.Ledger

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What must hold before a program on device `c`'s thread for `Q` to hold of its result. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

def recs (K : Dev nD × SemLoc sig → ℕ) : sProp 𝕄 :=
  iprop((bigSep Finset.univ fun ds : Dev nD × SemLoc sig => cellInv ER (sched m) (K ds) (cell ds.1 ds.2))
    ∗ bigSep Finset.univ fun ds : Dev nD × SemLoc sig => reached ER (cell ds.1 ds.2) 0)

def pos (c : Dev nD) (R : Role) (n : ℕ) : sProp 𝕄 := atPos ER (cell c R.sem) n ∅ 0

def tok (d : Dev nD) (R : Role) : sProp 𝕄 := dutyTok ER (cell d R.sem) 0 ()

def crd (c : Dev nD) (R : Role) : sProp 𝕄 := cred (tallyAt (cell c R.sem) () R.amount)

end Cert.Kernel.AllReduce

end
-- ==== Proof.Bits.Steps.lean ====
import proofs.«900709_g7700000000000710_dist_ar_v7x_xyz2x2x4_y_m1024_n512_bf16_1_alg».proof.Proof.Bits.Atoms

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

instance recs_persistent (K : Dev nD × SemLoc sig → ℕ) : BI.Persistent (recs m K) := by unfold recs; infer_instance

theorem inv_at' (K : Dev nD × SemLoc sig → ℕ) (ds : Dev nD × SemLoc sig) :
    (bigSep Finset.univ fun ds : Dev nD × SemLoc sig => (cellInv ER (sched m) (K ds) (cell ds.1 ds.2) : sProp 𝕄)) ⊢ cellInv ER (sched m) (K ds) (cell ds.1 ds.2) :=
  bigSep_elim (Finset.mem_univ ds)
theorem reached_at' (ds : Dev nD × SemLoc sig) :
    (bigSep Finset.univ fun ds : Dev nD × SemLoc sig => (reached ER (cell ds.1 ds.2) 0 : sProp 𝕄)) ⊢ reached ER (cell ds.1 ds.2) 0 :=
  bigSep_elim (Finset.mem_univ ds)
theorem inv_at (K : Dev nD × SemLoc sig → ℕ) (d : Dev nD) (R : Role) : recs m K ⊢ cellInv ER (sched m) (K (d, R.sem)) (cell d R.sem) := by
  unfold recs; iintro ⟨H, -⟩; iapply (inv_at' m K (d, R.sem)) $$ H
theorem reached_at (K : Dev nD × SemLoc sig → ℕ) (d : Dev nD) (R : Role) : recs m K ⊢ reached ER (cell d R.sem) 0 := by
  unfold recs; iintro ⟨-, H⟩; iapply (reached_at' (F := F) (d, R.sem)) $$ H

theorem landed_y (d : Dev nD) (i : Fin 8) (fd : Buf (Elt F) ((chunkM yrcM i).view.loc (d : Thread nD τ))) (fs : FVec F S512x512 .bf16) :
    ((chunkM yrcM i).view.loc (d : Thread nD τ) ↦[(chunkM yrcM i).view.set]{fullShare}
        ((chunkM yrcM i).view.write (Elt F) fd ((chunkM sndM i).view.read (Elt F) fs) Finset.univ) : sProp 𝕄)
      ⊢ chunkAt yrcM d i fullShare fs := by
  unfold chunkAt
  refine Entails.of_eq (pointsTo_congr fun j hj => ?_)
  obtain ⟨y, rfl⟩ := View.exists_emb_of_mem_set _ hj
  rw [View.write_emb_of_mem _ _ (Finset.mem_univ y)]
  rfl

theorem landed_x (d : Dev nD) (i : Fin 8) (fd : Buf (Elt F) ((chunkM xrcM i).view.loc (d : Thread nD τ))) (fs : FVec F S512x512 .bf16) :
    ((chunkM xrcM i).view.loc (d : Thread nD τ) ↦[(chunkM xrcM i).view.set]{fullShare}
        ((chunkM xrcM i).view.write (Elt F) fd ((chunkM sumM i).view.read (Elt F) fs) Finset.univ) : sProp 𝕄)
      ⊢ chunkAt xrcM d i fullShare fs := by
  unfold chunkAt
  refine Entails.of_eq (pointsTo_congr fun j hj => ?_)
  obtain ⟨y, rfl⟩ := View.exists_emb_of_mem_set _ hj
  rw [View.write_emb_of_mem _ _ (Finset.mem_univ y)]
  rfl

section Rules
variable (K : Dev nD × SemLoc sig → ℕ)

theorem step_sendX (c n : Dev nD) (hn : n = xn c) (i : Fin 8)
    {hsc : ((chunkM xrcM i : Memref sig (Dev.tc n : Thread nD τ).2.kind .vmem S64x512 .bf16)).view.ref.isScScratch = false}
    {hsrc : (chunkM sumM i).view.WordExact} {hdst : (chunkM xrcM i).view.WordExact}
    {hsem : DmaTarget.Typed .vmem (.dma (xrcvS i)) (.remote (Dev.tc n : Thread nD τ) (chunkM xrcM i) (.dma (xsndS i)) hsc)}
    {α : Type} {Q : α → sProp 𝕄} {k : PUnit → Prog (TpuEff nD τ sig (Elt F) Λ₀ .tc) α}
    (fd : Buf (Elt F) ((chunkM xrcM i).view.loc (xn c : Thread nD τ))) (W : Waits sig Unit)
    {O₀ : CellTallies nD τ sig Unit} (O : CellTallies nD τ sig Unit) (hO : O₀ = O + tallyAt (cell (xn c) (Role.xrcv i).sem) () N64) :
    iprop(recs m K ∗ chunkAt sumM c i fullShare.left (sums m c) ∗ chunkAt xrcM (xn c) i fullShare fd
        ∗ owes (c : Thread nD τ) O₀ W ∗ tok c (.xsnd i) ∗ tok (xn c) (.xrcv i))
      ⊢ iprop(((crd c (.xsnd i) ∗ owes (c : Thread nD τ) O W) -∗ WP c (k ⟨⟩) Q)
          -∗ WP c
              (.op (.enqueueDma (chunkM sumM i) (.remote (Dev.tc n : Thread nD τ) (chunkM xrcM i) (.dma (xsndS i)) hsc) (.dma (xrcvS i)) hsrc hdst hsem) k) Q) := by
  subst hn
  iintro ⟨#Hrec, Hsrc, Hdst, HO, Ht1, Ht2⟩
  ihave #HI1 := (inv_at m K c (.xsnd i)) $$ Hrec
  ihave #HI2 := (inv_at m K (xn c) (.xrcv i)) $$ Hrec
  ihave #HR1 := (reached_at m K c (.xsnd i)) $$ Hrec
  ihave #HR2 := (reached_at m K (xn c) (.xrcv i)) $$ Hrec
  unfold chunkAt tok crd
  iapply (Rounds.wp_send_pointsTo 𝒱₀ ER (sched m) (c : Thread nD τ) none (κ₁ := K (c, (Role.xsnd i).sem)) (κ₂ := K (xn c, (Role.xrcv i).sem))
      (r₁ := 0) (r₂ := 0) (d₁ := ()) (d₂ := ()) (fd := fd)
      (mem_duties m c (.xsnd i)) (mem_duties m (xn c) (.xrcv i))
      () () N64 rfl (amount_cell m c (.xsnd i) ()) (amount_cell m (xn c) (.xrcv i) ()) O hO (W := W)
      (by rw [payload_cell]; exact BI.Entails.refl _)
      (by rw [payload_cell]; show _ ⊢ chunkAt xrcM (xn c) i fullShare (sums m (xn (xn c))); rw [xn_xn]; exact landed_x (xn c) i fd (sums m c)))
    $$ [Hsrc Hdst HO Ht1 Ht2]
  iframe # ∗

theorem step_sendY (c n : Dev nD) (hn : n = yp c) (i : Fin 8)
    {hsc : ((chunkM yrcM i : Memref sig (Dev.tc n : Thread nD τ).2.kind .vmem S64x512 .bf16)).view.ref.isScScratch = false}
    {hsrc : (chunkM sndM i).view.WordExact} {hdst : (chunkM yrcM i).view.WordExact}
    {hsem : DmaTarget.Typed .vmem (.dma (yrcvS i)) (.remote (Dev.tc n : Thread nD τ) (chunkM yrcM i) (.dma (ysndS i)) hsc)}
    {α : Type} {Q : α → sProp 𝕄} {k : PUnit → Prog (TpuEff nD τ sig (Elt F) Λ₀ .tc) α}
    (fd : Buf (Elt F) ((chunkM yrcM i).view.loc (yp c : Thread nD τ))) (W : Waits sig Unit)
    {O₀ : CellTallies nD τ sig Unit} (O : CellTallies nD τ sig Unit) (hO : O₀ = O + tallyAt (cell (yp c) (Role.yrcv i).sem) () N64) :
    iprop(recs m K ∗ chunkAt sndM c i fullShare.left (sent m c) ∗ chunkAt yrcM (yp c) i fullShare fd
        ∗ owes (c : Thread nD τ) O₀ W ∗ tok c (.ysnd i) ∗ tok (yp c) (.yrcv i))
      ⊢ iprop(((crd c (.ysnd i) ∗ owes (c : Thread nD τ) O W) -∗ WP c (k ⟨⟩) Q)
          -∗ WP c
              (.op (.enqueueDma (chunkM sndM i) (.remote (Dev.tc n : Thread nD τ) (chunkM yrcM i) (.dma (ysndS i)) hsc) (.dma (yrcvS i)) hsrc hdst hsem) k) Q) := by
  subst hn
  iintro ⟨#Hrec, Hsrc, Hdst, HO, Ht1, Ht2⟩
  ihave #HI1 := (inv_at m K c (.ysnd i)) $$ Hrec
  ihave #HI2 := (inv_at m K (yp c) (.yrcv i)) $$ Hrec
  ihave #HR1 := (reached_at m K c (.ysnd i)) $$ Hrec
  ihave #HR2 := (reached_at m K (yp c) (.yrcv i)) $$ Hrec
  unfold chunkAt tok crd
  iapply (Rounds.wp_send_pointsTo 𝒱₀ ER (sched m) (c : Thread nD τ) none (κ₁ := K (c, (Role.ysnd i).sem)) (κ₂ := K (yp c, (Role.yrcv i).sem))
      (r₁ := 0) (r₂ := 0) (d₁ := ()) (d₂ := ()) (fd := fd)
      (mem_duties m c (.ysnd i)) (mem_duties m (yp c) (.yrcv i))
      () () N64 rfl (amount_cell m c (.ysnd i) ()) (amount_cell m (yp c) (.yrcv i) ()) O hO (W := W)
      (by rw [payload_cell]; exact BI.Entails.refl _)
      (by rw [payload_cell]; show _ ⊢ chunkAt yrcM (yp c) i fullShare (sent m (yp (yp c))); rw [yp_yp]; exact landed_y (yp c) i fd (sent m c)))
    $$ [Hsrc Hdst HO Ht1 Ht2]
  iframe # ∗

theorem step_wait (c : Dev nD) (R : Role) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ R.sem R.amount K')
    {α : Type} {Q : α → sProp 𝕄} {k : PUnit → Prog (TpuEff nD τ sig (Elt F) Λ₀ .tc) α}
    (O : CellTallies nD τ sig Unit) (W : Waits sig Unit) :
    iprop(recs m K ∗ crd c R ∗ owes (c : Thread nD τ) O W ∗ MayWait (c : Thread nD τ) R.sem () O ∗ pos c R 0)
      ⊢ iprop(((owes (c : Thread nD τ) O (insert (R.sem, ()) W) ∗ pos c R 1 ∗ pay m R c) -∗ WP c (k ⟨⟩) Q)
          -∗ WP c (.op w k) Q) := by
  iintro ⟨#Hrec, Hc, HO, Hmw, Hat⟩ Hk
  ihave #HI := (inv_at m K c R) $$ Hrec
  unfold crd pos
  iapply (Rounds.wp_wait_rest_token 𝒱₀ ER (sched m) (c : Thread nD τ) none (κ := K (c, R.sem)) hw (Set.mem_univ _) () (O := O) (W := W) (R := 0) (m := 0) (T := ∅)
      (by rw [Nat.zero_add, expect_cell])) $$ [Hc HO Hmw Hat]
  · iframe # ∗
  iintro ⟨HO, Hat, -, Hpay⟩
  iapply Hk
  iframe
  iapply (Entails.of_eq (rest_cell m c R)) $$ Hpay

theorem step_load (B : Memref sig .tc .vmem S512x512 .bf16) (c : Dev nD) (i : Fin 8) (q : PosShare TreeShare)
    (f : Buf (Elt F) ((chunkM B i).view.loc (c : Thread nD τ))) {hl : B.view.LoadsAt (chunk i).toLoadRect}
    {α : Type} {Q : α → sProp 𝕄} {k : ((chunk i).toLoadRect.shape.Idx → Elt F .bf16) → Prog (TpuEff nD τ sig (Elt F) Λ₀ .tc) α} :
    chunkAt B c i q f
      ⊢ iprop((chunkAt B c i q f -∗ WP c (k (B.view.readAt (Elt F) (chunk i).toLoadRect f)) Q)
          -∗ WP c (.op (.load B (chunk i).toLoadRect hl) k) Q) := by
  unfold chunkAt
  exact wp_load 𝒱₀ (c : Thread nD τ) none Set.univ (m := B)
    (show B.view.setOn (chunk i).set ⊆ (B.view.slice (chunk i)).set from (View.set_slice B.view (chunk i)).ge)

theorem step_store (B : Memref sig .tc .vmem S512x512 .bf16) (c : Dev nD) (i : Fin 8)
    (f : Buf (Elt F) ((chunkM B i).view.loc (c : Thread nD τ))) (w : (chunk i).shape.Idx → Elt F .bf16)
    {hx : (B.access (chunk i)).Stores Finset.univ} {hm : (Finset.univ : Finset (chunk i).shape.Idx) = Finset.univ ∨ ∀ a, (chunk i).stride a = 1}
    {α : Type} {Q : α → sProp 𝕄} {k : PUnit → Prog (TpuEff nD τ sig (Elt F) Λ₀ .tc) α} :
    chunkAt B c i fullShare f
      ⊢ iprop((chunkAt B c i fullShare ((B.access (chunk i)).write (Elt F) f w Finset.univ) -∗ WP c (k ⟨⟩) Q)
          -∗ WP c (.op (.store B (chunk i) w Finset.univ hx hm) k) Q) := by
  unfold chunkAt
  exact wp_store 𝒱₀ (c : Thread nD τ) none Set.univ (m := B) (r := chunk i) (Mk := Finset.univ) subset_rfl

end Rules

end Cert.Kernel.AllReduce

end
-- ==== Proof.Bits.Result.lean ====
import proofs.«900709_g7700000000000710_dist_ar_v7x_xyz2x2x4_y_m1024_n512_bf16_1_alg».proof.Proof.Bits.Cells
import Idealize.ShloMosaic.Lib.ValueIdx

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

def lo (j : S1024x512.Idx) : S512x512.Idx := ValueIdx.ix2 (⟨(j 0).val % 512, Nat.mod_lt _ (by decide)⟩ : Fin 512) (⟨(j 1).val, (j 1).isLt⟩ : Fin 512)

def res (c : Dev nD) : Buf (Elt F) ((c : Thread nD τ).loc main_v1) :=
  show Vec F S1024x512 .bf16 from fun j => if (j 0).val / 512 = c.val / 8 then sums m c (lo j) else sums m (xn c) (lo j)

theorem off1_0 (c : Dev nD) : k0_off1 c 0 = 512 * (c.val / 8) := by rw [k0_off1_eq]; rfl
theorem off1_1 (c : Dev nD) : k0_off1 c 1 = 0 := by rw [k0_off1_eq]; rfl
theorem off2_0 (c : Dev nD) (j : Fin 8) : k0_off2 c (BitVec.ofNat 32 (64 * j.val)) 0 = (64 * j.val + 512) - 512 * (c.val / 8) := by
  rw [k0_off2_eq]; rfl
theorem off2_1 (c : Dev nD) (j : Fin 8) : k0_off2 c (BitVec.ofNat 32 (64 * j.val)) 1 = 0 := by rw [k0_off2_eq]; rfl
theorem half_le (c : Dev nD) : c.val / 8 ≤ 1 := by have : c.val < 16 := c.isLt; omega

theorem mem_own (c : Dev nD) (x : S1024x512.Idx) : x ∈ (own c).set ↔ (x 0).val / 512 = c.val / 8 := by
  rw [Rect.mem_set_unit, Fin.forall_fin_two, off1_0, off1_1]
  have h0 := ValueIdx.idx2_lt0 x
  have h1 := ValueIdx.idx2_lt1 x
  have hc := half_le c
  have s0 : S512x512.size 0 = 512 := rfl
  have s1 : S512x512.size 1 = 512 := rfl
  rw [s0, s1]
  constructor
  · rintro ⟨⟨a, b⟩, -⟩; omega
  · intro h; refine ⟨⟨?_, ?_⟩, Nat.zero_le _, ?_⟩ <;> omega

theorem mem_oth (c : Dev nD) (j : Fin 8) (x : S1024x512.Idx) :
    x ∈ (oth c j).set ↔ (x 0).val / 512 ≠ c.val / 8 ∧ (x 0).val % 512 / 64 = j.val := by
  rw [Rect.mem_set_unit, Fin.forall_fin_two, off2_0, off2_1]
  have h0 := ValueIdx.idx2_lt0 x
  have h1 := ValueIdx.idx2_lt1 x
  have hc := half_le c
  have hj := j.isLt
  have s0 : S64x512.size 0 = 64 := rfl
  have s1 : S64x512.size 1 = 512 := rfl
  rw [s0, s1]
  constructor
  · rintro ⟨⟨a, b⟩, -⟩; omega
  · rintro ⟨h, h'⟩; refine ⟨⟨?_, ?_⟩, Nat.zero_le _, ?_⟩ <;> omega

theorem set_ownOut (c : Dev nD) : (ownOutM c).view.set = (own c).set := View.set_slice_whole _ _
theorem set_oth (c : Dev nD) (j : Fin 8) : (othM c j).view.set = (oth c j).set := View.set_slice_whole _ _

theorem own_emb (c : Dev nD) (y : S512x512.Idx) :
    (((own c).emb y 0 : ℕ) = 512 * (c.val / 8) + (y 0).val) ∧ (((own c).emb y 1 : ℕ) = (y 1).val) := by
  constructor
  · show k0_off1 c 0 + 1 * (y 0).val = _; rw [off1_0]; omega
  · show k0_off1 c 1 + 1 * (y 1).val = _; rw [off1_1]; omega
theorem oth_emb (c : Dev nD) (j : Fin 8) (y : S64x512.Idx) :
    (((oth c j).emb y 0 : ℕ) = (64 * j.val + 512) - 512 * (c.val / 8) + (y 0).val) ∧ (((oth c j).emb y 1 : ℕ) = (y 1).val) := by
  constructor
  · show k0_off2 c (BitVec.ofNat 32 (64 * j.val)) 0 + 1 * (y 0).val = _; rw [off2_0]; omega
  · show k0_off2 c (BitVec.ofNat 32 (64 * j.val)) 1 + 1 * (y 1).val = _; rw [off2_1]; omega
theorem chunk_emb (j : Fin 8) (y : S64x512.Idx) :
    (((chunk j).emb y 0 : ℕ) = 64 * j.val + (y 0).val) ∧ (((chunk j).emb y 1 : ℕ) = (y 1).val) := by
  constructor
  · show 64 * j.val + 1 * (y 0).val = _; omega
  · show 0 + 1 * (y 1).val = _; omega

theorem res_own (c : Dev nD) : ∀ x ∈ (ownOutM c).view.set, outOwn m c x = res m c x := by
  intro x hx
  obtain ⟨y, rfl⟩ := View.exists_emb_of_mem_set _ hx
  unfold outOwn
  rw [View.write_emb_of_mem _ _ (Finset.mem_univ y)]
  obtain ⟨e0, e1⟩ := own_emb c y
  have h0 := ValueIdx.idx2_lt0 y
  have hlo : lo ((own c).emb y) = y := by
    funext a
    match a with
    | ⟨0, _⟩ => apply Fin.ext; show ((own c).emb y 0 : ℕ) % 512 = (y 0).val; rw [e0]; omega
    | ⟨1, _⟩ => apply Fin.ext; show ((own c).emb y 1 : ℕ) = (y 1).val; exact e1
  have hrow : ((own c).emb y 0 : ℕ) / 512 = c.val / 8 := by rw [e0]; omega
  show _ = (if ((own c).emb y 0 : ℕ) / 512 = c.val / 8 then sums m c (lo ((own c).emb y)) else sums m (xn c) (lo ((own c).emb y)))
  rw [if_pos hrow, hlo]
  rfl

theorem res_oth (c : Dev nD) (j : Fin 8) : ∀ x ∈ (othM c j).view.set, outAfter m c j x = res m c x := by
  intro x hx
  obtain ⟨y, rfl⟩ := View.exists_emb_of_mem_set _ hx
  unfold outAfter
  rw [View.write_emb_of_mem _ _ (Finset.mem_univ y)]
  obtain ⟨e0, e1⟩ := oth_emb c j y
  obtain ⟨k0, k1⟩ := chunk_emb j y
  have h0 := ValueIdx.idx2_lt0 y
  have hc := half_le c
  have hj := j.isLt
  have hlo : lo ((oth c j).emb y) = (chunk j).emb y := by
    funext a
    match a with
    | ⟨0, _⟩ => apply Fin.ext; show ((oth c j).emb y 0 : ℕ) % 512 = ((chunk j).emb y 0 : ℕ); rw [e0, k0]; omega
    | ⟨1, _⟩ => apply Fin.ext; show ((oth c j).emb y 1 : ℕ) = ((chunk j).emb y 1 : ℕ); rw [e1, k1]
  have hrow : ¬ ((oth c j).emb y 0 : ℕ) / 512 = c.val / 8 := by rw [e0]; omega
  show _ = (if ((oth c j).emb y 0 : ℕ) / 512 = c.val / 8 then sums m c (lo ((oth c j).emb y)) else sums m (xn c) (lo ((oth c j).emb y)))
  rw [if_neg hrow, hlo]
  rfl

theorem out_cover (c : Dev nD) :
    (Finset.univ : Finset (Idx ((c : Thread nD τ).loc main_v1))) = (ownOutM c).view.set ∪ Finset.univ.biUnion fun j : Fin 8 => (othM c j).view.set := by
  refine (Finset.eq_univ_iff_forall.mpr fun x => ?_).symm
  refine Finset.mem_union.mpr ?_
  by_cases h : ((x : S1024x512.Idx) 0).val / 512 = c.val / 8
  · refine Or.inl ?_
    rw [set_ownOut]
    exact (mem_own c x).mpr h
  · have hj : ((x : S1024x512.Idx) 0).val % 512 / 64 < 8 := by omega
    refine Or.inr (Finset.mem_biUnion.mpr ⟨⟨_, hj⟩, Finset.mem_univ _, ?_⟩)
    rw [set_oth]
    exact (mem_oth c ⟨_, hj⟩ x).mpr ⟨h, rfl⟩
theorem out_disjoint_own (c : Dev nD) (j : Fin 8) : Disjoint ((ownOutM c).view.set) ((othM c j).view.set) := by
  rw [set_ownOut, set_oth]
  refine Finset.disjoint_left.mpr fun x h1 h2 => ?_
  exact ((mem_oth c j x).mp h2).1 ((mem_own c x).mp h1)
theorem out_disjoint_oth (c : Dev nD) (i j : Fin 8) (h : i ≠ j) : Disjoint ((othM c i).view.set) ((othM c j).view.set) := by
  rw [set_oth, set_oth]
  refine Finset.disjoint_left.mpr fun x h1 h2 => ?_
  exact h (Fin.ext (((mem_oth c i x).mp h1).2.symm.trans ((mem_oth c j x).mp h2).2))

/-- info: 'Cert.Kernel.AllReduce.res_own' depends on axioms: [propext, Classical.choice, Quot.sound] -/
#guard_msgs in #print axioms res_own
/-- info: 'Cert.Kernel.AllReduce.res_oth' depends on axioms: [propext, Classical.choice, Quot.sound] -/
#guard_msgs in #print axioms res_oth
/-- info: 'Cert.Kernel.AllReduce.out_cover' depends on axioms: [propext, Classical.choice, Quot.sound] -/
#guard_msgs in #print axioms out_cover

end Cert.Kernel.AllReduce

end
-- ==== Proof.Bits.State.lean ====
import proofs.«900709_g7700000000000710_dist_ar_v7x_xyz2x2x4_y_m1024_n512_bf16_1_alg».proof.Proof.Bits.Steps
import proofs.«900709_g7700000000000710_dist_ar_v7x_xyz2x2x4_y_m1024_n512_bf16_1_alg».proof.Proof.Bits.Result

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

def S (i : Fin 8) (q : PosShare TreeShare) : sProp 𝕄 := chunkAt sndM c i q (sent m c)
def S0 (i : Fin 8) : sProp 𝕄 := iprop(∃ f, chunkAt sndM c i fullShare f)

def Y (i : Fin 8) : sProp 𝕄 := chunkAt yrcM c i fullShare (sent m (yp c))

def M (i : Fin 8) (q : PosShare TreeShare) : sProp 𝕄 := chunkAt sumM c i q (sums m c)
def M0 (i : Fin 8) : sProp 𝕄 := iprop(∃ f, chunkAt sumM c i fullShare f)

def X (i : Fin 8) : sProp 𝕄 := chunkAt xrcM c i fullShare (sums m (xn c))

def Ye (i : Fin 8) : sProp 𝕄 := iprop(∃ f, chunkAt yrcM (yp c) i fullShare f)
def Xe (i : Fin 8) : sProp 𝕄 := iprop(∃ f, chunkAt xrcM (xn c) i fullShare f)

def Stg : sProp 𝕄 := wholeAt stgM c fullShare (staged m c)

def InOwn : sProp 𝕄 := wholeAt (ownInM c) c fullShare (xin m c)
def OutOwn0 : sProp 𝕄 := wholeAt (ownOutM c) c fullShare (out0 m c)
def OutJ0 (j : Fin 8) : sProp 𝕄 := wholeAt (othM c j) c fullShare (out0 m c)
def OutOwn1 : sProp 𝕄 := wholeAt (ownOutM c) c fullShare (outOwn m c)
def OutJ1 (j : Fin 8) : sProp 𝕄 := wholeAt (othM c j) c fullShare (outAfter m c j)

def owesN (n : ℕ) : sProp 𝕄 := iprop(∃ W, owes (c : Thread nD τ) (owe c n) W)

def all8 (Φ : Fin 8 → sProp 𝕄) : sProp 𝕄 := iprop(Φ 0 ∗ Φ 1 ∗ Φ 2 ∗ Φ 3 ∗ Φ 4 ∗ Φ 5 ∗ Φ 6 ∗ Φ 7)

def all9 (Φ : Fin 9 → sProp 𝕄) : sProp 𝕄 := iprop(Φ 0 ∗ Φ 1 ∗ Φ 2 ∗ Φ 3 ∗ Φ 4 ∗ Φ 5 ∗ Φ 6 ∗ Φ 7 ∗ Φ 8)

def Wt (R : Role) : sProp 𝕄 := iprop(crd c R ∗ pos c R 0)
def Wd (R : Role) : sProp 𝕄 := iprop(pos c R 1 ∗ pay m R c)

def P1 : sProp 𝕄 := iprop(owesN c 18 ∗ tok (yp c) .bar ∗ tok (xn c) .syn ∗ (∃ f, wholeAt yrcM c fullShare f) ∗ (∃ f, wholeAt xrcM c fullShare f)
  ∗ InOwn m c ∗ (∃ f, wholeAt stgM c fullShare f) ∗ tok c .stg ∗ pos c .stg 0 ∗ S0 c 0)
def Q1 : sProp 𝕄 := iprop(owesN c 16 ∗ Stg m c ∗ InOwn m c ∗ pos c .stg 1 ∗ S0 c 0)

def P2 : sProp 𝕄 := iprop(Stg m c ∗ S0 c 0 ∗ S0 c 1 ∗ S0 c 2 ∗ S0 c 3 ∗ S0 c 4 ∗ S0 c 5 ∗ S0 c 6)
def Q2 : sProp 𝕄 := iprop(Stg m c ∗ S m c 0 fullShare ∗ S m c 1 fullShare ∗ S m c 2 fullShare ∗ S m c 3 fullShare ∗ S m c 4 fullShare ∗ S m c 5 fullShare ∗ S0 c 6)

def P3 : sProp 𝕄 := iprop(Stg m c ∗ S0 c 6 ∗ S0 c 7 ∗ S m c 0 fullShare ∗ Wt c .bar ∗ owesN c 16 ∗ tok c (.ysnd 0) ∗ tok (yp c) (.yrcv 0))
def Q3 : sProp 𝕄 := iprop(Stg m c ∗ S m c 6 fullShare ∗ S m c 7 fullShare ∗ S m c 0 fullShare.right ∗ pos c .bar 1
  ∗ (Ye c 1 ∗ Ye c 2 ∗ Ye c 3 ∗ Ye c 4 ∗ Ye c 5 ∗ Ye c 6 ∗ Ye c 7) ∗ crd c (.ysnd 0) ∗ owesN c 15)

def Psy (i : Fin 8) : sProp 𝕄 := iprop(S m c i fullShare ∗ Ye c i ∗ tok c (.ysnd i) ∗ tok (yp c) (.yrcv i))
def Qsy (i : Fin 8) : sProp 𝕄 := iprop(S m c i fullShare.right ∗ crd c (.ysnd i))

def P4 : sProp 𝕄 := iprop(owesN c 15 ∗ Psy m c 1 ∗ Psy m c 2 ∗ Psy m c 3)
def Q4 : sProp 𝕄 := iprop(owesN c 12 ∗ Qsy m c 1 ∗ Qsy m c 2 ∗ Qsy m c 3)
def P5 : sProp 𝕄 := iprop(owesN c 12 ∗ Psy m c 4 ∗ Psy m c 5 ∗ Psy m c 6)
def Q5 : sProp 𝕄 := iprop(owesN c 9 ∗ Qsy m c 4 ∗ Qsy m c 5 ∗ Qsy m c 6)

def Pad (j : Fin 8) : sProp 𝕄 := iprop(Wt c (.yrcv j) ∗ S m c j fullShare.right ∗ M0 c j)
def Qad (j : Fin 8) : sProp 𝕄 := iprop(pos c (.yrcv j) 1 ∗ Y m c j ∗ S m c j fullShare.right ∗ M m c j fullShare)

def P6 : sProp 𝕄 := iprop(owesN c 9 ∗ Psy m c 7 ∗ Wt c .syn ∗ Pad m c 0)
def Q6 : sProp 𝕄 := iprop(owesN c 8 ∗ Qsy m c 7 ∗ pos c .syn 1 ∗ all8 (Xe c) ∗ Qad m c 0)

def Psx (i : Fin 8) : sProp 𝕄 := iprop(M m c i fullShare ∗ Xe c i ∗ tok c (.xsnd i) ∗ tok (xn c) (.xrcv i))
def Qsx (i : Fin 8) : sProp 𝕄 := iprop(M m c i fullShare.right ∗ crd c (.xsnd i))

def Pxa (t j : Fin 8) (n : ℕ) : sProp 𝕄 := iprop(owesN c n ∗ Psx m c t ∗ Pad m c j)
def Qxa (t j : Fin 8) (n : ℕ) : sProp 𝕄 := iprop(owesN c (n - 1) ∗ Qsx m c t ∗ Qad m c j)

def P13 : sProp 𝕄 := iprop(owesN c 2 ∗ Psx m c 6 ∗ Pad m c 7 ∗ Xe c 7 ∗ tok c (.xsnd 7) ∗ tok (xn c) (.xrcv 7))
def Q13 : sProp 𝕄 := iprop(owesN c 0 ∗ Qsx m c 6 ∗ pos c (.yrcv 7) 1 ∗ Y m c 7 ∗ S m c 7 fullShare.right ∗ Qsx m c 7)

def Pod (j : Fin 8) (j' : Fin 9) : sProp 𝕄 := iprop(Wt c (.xrcv j) ∗ OutJ0 m c j ∗ tok c (.out j'))
def Qod (j : Fin 8) (j' : Fin 9) : sProp 𝕄 := iprop(pos c (.xrcv j) 1 ∗ crd c (.out j'))

def P14 : sProp 𝕄 := iprop(owesN c 0 ∗ all8 (fun i => M m c i fullShare.right) ∗ OutOwn0 m c ∗ tok c (.out 8) ∗ Pod m c 0 0)
def Q14 : sProp 𝕄 := iprop(owesN c 0 ∗ crd c (.out 8) ∗ Qod c 0 0)
def P15 : sProp 𝕄 := iprop(owesN c 0 ∗ Pod m c 1 1 ∗ Pod m c 2 2)
def Q15 : sProp 𝕄 := iprop(owesN c 0 ∗ Qod c 1 1 ∗ Qod c 2 2)
def P16 : sProp 𝕄 := iprop(owesN c 0 ∗ Pod m c 3 3 ∗ Pod m c 4 4)
def Q16 : sProp 𝕄 := iprop(owesN c 0 ∗ Qod c 3 3 ∗ Qod c 4 4)
def P17 : sProp 𝕄 := iprop(owesN c 0 ∗ Pod m c 5 5 ∗ Pod m c 6 6)
def Q17 : sProp 𝕄 := iprop(owesN c 0 ∗ Qod c 5 5 ∗ Qod c 6 6)

def P18 : sProp 𝕄 := iprop(owesN c 0 ∗ Pod m c 7 7 ∗ pos c (.out 8) 0 ∗ crd c (.out 8) ∗ Wt c (.out 0) ∗ Wt c (.out 1) ∗ Wt c (.out 2))
def Q18 : sProp 𝕄 := iprop(owesN c 0 ∗ Qod c 7 7 ∗ Wd m c (.out 8) ∗ Wd m c (.out 0) ∗ Wd m c (.out 1) ∗ Wd m c (.out 2))

def P19 : sProp 𝕄 := iprop(owesN c 0 ∗ Wt c (.out 3) ∗ Wt c (.out 4) ∗ Wt c (.out 5) ∗ Wt c (.out 6) ∗ Wt c (.out 7) ∗ Wt c (.ysnd 0))
def Q19 : sProp 𝕄 := iprop(owesN c 0 ∗ Wd m c (.out 3) ∗ Wd m c (.out 4) ∗ Wd m c (.out 5) ∗ Wd m c (.out 6) ∗ Wd m c (.out 7) ∗ Wd m c (.ysnd 0))
def P20 : sProp 𝕄 := iprop(owesN c 0 ∗ Wt c (.xsnd 0) ∗ Wt c (.ysnd 1) ∗ Wt c (.xsnd 1) ∗ Wt c (.ysnd 2) ∗ Wt c (.xsnd 2))
def Q20 : sProp 𝕄 := iprop(owesN c 0 ∗ Wd m c (.xsnd 0) ∗ Wd m c (.ysnd 1) ∗ Wd m c (.xsnd 1) ∗ Wd m c (.ysnd 2) ∗ Wd m c (.xsnd 2))
def P21 : sProp 𝕄 := iprop(owesN c 0 ∗ Wt c (.ysnd 3) ∗ Wt c (.xsnd 3) ∗ Wt c (.ysnd 4) ∗ Wt c (.xsnd 4) ∗ Wt c (.ysnd 5))
def Q21 : sProp 𝕄 := iprop(owesN c 0 ∗ Wd m c (.ysnd 3) ∗ Wd m c (.xsnd 3) ∗ Wd m c (.ysnd 4) ∗ Wd m c (.xsnd 4) ∗ Wd m c (.ysnd 5))

def posAll (n : ℕ) : sProp 𝕄 := iprop(pos c .bar n ∗ pos c .syn n ∗ pos c .stg n ∗ all9 (fun j => pos c (.out j) n)
  ∗ all8 (fun i => iprop(pos c (.ysnd i) n ∗ pos c (.yrcv i) n ∗ pos c (.xsnd i) n ∗ pos c (.xrcv i) n)))

def toksAll : sProp 𝕄 := iprop(tok (yp c) .bar ∗ tok (xn c) .syn ∗ tok c .stg ∗ all9 (fun j => tok c (.out j))
  ∗ all8 (fun i => iprop(tok c (.ysnd i) ∗ tok (yp c) (.yrcv i) ∗ tok c (.xsnd i) ∗ tok (xn c) (.xrcv i))))

def crdAll : sProp 𝕄 := iprop(crd c .bar ∗ crd c .syn ∗ all8 (fun i => iprop(crd c (.yrcv i) ∗ crd c (.xrcv i))))

def scratchAny : sProp 𝕄 := iprop((∃ f, wholeAt stgM c fullShare f) ∗ (∃ f, wholeAt sndM c fullShare f) ∗ (∃ f, wholeAt yrcM c fullShare f)
  ∗ (∃ f, wholeAt xrcM c fullShare f) ∗ (∃ f, wholeAt sumM c fullShare f))

def closedAll : sProp 𝕄 := iprop(semVal (cell c Role.syn.sem) 0 ∗ semVal (cell c Role.stg.sem) 0 ∗ all9 (fun j => semVal (cell c (Role.out j).sem) 0)
  ∗ all8 (fun i => iprop(semVal (cell c (Role.ysnd i).sem) 0 ∗ semVal (cell c (Role.yrcv i).sem) 0 ∗ semVal (cell c (Role.xsnd i).sem) 0 ∗ semVal (cell c (Role.xrcv i).sem) 0)))

def InRest : sProp 𝕄 := inM.view.loc (c : Thread nD τ) ↦[Finset.univ \ (ownInM c).view.set]{fullShare} xin m c

def EndPieces : sProp 𝕄 := iprop(Stg m c ∗ InOwn m c ∗ InRest m c ∗ posAll c 1
  ∗ all8 (fun i => iprop(S m c i fullShare.left ∗ S m c i fullShare.right)) ∗ all8 (Y m c) ∗ all8 (X m c)
  ∗ all8 (fun i => M m c i fullShare.left) ∗ wholeAt sumM c fullShare.right (sums m c)
  ∗ OutOwn1 m c ∗ all8 (OutJ1 m c))

def Φ₀ : sProp 𝕄 := iprop((∃ K, recs m K ∗ posAll c 0 ∗ toksAll c) ∗ crdAll c ∗ levAts L lv
  ∗ wholeAt inM c fullShare (xin m c) ∗ wholeAt outM c fullShare (out0 m c) ∗ scratchAny c)

def Φ₁ : sProp 𝕄 := iprop(wholeAt inM c fullShare (xin m c) ∗ wholeAt outM c fullShare (res m c) ∗ scratchAny c ∗ closedAll c)

end Cert.Kernel.AllReduce

end
-- ==== Proof.Bits.Pieces.lean ====
import proofs.«900709_g7700000000000710_dist_ar_v7x_xyz2x2x4_y_m1024_n512_bf16_1_alg».proof.Proof.Bits.State

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem chunk_halves (B : Memref sig .tc .vmem S512x512 .bf16) (d : Dev nD) (i : Fin 8) (q : PosShare TreeShare)
    (f : Buf (Elt F) ((chunkM B i).view.loc (d : Thread nD τ))) :
    (chunkAt B d i q f : sProp 𝕄) ⊣⊢ iprop(chunkAt B d i q.left f ∗ chunkAt B d i q.right f) := by
  unfold chunkAt
  exact pointsTo_share (PosShare.mem_left_op_right q)

theorem whole_halves {sp : Space} {s : Shape} {e : EltTy} (B : Memref sig .tc sp s e) (d : Dev nD) (q : PosShare TreeShare)
    (f : Buf (Elt F) (B.view.loc (d : Thread nD τ))) :
    (wholeAt B d q f : sProp 𝕄) ⊣⊢ iprop(wholeAt B d q.left f ∗ wholeAt B d q.right f) := by
  unfold wholeAt
  exact pointsTo_share (PosShare.mem_left_op_right q)

theorem mem_chunk (i : Fin 8) (x : S512x512.Idx) : x ∈ (chunk i).set ↔ (x 0).val / 64 = i.val := by
  rw [Rect.mem_set_unit, Fin.forall_fin_two]
  have h0 := ValueIdx.idx2_lt0 x
  have h1 := ValueIdx.idx2_lt1 x
  have hi := i.isLt
  have s0 : S64x512.size 0 = 64 := rfl
  have s1 : S64x512.size 1 = 512 := rfl
  have o0 : (![64 * i.val, 0] : Fin 2 → Nat) 0 = 64 * i.val := rfl
  have o1 : (![64 * i.val, 0] : Fin 2 → Nat) 1 = 0 := rfl
  rw [s0, s1, o0, o1]
  constructor
  · rintro ⟨⟨a, b⟩, -⟩; omega
  · intro h; refine ⟨⟨?_, ?_⟩, Nat.zero_le _, ?_⟩ <;> omega

theorem chunks_cover {κ : Kind} {sp : Space} {e : EltTy} (v : View sig κ sp S512x512 e) :
    v.set = Finset.univ.biUnion fun i : Fin 8 => (v.slice (chunk i)).set := by
  ext x
  constructor
  · intro hx
    obtain ⟨y, rfl⟩ := View.exists_emb_of_mem_set v hx
    have h0 := ValueIdx.idx2_lt0 y
    have hlt : (y 0).val / 64 < 8 := by omega
    refine Finset.mem_biUnion.mpr ⟨⟨_, hlt⟩, Finset.mem_univ _, ?_⟩
    rw [View.set_slice]
    exact Finset.mem_map_of_mem _ ((mem_chunk ⟨_, hlt⟩ y).mpr rfl)
  · intro hx
    obtain ⟨i, -, hi⟩ := Finset.mem_biUnion.mp hx
    exact View.set_slice_subset v _ hi

theorem chunks_disjoint {κ : Kind} {sp : Space} {e : EltTy} (v : View sig κ sp S512x512 e) (i j : Fin 8) (h : i ≠ j) :
    Disjoint (v.slice (chunk i)).set (v.slice (chunk j)).set := by
  rw [View.set_slice, View.set_slice]
  refine (Finset.disjoint_map v.emb).mpr (Finset.disjoint_left.mpr fun x h1 h2 => ?_)
  exact h (Fin.ext (((mem_chunk i x).mp h1).symm.trans ((mem_chunk j x).mp h2)))

theorem all8_eq_bigSep (Φ : Fin 8 → sProp 𝕄) : bigSep Finset.univ Φ = all8 Φ := by
  have h : (Finset.univ : Finset (Fin 8)) = insert 0 (insert 1 (insert 2 (insert 3 (insert 4 (insert 5 (insert 6 {7})))))) := by decide
  rw [h, bigSep_insert (by decide), bigSep_insert (by decide), bigSep_insert (by decide), bigSep_insert (by decide),
    bigSep_insert (by decide), bigSep_insert (by decide), bigSep_insert (by decide), bigSep_singleton]
  rfl

theorem all8_mono {Φ Ψ : Fin 8 → sProp 𝕄} (h : ∀ i, Φ i ⊢ Ψ i) : all8 Φ ⊢ all8 Ψ := by
  unfold all8
  exact BIClass.sep_mono (h 0) (BIClass.sep_mono (h 1) (BIClass.sep_mono (h 2) (BIClass.sep_mono (h 3) (BIClass.sep_mono (h 4) (BIClass.sep_mono (h 5) (BIClass.sep_mono (h 6) (h 7)))))))

theorem whole_eq_all8 (B : Memref sig .tc .vmem S512x512 .bf16) (d : Dev nD) (q : PosShare TreeShare) (f : Buf (Elt F) (B.view.loc (d : Thread nD τ))) :
    (wholeAt B d q f : sProp 𝕄) = all8 (fun i => chunkAt B d i q f) := by
  rw [← all8_eq_bigSep]
  unfold wholeAt chunkAt
  rw [chunks_cover B.view]
  exact pointsTo_biUnion Finset.univ _ (fun i _ j _ h => chunks_disjoint B.view i j h)

theorem split8_any (B : Memref sig .tc .vmem S512x512 .bf16) (d : Dev nD) :
    (iprop(∃ f, wholeAt B d fullShare f) : sProp 𝕄) ⊢ all8 (fun i => iprop(∃ f, chunkAt B d i fullShare f)) := by
  refine exists_elim fun f => ?_
  rw [whole_eq_all8 B d fullShare f]
  exact all8_mono fun i => exists_intro (Φ := fun f => chunkAt B d i fullShare f) f

theorem join8_same (B : Memref sig .tc .vmem S512x512 .bf16) (d : Dev nD) (q : PosShare TreeShare) (f : Buf (Elt F) (B.view.loc (d : Thread nD τ))) :
    (all8 (fun i => chunkAt B d i q f) : sProp 𝕄) ⊣⊢ wholeAt B d q f := by
  rw [whole_eq_all8 B d q f]

theorem stored_sent (c : Dev nD) (i : Fin 8) (f0 : Buf (Elt F) ((chunkM sndM i).view.loc (c : Thread nD τ))) (w : (chunk i).shape.Idx → Elt F .bf16)
    (hw : w = truncf .bf16 (stgM.view.readAt (Elt F) (chunk i).toLoadRect (staged m c)) bitsLt_bf16_f32) :
    (chunkAt sndM c i fullShare ((sndM.access (chunk i)).write (Elt F) f0 w Finset.univ) : sProp 𝕄) ⊢ S m c i fullShare := by
  subst hw
  unfold S chunkAt
  refine Entails.of_eq (pointsTo_congr fun j hj => ?_)
  obtain ⟨y, rfl⟩ := View.exists_emb_of_mem_set _ hj
  rw [show (chunkM sndM i).view.emb y = (sndM.access (chunk i)).emb y from rfl, View.write_emb_of_mem _ _ (Finset.mem_univ y)]
  rfl

theorem stored_sums (c : Dev nD) (i : Fin 8) (g0 : Buf (Elt F) ((chunkM sumM i).view.loc (c : Thread nD τ))) (w : (chunk i).shape.Idx → Elt F .bf16)
    (hw : w = addf (sndM.view.readAt (Elt F) (chunk i).toLoadRect (sent m c)) (yrcM.view.readAt (Elt F) (chunk i).toLoadRect (sent m (yp c)))) :
    (chunkAt sumM c i fullShare ((sumM.access (chunk i)).write (Elt F) g0 w Finset.univ) : sProp 𝕄) ⊢ M m c i fullShare := by
  subst hw
  unfold M chunkAt
  refine Entails.of_eq (pointsTo_congr fun j hj => ?_)
  obtain ⟨y, rfl⟩ := View.exists_emb_of_mem_set _ hj
  rw [show (chunkM sumM i).view.emb y = (sumM.access (chunk i)).emb y from rfl, View.write_emb_of_mem _ _ (Finset.mem_univ y)]
  rfl

theorem out_pieces (c : Dev nD) (f : Buf (Elt F) (outM.view.loc (c : Thread nD τ))) :
    (wholeAt outM c fullShare f : sProp 𝕄) = iprop(wholeAt (ownOutM c) c fullShare f ∗ all8 (fun j => wholeAt (othM c j) c fullShare f)) := by
  have hs : (outM.view.set : Finset (Idx ((c : Thread nD τ).loc main_v1)))
      = (ownOutM c).view.set ∪ Finset.univ.biUnion fun j : Fin 8 => (othM c j).view.set :=
    (View.set_whole _).trans (out_cover c)
  have hd : Disjoint (ownOutM c).view.set (Finset.univ.biUnion fun j : Fin 8 => (othM c j).view.set) :=
    (Finset.disjoint_biUnion_right _ _ _).mpr fun j _ => out_disjoint_own c j
  have hu : (((c : Thread nD τ).loc main_v1 ↦[(ownOutM c).view.set ∪ Finset.univ.biUnion fun j : Fin 8 => (othM c j).view.set]{fullShare} f) : sProp 𝕄) ⊣⊢ _ := pointsTo_union hd
  rw [← all8_eq_bigSep]
  unfold wholeAt
  rw [hs, BI.equiv_iff.mp ⟨hu.1, hu.2⟩, pointsTo_biUnion Finset.univ _ (fun i _ j _ h => out_disjoint_oth c i j h)]

theorem in_split (c : Dev nD) : (wholeAt inM c fullShare (xin m c) : sProp 𝕄) ⊣⊢ iprop(InOwn m c ∗ InRest m c) := by
  unfold InOwn InRest wholeAt
  rw [show (inM.view.set : Finset (Idx (inM.view.loc (c : Thread nD τ)))) = Finset.univ from View.set_whole _]
  exact pointsTo_split_subset (Finset.subset_univ _)
theorem out_split (c : Dev nD) : (wholeAt outM c fullShare (out0 m c) : sProp 𝕄) ⊣⊢ iprop(OutOwn0 m c ∗ all8 (OutJ0 m c)) := by
  exact BiEntails.of_eq (out_pieces c (out0 m c))

theorem out_join (c : Dev nD) : (iprop(OutOwn1 m c ∗ all8 (OutJ1 m c)) : sProp 𝕄) ⊢ wholeAt outM c fullShare (res m c) := by
  rw [out_pieces c (res m c)]
  refine BIClass.sep_mono (Entails.of_eq ?_) (all8_mono fun j => Entails.of_eq ?_)
  · unfold OutOwn1 wholeAt; exact pointsTo_congr (res_own m c)
  · unfold OutJ1 wholeAt; exact pointsTo_congr (res_oth m c j)

end Cert.Kernel.AllReduce

end
-- ==== Proof.Bits.Moves.lean ====
import proofs.«900709_g7700000000000710_dist_ar_v7x_xyz2x2x4_y_m1024_n512_bf16_1_alg».proof.Proof.Bits.Pieces

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- The arguments every part of the body shares, given once. -/
abbrev atBufs {β : Sort _} (p : (a0 : Memref sig .tc .hbm S1024x512 .f32) → a0.IsWhole → (a1 : Memref sig .tc .hbm S1024x512 .bf16) → a1.IsWhole
    → (a2 : Memref sig .tc .vmem S512x512 .f32) → a2.IsWhole → (a3 : Memref sig .tc .vmem S512x512 .bf16) → a3.IsWhole
    → (a4 : Memref sig .tc .vmem S512x512 .bf16) → a4.IsWhole → (a5 : Memref sig .tc .vmem S512x512 .bf16) → a5.IsWhole
    → (a6 : Memref sig .tc .vmem S512x512 .bf16) → a6.IsWhole
    → DmaSems sig S_ → DmaSems sig S9 → DmaSems sig S8 → DmaSems sig S8 → DmaSems sig S8 → DmaSems sig S8 → Sems sig S_ → β) : β :=
  p inM (Memref.isWhole_whole _) outM (Memref.isWhole_whole _) stgM (Memref.isWhole_whole _) sndM (Memref.isWhole_whole _) yrcM (Memref.isWhole_whole _)
    xrcM (Memref.isWhole_whole _) sumM (Memref.isWhole_whole _) cc0_scratch5 cc0_scratch6 cc0_scratch7 cc0_scratch8 cc0_scratch9 cc0_scratch10 cc0_scratch11

/-- `p` takes the pieces `P` to the pieces `Q`, whatever comes after it. -/
abbrev Runs {α : Type} (P Q : sProp 𝕄) (p : Prog (TpuEff nD τ sig (Elt F) Λ₀ .tc) α) : Prop :=
  ∀ Kt : α → sProp 𝕄, iprop(recs m K ∗ levAts L lv ∗ P ∗ (∀ r, Q -∗ Kt r)) ⊢ WP c p Kt

/-- One rule for every wait: the level condition is a finite check over the eighteen payments. -/
theorem wait_cell (R : Role) (N : ℕ) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ R.sem R.amount K')
    (hl : ∀ j, j < 18 → 18 - N ≤ j → R.level < (payRole j).level) {α : Type} {Q : α → sProp 𝕄} {k : PUnit → Prog (TpuEff nD τ sig (Elt F) Λ₀ .tc) α} :
    iprop(recs m K ∗ levAts L lv ∗ owesN c N ∗ Wt c R)
      ⊢ iprop(((owesN c N ∗ Wd m c R) -∗ WP c (k ⟨⟩) Q) -∗ WP c (.op w k) Q) := by
  unfold owesN Wt Wd
  iintro ⟨#Hrec, #Hlev, ⟨%W, HO⟩, Hc, Hp⟩ Hk
  ihave Hmw := (mayWait_owe c R N hl) $$ Hlev
  iapply (step_wait m K c R hw (owe c N) W) $$ [Hc HO Hmw Hp]
  · iframe # ∗
  iintro ⟨HO, Hp, Hpay⟩
  iapply Hk
  iframe
  iexists _; iexact HO

/-- For a copy's semaphore the wait is known by the credit of the copy's destination. -/
theorem wait_dma (R : Role) (N : ℕ) {sem : DmaSem sig} {sp sp' : Space} {s s' : Shape} {e e' : EltTy}
    {src : Memref sig .tc sp' s' e'} {κ' : Kind} {dst : Memref sig κ' sp s e} {hsrc : src.view.WordExact} {hdst : dst.view.WordExact}
    (hl : ∀ j, j < 18 → 18 - N ≤ j → R.level < (payRole j).level) {α : Type} {Q : α → sProp 𝕄} {k : PUnit → Prog (TpuEff nD τ sig (Elt F) Λ₀ .tc) α}
    (hs : R.sem = .dma sem) (ha : dst.view.dmaCredit = R.amount) :
    iprop(recs m K ∗ levAts L lv ∗ owesN c N ∗ Wt c R)
      ⊢ iprop(((owesN c N ∗ Wd m c R) -∗ WP c (k ⟨⟩) Q) -∗ WP c (.op (.waitDma2 sem src dst hsrc hdst) k) Q) :=
  wait_cell m K c R N (fun K' => by rw [hs, ← ha]; rfl) hl

/-- Sending chunk `i` to the y-peer costs the landing chunk there and half the share of chunk `i` here; the half comes back once the copy has been read. -/
theorem sendY (n : Dev nD) (hn : n = yp c) (i : Fin 8) (N' N : ℕ)
    (hO : owe c N' = owe c N + tallyAt (cell (yp c) (Role.yrcv i).sem) () N64)
    {hsc : ((chunkM yrcM i : Memref sig (Dev.tc n : Thread nD τ).2.kind .vmem S64x512 .bf16)).view.ref.isScScratch = false}
    {hsrc : (chunkM sndM i).view.WordExact} {hdst : (chunkM yrcM i).view.WordExact}
    {hsem : DmaTarget.Typed .vmem (.dma (yrcvS i)) (.remote (Dev.tc n : Thread nD τ) (chunkM yrcM i) (.dma (ysndS i)) hsc)} {α : Type} {Q : α → sProp 𝕄} {k : PUnit → Prog (TpuEff nD τ sig (Elt F) Λ₀ .tc) α} :
    iprop(recs m K ∗ owesN c N' ∗ Psy m c i)
      ⊢ iprop(((owesN c N ∗ Qsy m c i) -∗ WP c (k ⟨⟩) Q) -∗ WP c
          (.op (.enqueueDma (chunkM sndM i) (.remote (Dev.tc n : Thread nD τ) (chunkM yrcM i) (.dma (ysndS i)) hsc) (.dma (yrcvS i)) hsrc hdst hsem) k) Q) := by
  unfold owesN Psy Qsy Ye S
  iintro ⟨#Hrec, ⟨%W, HO⟩, HS, ⟨%fd, HY⟩, Ht1, Ht2⟩ Hk
  ihave HS := (chunk_halves sndM c i fullShare (sent m c)).1 $$ HS
  icases HS with ⟨HSl, HSr⟩
  iapply (step_sendY m K c n hn i fd W (owe c N) hO) $$ [HSl HY HO Ht1 Ht2]
  · iframe # ∗
  iintro ⟨Hc, HO⟩
  iapply Hk
  iframe
  iexists W; iexact HO

/-- The same towards the x-neighbour, for a chunk of the sums. -/
theorem sendX (n : Dev nD) (hn : n = xn c) (i : Fin 8) (N' N : ℕ)
    (hO : owe c N' = owe c N + tallyAt (cell (xn c) (Role.xrcv i).sem) () N64)
    {hsc : ((chunkM xrcM i : Memref sig (Dev.tc n : Thread nD τ).2.kind .vmem S64x512 .bf16)).view.ref.isScScratch = false}
    {hsrc : (chunkM sumM i).view.WordExact} {hdst : (chunkM xrcM i).view.WordExact}
    {hsem : DmaTarget.Typed .vmem (.dma (xrcvS i)) (.remote (Dev.tc n : Thread nD τ) (chunkM xrcM i) (.dma (xsndS i)) hsc)} {α : Type} {Q : α → sProp 𝕄} {k : PUnit → Prog (TpuEff nD τ sig (Elt F) Λ₀ .tc) α} :
    iprop(recs m K ∗ owesN c N' ∗ Psx m c i)
      ⊢ iprop(((owesN c N ∗ Qsx m c i) -∗ WP c (k ⟨⟩) Q) -∗ WP c
          (.op (.enqueueDma (chunkM sumM i) (.remote (Dev.tc n : Thread nD τ) (chunkM xrcM i) (.dma (xsndS i)) hsc) (.dma (xrcvS i)) hsrc hdst hsem) k) Q) := by
  unfold owesN Psx Qsx Xe M
  iintro ⟨#Hrec, ⟨%W, HO⟩, HS, ⟨%fd, HY⟩, Ht1, Ht2⟩ Hk
  ihave HS := (chunk_halves sumM c i fullShare (sums m c)).1 $$ HS
  icases HS with ⟨HSl, HSr⟩
  iapply (step_sendX m K c n hn i fd W (owe c N) hO) $$ [HSl HY HO Ht1 Ht2]
  · iframe # ∗
  iintro ⟨Hc, HO⟩
  iapply Hk
  iframe
  iexists W; iexact HO

set_option maxHeartbeats 1600000 in

/-- Once the y-peer's chunk `j` has landed, own chunk plus landed chunk is chunk `j` of the sums. -/
theorem sumChunk (j : Fin 8) (N : ℕ) (hl : ∀ j', j' < 18 → 18 - N ≤ j' → (Role.yrcv j).level < (payRole j').level)
    (py : ((chunk j).toLoadRect.shape.Idx → Elt F .bf16) → ((chunk j).toLoadRect.shape.Idx → Elt F .bf16) → (chunk j).shape.Idx → Elt F .bf16)
    (hpy : ∀ a b, py a b = addf a b)
    {sp' : Space} {s' : Shape} {e' : EltTy} {src : Memref sig .tc sp' s' e'} {hsrc : src.view.WordExact} {hdst : (chunkM yrcM j).view.WordExact}
    {hl1 : sndM.view.LoadsAt (chunk j).toLoadRect} {hl2 : yrcM.view.LoadsAt (chunk j).toLoadRect} {hl3 : sumM.view.LoadsAt (chunk j).toLoadRect}
    {hx : (sumM.access (chunk j)).Stores Finset.univ} {hm : (Finset.univ : Finset (chunk j).shape.Idx) = Finset.univ ∨ ∀ a, (chunk j).stride a = 1} {α : Type} {Q : α → sProp 𝕄} {k : PUnit → Prog (TpuEff nD τ sig (Elt F) Λ₀ .tc) α} :
    iprop(recs m K ∗ levAts L lv ∗ owesN c N ∗ Pad m c j)
      ⊢ iprop(((owesN c N ∗ Qad m c j) -∗ WP c (k ⟨⟩) Q) -∗ WP c
          (.op (.waitDma2 (yrcvS j) src (chunkM yrcM j) hsrc hdst) fun _ => .op (.load sndM (chunk j).toLoadRect hl1) fun a =>
            .op (.load yrcM (chunk j).toLoadRect hl2) fun b => .op (.load sumM (chunk j).toLoadRect hl3) fun _ =>
            .op (.store sumM (chunk j) (py a b) Finset.univ hx hm) k) Q) := by
  unfold Pad Qad M0 S Y M
  iintro ⟨#Hrec, #Hlev, HO, Hw, HS, ⟨%g0, HM⟩⟩ Hk
  iapply (wait_cell m K c (.yrcv j) N (w := .waitDma2 (yrcvS j) src (chunkM yrcM j) hsrc hdst)
      (fun K' => wpE_waitDma2_eq 𝒱₀ (c : Thread nD τ) none Set.univ K') hl) $$ [HO Hw]
  · iframe # ∗
  unfold Wd
  iintro ⟨HO, Hp, HY⟩
  ihave HY := (show (pay m (.yrcv j) c : sProp 𝕄) ⊢ chunkAt yrcM c j fullShare (sent m (yp c)) from BI.Entails.refl _) $$ HY
  iapply (step_load sndM c j fullShare.right (sent m c)) $$ HS; iintro HS
  iapply (step_load yrcM c j fullShare (sent m (yp c))) $$ HY; iintro HY
  iapply (step_load sumM c j fullShare g0) $$ HM; iintro HM
  iapply (step_store sumM c j g0 _) $$ HM; iintro HM
  ihave HM := (stored_sums m c j g0 _ (hpy _ _)) $$ HM
  unfold M
  iapply Hk
  iframe

end Cert.Kernel.AllReduce

end
-- ==== Proof.Bits.PartsA.lean ====
import proofs.«900709_g7700000000000710_dist_ar_v7x_xyz2x2x4_y_m1024_n512_bf16_1_alg».proof.Proof.Bits.Moves

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem step_load_stg (i : Fin 8) (q : PosShare TreeShare) (f : Buf (Elt F) (stgM.view.loc (c : Thread nD τ)))
    {hl : stgM.view.LoadsAt (chunk i).toLoadRect}
    {α : Type} {Q : α → sProp 𝕄} {k : ((chunk i).toLoadRect.shape.Idx → Elt F .f32) → Prog (TpuEff nD τ sig (Elt F) Λ₀ .tc) α} :
    wholeAt stgM c q f
      ⊢ iprop((wholeAt stgM c q f -∗ WP c (k (stgM.view.readAt (Elt F) (chunk i).toLoadRect f)) Q)
          -∗ WP c (.op (.load stgM (chunk i).toLoadRect hl) k) Q) := by
  unfold wholeAt
  exact wp_load 𝒱₀ (c : Thread nD τ) none Set.univ (m := stgM) (View.setOn_subset_set _ _)

theorem step_store_sent (i : Fin 8) (w : (chunk i).shape.Idx → Elt F .bf16)
    (hw : w = truncf .bf16 (stgM.view.readAt (Elt F) (chunk i).toLoadRect (staged m c)) bitsLt_bf16_f32)
    {hx : (sndM.access (chunk i)).Stores Finset.univ} {hm : (Finset.univ : Finset (chunk i).shape.Idx) = Finset.univ ∨ ∀ a, (chunk i).stride a = 1}
    {α : Type} {Q : α → sProp 𝕄} {k : PUnit → Prog (TpuEff nD τ sig (Elt F) Λ₀ .tc) α} :
    S0 c i
      ⊢ iprop((S m c i fullShare -∗ WP c (k ⟨⟩) Q)
          -∗ WP c (.op (.store sndM (chunk i) w Finset.univ hx hm) k) Q) := by
  unfold S0
  iintro ⟨%f0, Hc⟩ Hk
  iapply (step_store sndM c i f0 w) $$ Hc; iintro Hc
  iapply Hk
  iapply (stored_sent m c i f0 w hw) $$ Hc

theorem step_narrow (i : Fin 8) (pay : Vec F S64x512 .f32 → FVec F S64x512 .bf16)
    (hpay : ∀ v, pay v = truncf .bf16 v bitsLt_bf16_f32)
    {hl1 : stgM.view.LoadsAt (chunk i).toLoadRect} {hl2 : sndM.view.LoadsAt (chunk i).toLoadRect}
    {hx : (sndM.access (chunk i)).Stores Finset.univ} {hm : (Finset.univ : Finset (chunk i).shape.Idx) = Finset.univ ∨ ∀ a, (chunk i).stride a = 1}
    {α : Type} {Q : α → sProp 𝕄} {k : PUnit → Prog (TpuEff nD τ sig (Elt F) Λ₀ .tc) α} :
    iprop(Stg m c ∗ S0 c i)
      ⊢ iprop(((Stg m c ∗ S m c i fullShare) -∗ WP c (k ⟨⟩) Q)
          -∗ WP c (.op (.load stgM (chunk i).toLoadRect hl1) fun v =>
              .op (.load sndM (chunk i).toLoadRect hl2) fun _ => .op (.store sndM (chunk i) (pay v) Finset.univ hx hm) k) Q) := by
  unfold Stg S0
  iintro ⟨Hs, ⟨%f0, Hc⟩⟩ Hk
  iapply (step_load_stg c i fullShare (staged m c)) $$ Hs; iintro Hs
  iapply (step_load sndM c i fullShare f0) $$ Hc; iintro Hc
  iapply (step_store_sent m c i _ (hpay _)) $$ [Hc]
  · unfold S0; iexists f0; iexact Hc
  iintro Hc
  iapply Hk
  iframe

theorem pay_bar : pay m .bar c = iprop(∃ f, wholeAt yrcM (yp c) fullShare f) := rfl
theorem pay_syn : pay m .syn c = iprop(∃ f, wholeAt xrcM (xn c) fullShare f) := rfl
theorem pay_stg : pay m .stg c = iprop(wholeAt stgM c fullShare (staged m c) ∗ wholeAt (ownInM c) c fullShare (xin m c)) := rfl

theorem payload_bar_yp :
    (sched (F := F) m).payload ((yp c : Thread nD τ), SemLoc.reg barS) 0 () = iprop(∃ f, wholeAt yrcM c fullShare f) := by
  have h := payload_cell m (yp c) .bar (); rw [pay_bar, yp_yp] at h; exact h
theorem payload_syn_xn :
    (sched (F := F) m).payload ((xn c : Thread nD τ), SemLoc.reg synS) 0 () = iprop(∃ f, wholeAt xrcM c fullShare f) := by
  have h := payload_cell m (xn c) .syn (); rw [pay_syn, xn_xn] at h; exact h

theorem pay_bar_chunks : (pay m .bar c : sProp 𝕄) ⊢ all8 (Ye c) := by
  rw [pay_bar]; exact split8_any yrcM (yp c)
theorem crd_stg : (cred (tallyAt ((c : Thread nD τ), SemLoc.dma stgS) () NStg) : sProp 𝕄) = crd c .stg := rfl

set_option maxHeartbeats 1600000 in

theorem part1 (Kt : (Σ' (d0 : Dev nD) (v2 : BitVec 32) (v5 : BitVec 32) (v8 : BitVec 32) (v9 : BitVec 32) (v10 : BitVec 32) (v12 : Sems sig S_)
      (v28 : FVec F S64x512 .bf16), Vec F S64x512 .bf16) → sProp 𝕄) :
    iprop(recs m K ∗ levAts L lv ∗ P1 m c
        ∗ (∀ v2 v5 v8 v9 v10 v29, Q1 m c -∗ Kt ⟨c, v2, v5, v8, v9, v10, SemArray.scalar (sig.barrier 0 rfl),
            k0_pay1 (stgM.view.readAt (Elt F) (chunk 0).toLoadRect (staged m c)), v29⟩))
      ⊢ WP c
          (atBufs k0_part1) Kt := by
  unfold WP atBufs; rw [k0_part1_eq_skeleton]; unfold k0_part1_skel
  simp only [semSignalWord, semWaitWord, Prog.lift, Prog.bind_op, Prog.bind_ret, Prog.pure_eq_ret, wp_deviceId]
  simp only [dev1_eq c, dev2_eq c]
  unfold P1 Q1 owesN
  iintro ⟨#Hrec, #Hlev, ⟨⟨%W, HO⟩, Htb, Hts, ⟨%fy, Hyr⟩, ⟨%fx, Hxr⟩, Hin, ⟨%fd, Hstg⟩, Htg, Hpg, H0⟩, Hk⟩
  ihave #HIb := (inv_at m K (yp c) .bar) $$ Hrec
  ihave #HRb := (reached_at m K (yp c) .bar) $$ Hrec
  ihave #HIs := (inv_at m K (xn c) .syn) $$ Hrec
  ihave #HRs := (reached_at m K (xn c) .syn) $$ Hrec
  ihave #HIg := (inv_at m K c .stg) $$ Hrec
  ihave #HRg := (reached_at m K c .stg) $$ Hrec
  unfold tok

  iapply (Rounds.wp_signal 𝒱₀ ER (sched m) (c : Thread nD τ) none (dst := (yp c : Thread nD τ)) (κ := K (yp c, Role.bar.sem))
      (r := 0) (d := ()) (mem_duties m (yp c) .bar) ((amount_cell m (yp c) .bar ()).trans (by rfl)) () (owe c 17) rfl)
    $$ [HO Htb Hyr]
  · isplitr; · iexact HIb
    isplitl [HO]; · iexact HO
    isplitl [Htb]; · iexact Htb
    isplitl [Hyr]
    · rw [payload_bar_yp]
      iexists fy; iexact Hyr
    iexact HRb
  iintro HO

  iapply (Rounds.wp_signal 𝒱₀ ER (sched m) (c : Thread nD τ) none (dst := (xn c : Thread nD τ)) (κ := K (xn c, Role.syn.sem))
      (r := 0) (d := ()) (mem_duties m (xn c) .syn) ((amount_cell m (xn c) .syn ()).trans (by rfl)) () (owe c 16) rfl)
    $$ [HO Hts Hxr]
  · isplitr; · iexact HIs
    isplitl [HO]; · iexact HO
    isplitl [Hts]; · iexact Hts
    isplitl [Hxr]
    · rw [payload_syn_xn]
      iexists fx; iexact Hxr
    iexact HRs
  iintro HO

  unfold InOwn wholeAt
  iapply (Rounds.wp_copy_pointsTo 𝒱₀ ER (sched m) (c : Thread nD τ) none (src := ownInM c) (dst := stgM) (sem := .dma stgS)
      (q := fullShare) (fs := xin m c) (fd := fd) (r := 0) (d := ()) (κ := K (c, Role.stg.sem))
      (mem_duties m c .stg) () NStg rfl (amount_cell m c .stg ())
      (by
        refine BI.Entails.trans ?_ (Entails.of_eq (payload_cell m c .stg ()).symm)
        rw [pay_stg]; unfold wholeAt staged
        have hw : stgM.view.write (Elt F) fd ((ownInM c).view.read (Elt F) (xin m c)) Finset.univ = (ownInM c).view.read (Elt F) (xin m c) :=
          View.write_whole_univ cc0_scratch0 fd _
        rw [hw]; exact BI.Entails.refl _))
    $$ [Hin Hstg Htg]
  · isplitr; · iexact HIg
    isplitl [Hin]; · iexact Hin
    isplitl [Hstg]; · iexact Hstg
    isplitl [Htg]; · iexact Htg
    iexact HRg
  iintro Hcg

  iapply (step_wait m K c .stg (fun K' => wpE_waitDma2_eq 𝒱₀ (c : Thread nD τ) none Set.univ K') (owe c 16) W) $$ [Hcg HO Hpg]
  · isplitr; · iexact Hrec
    isplitl [Hcg]; · iapply (Entails.of_eq (crd_stg c)); iexact Hcg
    isplitl [HO]; · iexact HO
    isplitr
    · iapply (mayWait_owe c .stg 16 (by decide)); iexact Hlev
    iexact Hpg
  iintro ⟨HO, Hpg, Hpay⟩
  ihave Hpay := (Entails.of_eq (pay_stg m c)) $$ Hpay
  icases Hpay with ⟨Hs, Hin⟩

  unfold S0
  icases H0 with ⟨%f0, H0⟩
  iapply (step_load_stg c 0 fullShare (staged m c)) $$ Hs; iintro Hs
  iapply (step_load sndM c 0 fullShare f0) $$ H0; iintro H0
  unfold WP; rw [wp_ret]; imodintro
  ispecialize Hk $$ %_ %_ %_ %_ %_ %(sndM.view.readAt (Elt F) (chunk 0).toLoadRect f0)
  iapply Hk
  unfold Stg wholeAt
  isplitl [HO]; · iexists _; iexact HO
  isplitl [Hs]; · iexact Hs
  isplitl [Hin]; · iexact Hin
  isplitl [Hpg]; · iexact Hpg
  iexists f0; iexact H0

set_option maxHeartbeats 1600000 in

theorem part2 (v28 : FVec F S64x512 .bf16) (v29 : Vec F S64x512 .bf16)
    (hv : v28 = k0_pay1 (stgM.view.readAt (Elt F) (chunk 0).toLoadRect (staged m c)))
    (Kt : (Σ' (v58 : FVec F S64x512 .bf16), Vec F S64x512 .bf16) → sProp 𝕄) :
    iprop(recs m K ∗ levAts L lv ∗ P2 m c
        ∗ (∀ v59, Q2 m c -∗ Kt ⟨k0_pay8 (stgM.view.readAt (Elt F) (chunk 6).toLoadRect (staged m c)), v59⟩))
      ⊢ WP c
          (atBufs k0_part2 v28 v29) Kt := by
  unfold WP atBufs; rw [k0_part2_eq_skeleton]; unfold k0_part2_skel
  simp only [Prog.lift, Prog.bind_op, Prog.bind_ret, Prog.pure_eq_ret]
  unfold P2 Q2
  iintro ⟨#Hrec, #Hlev, ⟨Hs, H0, H1, H2, H3, H4, H5, H6⟩, Hk⟩

  iapply (step_store_sent m c 0 _ (by rw [hv]; exact shapeCast_self _ _)) $$ H0; iintro H0

  iapply (step_narrow m c 1 k0_pay3 (fun v => shapeCast_self _ _)) $$ [Hs H1]
  · iframe
  iintro ⟨Hs, H1⟩
  iapply (step_narrow m c 2 k0_pay4 (fun v => shapeCast_self _ _)) $$ [Hs H2]
  · iframe
  iintro ⟨Hs, H2⟩
  iapply (step_narrow m c 3 k0_pay5 (fun v => shapeCast_self _ _)) $$ [Hs H3]
  · iframe
  iintro ⟨Hs, H3⟩
  iapply (step_narrow m c 4 k0_pay6 (fun v => shapeCast_self _ _)) $$ [Hs H4]
  · iframe
  iintro ⟨Hs, H4⟩
  iapply (step_narrow m c 5 k0_pay7 (fun v => shapeCast_self _ _)) $$ [Hs H5]
  · iframe
  iintro ⟨Hs, H5⟩

  unfold Stg S0
  icases H6 with ⟨%f6, H6⟩
  iapply (step_load_stg c 6 fullShare (staged m c)) $$ Hs; iintro Hs
  iapply (step_load sndM c 6 fullShare f6) $$ H6; iintro H6
  unfold WP; rw [wp_ret]; imodintro
  ispecialize Hk $$ %(sndM.view.readAt (Elt F) (chunk 6).toLoadRect f6)
  iapply Hk
  iframe
  iexists f6; iexact H6

set_option maxHeartbeats 1600000 in

theorem part3 (v2 v8 v9 : BitVec 32) (v59 : Vec F S64x512 .bf16) (Kt : PUnit → sProp 𝕄) :
    iprop(recs m K ∗ levAts L lv ∗ P3 m c ∗ (Q3 m c -∗ Kt ⟨⟩))
      ⊢ WP c
          (atBufs k0_part3 c v2 v8 v9 (SemArray.scalar (sig.barrier 0 rfl))
            (k0_pay8 (stgM.view.readAt (Elt F) (chunk 6).toLoadRect (staged m c))) v59) Kt := by
  unfold WP atBufs; rw [k0_part3_eq_skeleton]; unfold k0_part3_skel
  simp only [semWaitWord, Prog.lift, Prog.bind_op, Prog.bind_ret, Prog.pure_eq_ret]
  unfold P3 Q3 Wt owesN
  iintro ⟨#Hrec, #Hlev, ⟨Hs, H6, H7, H0, ⟨Hcb, Hpb⟩, ⟨%W, HO⟩, Ht1, Ht2⟩, Hk⟩

  iapply (step_store_sent m c 6 _ (shapeCast_self _ _)) $$ H6; iintro H6
  iapply (step_narrow m c 7 k0_pay10 (fun v => shapeCast_self _ _)) $$ [Hs H7]
  · iframe
  iintro ⟨Hs, H7⟩

  iapply (step_wait m K c .bar (fun K' => wpE_semWait_eq 𝒱₀ (c : Thread nD τ) none Set.univ K') (owe c 16) W) $$ [Hcb HO Hpb]
  · isplitr; · iexact Hrec
    isplitl [Hcb]; · iexact Hcb
    isplitl [HO]; · iexact HO
    isplitr
    · iapply (mayWait_owe c .bar 16 (by decide)); iexact Hlev
    iexact Hpb
  iintro ⟨HO, Hpb, Hpay⟩
  ihave Hy := (pay_bar_chunks m c) $$ Hpay
  unfold all8 Ye
  icases Hy with ⟨⟨%fd, Hy0⟩, Hy1, Hy2, Hy3, Hy4, Hy5, Hy6, Hy7⟩

  unfold S
  ihave H0' := (chunk_halves sndM c 0 fullShare (sent m c)).1 $$ H0
  icases H0' with ⟨H0l, H0r⟩
  iapply (step_sendY m K c _ (yp_of _ c (k0_dev3_eq c)) 0 fd _ (owe c 15) rfl) $$ [H0l Hy0 HO Ht1 Ht2]
  · isplitr; · iexact Hrec
    isplitl [H0l]; · iexact H0l
    isplitl [Hy0]; · iexact Hy0
    isplitl [HO]; · iexact HO
    isplitl [Ht1]; · iexact Ht1
    iexact Ht2
  iintro ⟨Hcy, HO⟩
  unfold WP; rw [wp_ret]; imodintro
  iapply Hk
  iframe
  iexists _; iexact HO

end Cert.Kernel.AllReduce

end
-- ==== Proof.Bits.PartsB.lean ====
import proofs.«900709_g7700000000000710_dist_ar_v7x_xyz2x2x4_y_m1024_n512_bf16_1_alg».proof.Proof.Bits.Moves

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem part4 (v2 v8 v9 : BitVec 32) : Runs m K c (P4 m c) (Q4 m c) (atBufs k0_part4 c v2 v8 v9) := fun Kt => by
  unfold WP atBufs; rw [k0_part4_eq_skeleton]; unfold k0_part4_skel
  simp only [Prog.lift, Prog.bind_op, Prog.bind_ret, Prog.pure_eq_ret]
  unfold P4 Q4
  iintro ⟨#Hrec, -, ⟨HO, H1, H2, H3⟩, Hk⟩
  iapply (sendY m K c _ (yp_of _ c (k0_dev4_eq c)) 1 15 14 rfl) $$ [HO H1]
  · iframe # ∗
  iintro ⟨HO, H1⟩
  iapply (sendY m K c _ (yp_of _ c (k0_dev5_eq c)) 2 14 13 rfl) $$ [HO H2]
  · iframe # ∗
  iintro ⟨HO, H2⟩
  iapply (sendY m K c _ (yp_of _ c (k0_dev6_eq c)) 3 13 12 rfl) $$ [HO H3]
  · iframe # ∗
  iintro ⟨HO, H3⟩
  unfold WP; rw [wp_ret]; imodintro
  iapply Hk $$ %_
  iframe

theorem part5 (v2 v8 v9 : BitVec 32) : Runs m K c (P5 m c) (Q5 m c) (atBufs k0_part5 c v2 v8 v9) := fun Kt => by
  unfold WP atBufs; rw [k0_part5_eq_skeleton]; unfold k0_part5_skel
  simp only [Prog.lift, Prog.bind_op, Prog.bind_ret, Prog.pure_eq_ret]
  unfold P5 Q5
  iintro ⟨#Hrec, -, ⟨HO, H1, H2, H3⟩, Hk⟩
  iapply (sendY m K c _ (yp_of _ c (k0_dev7_eq c)) 4 12 11 rfl) $$ [HO H1]
  · iframe # ∗
  iintro ⟨HO, H1⟩
  iapply (sendY m K c _ (yp_of _ c (k0_dev8_eq c)) 5 11 10 rfl) $$ [HO H2]
  · iframe # ∗
  iintro ⟨HO, H2⟩
  iapply (sendY m K c _ (yp_of _ c (k0_dev9_eq c)) 6 10 9 rfl) $$ [HO H3]
  · iframe # ∗
  iintro ⟨HO, H3⟩
  unfold WP; rw [wp_ret]; imodintro
  iapply Hk $$ %_
  iframe

theorem part6 (v2 v8 v9 w : BitVec 32) : Runs m K c (P6 m c) (Q6 m c) (atBufs k0_part6 c v2 v8 v9 w) := fun Kt => by
  unfold WP atBufs; rw [k0_part6_eq_skeleton]; unfold k0_part6_skel
  simp only [Prog.lift, Prog.bind_op, Prog.bind_ret, Prog.pure_eq_ret, semWaitWord]
  unfold P6 Q6
  iintro ⟨#Hrec, #Hlev, ⟨HO, H7, Hs, HA⟩, Hk⟩
  iapply (sendY m K c _ (yp_of _ c (k0_dev10_eq c)) 7 9 8 rfl) $$ [HO H7]
  · iframe # ∗
  iintro ⟨HO, H7⟩
  iapply (wait_cell m K c .syn 8 (fun K' => wpE_semWait_eq 𝒱₀ (c : Thread nD τ) none Set.univ K') (by decide)) $$ [HO Hs]
  · iframe # ∗
  unfold Wd
  iintro ⟨HO, Hps, Hpay⟩
  ihave HXe := (show (pay m .syn c : sProp 𝕄) ⊢ all8 (Xe c) from split8_any xrcM (xn c)) $$ Hpay
  iapply (sumChunk m K c 0 8 (by decide) k0_pay11 (fun _ _ => shapeCast_self _ _)) $$ [HO HA]
  · iframe # ∗
  iintro ⟨HO, HA⟩
  unfold WP; rw [wp_ret]; imodintro
  iapply Hk $$ %_
  iframe

end Cert.Kernel.AllReduce

end
-- ==== Proof.Bits.PartsC.lean ====
import proofs.«900709_g7700000000000710_dist_ar_v7x_xyz2x2x4_y_m1024_n512_bf16_1_alg».proof.Proof.Bits.Moves

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem part7 (v2 v5 v8 v9 v10 w : BitVec 32) : Runs m K c (Pxa m c 0 1 8) (Qxa m c 0 1 8) (atBufs k0_part7 c v2 v5 v8 v9 v10 w) := fun Kt => by
  unfold WP atBufs; rw [k0_part7_eq_skeleton]; unfold k0_part7_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev11_eq c)) 0 8 7 rfl) $$ [HO HP]
  · iframe # ∗
  iintro ⟨HO, HP⟩
  iapply (sumChunk m K c 1 7 (by decide) k0_pay12 (fun _ _ => shapeCast_self _ _)) $$ [HO HA]
  · iframe # ∗
  iintro ⟨HO, HA⟩
  unfold WP; rw [wp_ret]; imodintro
  iapply Hk $$ %_
  iframe

theorem part8 (v2 v5 v8 v9 v10 w : BitVec 32) : Runs m K c (Pxa m c 1 2 7) (Qxa m c 1 2 7) (atBufs k0_part8 c v2 v5 v8 v9 v10 w) := fun Kt => by
  unfold WP atBufs; rw [k0_part8_eq_skeleton]; unfold k0_part8_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev12_eq c)) 1 7 6 rfl) $$ [HO HP]
  · iframe # ∗
  iintro ⟨HO, HP⟩
  iapply (sumChunk m K c 2 6 (by decide) k0_pay13 (fun _ _ => shapeCast_self _ _)) $$ [HO HA]
  · iframe # ∗
  iintro ⟨HO, HA⟩
  unfold WP; rw [wp_ret]; imodintro
  iapply Hk $$ %_
  iframe

theorem part9 (v2 v5 v8 v9 v10 w : BitVec 32) : Runs m K c (Pxa m c 2 3 6) (Qxa m c 2 3 6) (atBufs k0_part9 c v2 v5 v8 v9 v10 w) := fun Kt => by
  unfold WP atBufs; rw [k0_part9_eq_skeleton]; unfold k0_part9_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev13_eq c)) 2 6 5 rfl) $$ [HO HP]
  · iframe # ∗
  iintro ⟨HO, HP⟩
  iapply (sumChunk m K c 3 5 (by decide) k0_pay14 (fun _ _ => shapeCast_self _ _)) $$ [HO HA]
  · iframe # ∗
  iintro ⟨HO, HA⟩
  unfold WP; rw [wp_ret]; imodintro
  iapply Hk $$ %_
  iframe

theorem part10 (v2 v5 v8 v9 v10 : BitVec 32) : Runs m K c (Pxa m c 3 4 5) (Qxa m c 3 4 5) (atBufs k0_part10 c v2 v5 v8 v9 v10) := fun Kt => by
  unfold WP atBufs; rw [k0_part10_eq_skeleton]; unfold k0_part10_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev14_eq c)) 3 5 4 rfl) $$ [HO HP]
  · iframe # ∗
  iintro ⟨HO, HP⟩
  iapply (sumChunk m K c 4 4 (by decide) k0_pay15 (fun _ _ => shapeCast_self _ _)) $$ [HO HA]
  · iframe # ∗
  iintro ⟨HO, HA⟩
  unfold WP; rw [wp_ret]; imodintro
  iapply Hk $$ %_
  iframe

theorem part11 (v2 v5 v8 v9 v10 : BitVec 32) : Runs m K c (Pxa m c 4 5 4) (Qxa m c 4 5 4) (atBufs k0_part11 c v2 v5 v8 v9 v10) := fun Kt => by
  unfold WP atBufs; rw [k0_part11_eq_skeleton]; unfold k0_part11_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev15_eq c)) 4 4 3 rfl) $$ [HO HP]
  · iframe # ∗
  iintro ⟨HO, HP⟩
  iapply (sumChunk m K c 5 3 (by decide) k0_pay16 (fun _ _ => shapeCast_self _ _)) $$ [HO HA]
  · iframe # ∗
  iintro ⟨HO, HA⟩
  unfold WP; rw [wp_ret]; imodintro
  iapply Hk $$ %_
  iframe

theorem part12 (v2 v5 v8 v9 v10 : BitVec 32) : Runs m K c (Pxa m c 5 6 3) (Qxa m c 5 6 3) (atBufs k0_part12 c v2 v5 v8 v9 v10) := fun Kt => by
  unfold WP atBufs; rw [k0_part12_eq_skeleton]; unfold k0_part12_skel
  simp only [Prog.lift, Prog.bind_op, Prog.bind_ret, Prog.pure_eq_ret]
  unfold Pxa Qxa
  iintro ⟨#Hrec, #Hlev, ⟨HO, HP, HA⟩, Hk⟩
  iapply (sendX m K c _ (xn_of _ c (k0_dev16_eq c)) 5 3 2 rfl) $$ [HO HP]
  · iframe # ∗
  iintro ⟨HO, HP⟩
  iapply (sumChunk m K c 6 2 (by decide) k0_pay17 (fun _ _ => shapeCast_self _ _)) $$ [HO HA]
  · iframe # ∗
  iintro ⟨HO, HA⟩
  unfold WP; rw [wp_ret]; imodintro
  iapply Hk $$ %_
  iframe

theorem part13 (v2 v5 v8 v9 v10 : BitVec 32) : Runs m K c (P13 m c) (Q13 m c) (atBufs k0_part13 c v2 v5 v8 v9 v10) := fun Kt => by
  unfold WP atBufs; rw [k0_part13_eq_skeleton]; unfold k0_part13_skel
  simp only [Prog.lift, Prog.bind_op, Prog.bind_ret, Prog.pure_eq_ret]
  unfold P13 Q13
  iintro ⟨#Hrec, #Hlev, ⟨HO, HP, HA, HXe, Ht1, Ht2⟩, Hk⟩
  iapply (sendX m K c _ (xn_of _ c (k0_dev17_eq c)) 6 2 1 rfl) $$ [HO HP]
  · iframe # ∗
  iintro ⟨HO, HP⟩
  iapply (sumChunk m K c 7 1 (by decide) k0_pay18 (fun _ _ => shapeCast_self _ _)) $$ [HO HA]
  · iframe # ∗
  iintro ⟨HO, HA⟩
  unfold Qad
  icases HA with ⟨Hp, HY, HS, HM⟩
  iapply (sendX m K c _ (xn_of _ c (k0_dev18_eq c)) 7 1 0 rfl) $$ [HO HM HXe Ht1 Ht2]
  · unfold Psx; iframe # ∗
  iintro ⟨HO, HM⟩
  unfold WP; rw [wp_ret]; imodintro
  iapply Hk $$ %_
  iframe

end Cert.Kernel.AllReduce

end
-- ==== Proof.Bits.PartsD.lean ====
import proofs.«900709_g7700000000000710_dist_ar_v7x_xyz2x2x4_y_m1024_n512_bf16_1_alg».proof.Proof.Bits.Moves

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem pay_out_lt (j : Fin 8) : pay m (.out ⟨j.val, by omega⟩) c = iprop(OutJ1 m c j ∗ X m c j) :=
  dif_pos j.isLt

theorem pay_out8 : pay m (.out 8) c = iprop(OutOwn1 m c ∗ wholeAt sumM c fullShare.right (sums m c)) := by
  have h8 : ¬ ((8 : Fin 9).val < 8) := by decide
  simp only [pay, dif_neg h8]; rfl

theorem amount_out_lt (j : Fin 8) : (Role.out ⟨j.val, by omega⟩).amount = N64 :=
  if_neg (by have := j.isLt; simp only; omega)

theorem amount_out8 : (Role.out 8).amount = NSum := by
  show (if (8 : Fin 9).val = 8 then NSum else N64) = NSum
  exact if_pos rfl

theorem pay_xrcv (j : Fin 8) : pay m (.xrcv j) c = X m c j := rfl

set_option maxHeartbeats 800000 in

/-- Any copy into rows of the result has the same shape: it lends its source at some share, takes the rows, and both return at the wait of its cell. -/
theorem step_copy {s : Shape} (src : Memref sig .tc .vmem s .bf16) (dst : Memref sig .tc .hbm s .bf16) (j' : Fin 9) (q : PosShare TreeShare)
    (fs : Buf (Elt F) (src.view.loc (c : Thread nD τ))) (fd : Buf (Elt F) (dst.view.loc (c : Thread nD τ)))
    (hN : dst.view.amount (Role.out j').sem = (Role.out j').amount)
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m (.out j') c)
    {hsrc : src.view.WordExact} {hdst : dst.view.WordExact}
    {hsem : DmaTarget.Typed (nD := nD) .vmem (.dma (outS j')) (DmaTarget.here dst : DmaTarget nD τ sig (Dev.tc c : Thread nD τ).2 .hbm s .bf16)} {α : Type} {Q : α → sProp 𝕄} {k : PUnit → Prog (TpuEff nD τ sig (Elt F) Λ₀ .tc) α} :
    iprop(recs m K ∗ (src.view.loc (c : Thread nD τ) ↦[src.view.set]{q} fs) ∗ (dst.view.loc (c : Thread nD τ) ↦[dst.view.set]{fullShare} fd) ∗ tok c (.out j'))
      ⊢ iprop((crd c (.out j') -∗ WP c (k ⟨⟩) Q) -∗ WP c (.op (.enqueueDma src (.here dst) (.dma (outS j')) hsrc hdst hsem) k) Q) := by
  iintro ⟨#Hrec, Hsrc, Hdst, Ht⟩
  ihave #HI := (inv_at m K c (.out j')) $$ Hrec
  ihave #HR := (reached_at m K c (.out j')) $$ Hrec
  unfold tok crd
  iapply (Rounds.wp_copy_pointsTo 𝒱₀ ER (sched m) (c : Thread nD τ) none (κ := K (c, (Role.out j').sem))
      (src := src) (dst := dst) (sem := (Role.out j').sem) (hsrc := hsrc) (hdst := hdst) (hsem := hsem)
      (r := 0) (d := ()) (q := q) (fs := fs) (fd := fd)
      (mem_duties m c (.out j')) () (Role.out j').amount hN (amount_cell m c (.out j') ())
      (by rw [payload_cell]; exact hpay)) $$ [Hsrc Hdst Ht]
  iframe # ∗

theorem step_copyOut (j : Fin 8) (j' : Fin 9) (hj : j' = ⟨j.val, by omega⟩)
    {hsrc : (chunkM xrcM j).view.WordExact} {hdst : (othM c j).view.WordExact}
    {hsem : DmaTarget.Typed (nD := nD) .vmem (.dma (outS j')) (DmaTarget.here (othM c j) : DmaTarget nD τ sig (Dev.tc c : Thread nD τ).2 .hbm S64x512 .bf16)} {α : Type} {Q : α → sProp 𝕄} {k : PUnit → Prog (TpuEff nD τ sig (Elt F) Λ₀ .tc) α} :
    iprop(recs m K ∗ X m c j ∗ OutJ0 m c j ∗ tok c (.out j'))
      ⊢ iprop((crd c (.out j') -∗ WP c (k ⟨⟩) Q) -∗ WP c (.op (.enqueueDma (chunkM xrcM j) (.here (othM c j)) (.dma (outS j')) hsrc hdst hsem) k) Q) := by
  subst hj
  unfold X OutJ0 chunkAt wholeAt
  exact step_copy m K c (chunkM xrcM j) (othM c j) ⟨j.val, by omega⟩ fullShare (sums m (xn c)) (out0 m c) (amount_out_lt j).symm
    (by rw [pay_out_lt]; exact BI.Entails.refl _)

theorem step_copySums {hsrc : sumM.view.WordExact} {hdst : (ownOutM c).view.WordExact}
    {hsem : DmaTarget.Typed (nD := nD) .vmem (.dma (outS 8)) (DmaTarget.here (ownOutM c) : DmaTarget nD τ sig (Dev.tc c : Thread nD τ).2 .hbm S512x512 .bf16)} {α : Type} {Q : α → sProp 𝕄} {k : PUnit → Prog (TpuEff nD τ sig (Elt F) Λ₀ .tc) α} :
    iprop(recs m K ∗ wholeAt sumM c fullShare.right (sums m c) ∗ OutOwn0 m c ∗ tok c (.out 8))
      ⊢ iprop((crd c (.out 8) -∗ WP c (k ⟨⟩) Q) -∗ WP c (.op (.enqueueDma sumM (.here (ownOutM c)) (.dma (outS 8)) hsrc hdst hsem) k) Q) := by
  unfold OutOwn0 wholeAt
  exact step_copy m K c sumM (ownOutM c) 8 fullShare.right (sums m c) (out0 m c) amount_out8.symm (by rw [pay_out8]; exact BI.Entails.refl _)

/-- A chunk of the x-neighbour's sums is written to the result only after it has landed. -/
theorem outChunk (j : Fin 8) (j' : Fin 9) (hj : j' = ⟨j.val, by omega⟩)
    {sem : DmaSem sig} {sp sp' : Space} {s s' : Shape} {e e' : EltTy} {src : Memref sig .tc sp' s' e'} {κ' : Kind} {dst : Memref sig κ' sp s e}
    {hsrc : src.view.WordExact} {hdst : dst.view.WordExact} {hs2 : (chunkM xrcM j).view.WordExact} {hd2 : (othM c j).view.WordExact}
    {hsem : DmaTarget.Typed (nD := nD) .vmem (.dma (outS j')) (DmaTarget.here (othM c j) : DmaTarget nD τ sig (Dev.tc c : Thread nD τ).2 .hbm S64x512 .bf16)}
    {α : Type} {Q : α → sProp 𝕄} {k : PUnit → Prog (TpuEff nD τ sig (Elt F) Λ₀ .tc) α} (hs : (Role.xrcv j).sem = .dma sem) (ha : dst.view.dmaCredit = (Role.xrcv j).amount) :
    iprop(recs m K ∗ levAts L lv ∗ owesN c 0 ∗ Pod m c j j')
      ⊢ iprop(((owesN c 0 ∗ Qod c j j') -∗ WP c (k ⟨⟩) Q) -∗ WP c
          (.op (.waitDma2 sem src dst hsrc hdst) fun _ => .op (.enqueueDma (chunkM xrcM j) (.here (othM c j)) (.dma (outS j')) hs2 hd2 hsem) k) Q) := by
  unfold Pod Qod
  iintro ⟨#Hrec, #Hlev, HO, Hw, HJ, Ht⟩ Hk
  iapply (wait_dma m K c (.xrcv j) 0 (fun _ _ _ => by omega) hs ha) $$ [HO Hw]
  · iframe # ∗
  unfold Wd
  iintro ⟨HO, Hp, HX⟩
  ihave HX := (Entails.of_eq (pay_xrcv m c j)) $$ HX
  iapply (step_copyOut m K c j j' hj) $$ [HX HJ Ht]
  · iframe # ∗
  iintro Hc
  iapply Hk
  iframe

theorem part14 (v2 v5 v8 v10 : BitVec 32) : Runs m K c (P14 m c) (Q14 c) (atBufs k0_part14 c v2 v5 v8 v10) := fun Kt => by
  unfold WP atBufs; rw [k0_part14_eq_skeleton]; unfold k0_part14_skel
  simp only [Prog.lift, Prog.bind_op, Prog.bind_ret, Prog.pure_eq_ret]
  unfold P14 Q14 M
  iintro ⟨#Hrec, #Hlev, ⟨HO, HM, HOwn, Ht8, HP⟩, Hk⟩
  ihave HM := (join8_same sumM c fullShare.right (sums m c)).1 $$ HM
  iapply (step_copySums m K c) $$ [HM HOwn Ht8]
  · iframe # ∗
  iintro Hc8
  iapply (outChunk m K c 0 0 rfl) $$ [HO HP]
  · rfl
  · rfl
  · iframe # ∗
  iintro ⟨HO, HP⟩
  unfold WP; rw [wp_ret]; imodintro
  iapply Hk $$ %_
  iframe

theorem part15 (v5 v8 v10 v391 : BitVec 32) : Runs m K c (P15 m c) (Q15 c) (atBufs k0_part15 c v5 v8 v10 v391) := fun Kt => by
  unfold WP atBufs; rw [k0_part15_eq_skeleton]; unfold k0_part15_skel
  simp only [Prog.lift, Prog.bind_op, Prog.bind_ret, Prog.pure_eq_ret]
  unfold P15 Q15
  iintro ⟨#Hrec, #Hlev, ⟨HO, H1, H2⟩, Hk⟩
  iapply (outChunk m K c 1 1 rfl) $$ [HO H1]
  · rfl
  · rfl
  · iframe # ∗
  iintro ⟨HO, H1⟩
  iapply (outChunk m K c 2 2 rfl) $$ [HO H2]
  · rfl
  · rfl
  · iframe # ∗
  iintro ⟨HO, H2⟩
  unfold WP; rw [wp_ret]; imodintro
  iapply Hk $$ %_
  iframe

theorem part16 (v5 v8 v10 v391 : BitVec 32) : Runs m K c (P16 m c) (Q16 c) (atBufs k0_part16 c v5 v8 v10 v391) := fun Kt => by
  unfold WP atBufs; rw [k0_part16_eq_skeleton]; unfold k0_part16_skel
  simp only [Prog.lift, Prog.bind_op, Prog.bind_ret, Prog.pure_eq_ret]
  unfold P16 Q16
  iintro ⟨#Hrec, #Hlev, ⟨HO, H1, H2⟩, Hk⟩
  iapply (outChunk m K c 3 3 rfl) $$ [HO H1]
  · rfl
  · rfl
  · iframe # ∗
  iintro ⟨HO, H1⟩
  iapply (outChunk m K c 4 4 rfl) $$ [HO H2]
  · rfl
  · rfl
  · iframe # ∗
  iintro ⟨HO, H2⟩
  unfold WP; rw [wp_ret]; imodintro
  iapply Hk $$ %_
  iframe

theorem part17 (v5 v8 v10 v391 v470 v471 : BitVec 32) : Runs m K c (P17 m c) (Q17 c) (atBufs k0_part17 c v5 v8 v10 v391 v470 v471) := fun Kt => by
  unfold WP atBufs; rw [k0_part17_eq_skeleton]; unfold k0_part17_skel
  simp only [Prog.lift, Prog.bind_op, Prog.bind_ret, Prog.pure_eq_ret]
  unfold P17 Q17
  iintro ⟨#Hrec, #Hlev, ⟨HO, H1, H2⟩, Hk⟩
  iapply (outChunk m K c 5 5 rfl) $$ [HO H1]
  · rfl
  · rfl
  · iframe # ∗
  iintro ⟨HO, H1⟩
  iapply (outChunk m K c 6 6 rfl) $$ [HO H2]
  · rfl
  · rfl
  · iframe # ∗
  iintro ⟨HO, H2⟩
  unfold WP; rw [wp_ret]; imodintro
  iapply Hk $$ %_
  iframe

theorem part18 (v5 v8 v391 v498 w : BitVec 32) : Runs m K c (P18 m c) (Q18 m c) (atBufs k0_part18 c v5 v8 v391 v498 w) := fun Kt => by
  unfold WP atBufs; rw [k0_part18_eq_skeleton]; unfold k0_part18_skel
  simp only [Prog.lift, Prog.bind_op, Prog.bind_ret, Prog.pure_eq_ret]
  unfold P18 Q18
  iintro ⟨#Hrec, #Hlev, ⟨HO, HP, Hp8, Hc8, Hd0, Hd1, Hd2⟩, Hk⟩
  iapply (outChunk m K c 7 7 rfl) $$ [HO HP]
  · rfl
  · rfl
  · iframe # ∗
  iintro ⟨HO, HP⟩
  iapply (wait_dma m K c (.out 8) 0 (by decide)) $$ [HO Hp8 Hc8]
  · rfl
  · rfl
  · unfold Wt; iframe # ∗
  iintro ⟨HO, Hp8⟩
  iapply (wait_dma m K c (.out 0) 0 (by decide)) $$ [HO Hd0]
  · rfl
  · rfl
  · iframe # ∗
  iintro ⟨HO, Hd0⟩
  iapply (wait_dma m K c (.out 1) 0 (by decide)) $$ [HO Hd1]
  · rfl
  · rfl
  · iframe # ∗
  iintro ⟨HO, Hd1⟩
  iapply (wait_dma m K c (.out 2) 0 (by decide)) $$ [HO Hd2]
  · rfl
  · rfl
  · iframe # ∗
  iintro ⟨HO, Hd2⟩
  unfold WP; rw [wp_ret]; imodintro
  iapply Hk $$ %_
  iframe

end Cert.Kernel.AllReduce

end
-- ==== Proof.Bits.PartsE.lean ====
import proofs.«900709_g7700000000000710_dist_ar_v7x_xyz2x2x4_y_m1024_n512_bf16_1_alg».proof.Proof.Bits.Moves

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

theorem part19 : Runs m K c (P19 c) (Q19 m c) (atBufs k0_part19 c) := fun Kt => by
  unfold WP atBufs; rw [k0_part19_eq_skeleton]; unfold k0_part19_skel
  simp only [Prog.lift, Prog.bind_op, Prog.bind_ret, Prog.pure_eq_ret]
  unfold P19 Q19
  iintro ⟨#Hrec, #Hlev, ⟨HO, H1, H2, H3, H4, H5, H6⟩, Hk⟩
  iapply (wait_dma m K c (.out 3) 0 (by decide)) $$ [HO H1]
  · rfl
  · rfl
  · iframe # ∗
  iintro ⟨HO, H1⟩
  iapply (wait_dma m K c (.out 4) 0 (by decide)) $$ [HO H2]
  · rfl
  · rfl
  · iframe # ∗
  iintro ⟨HO, H2⟩
  iapply (wait_dma m K c (.out 5) 0 (by decide)) $$ [HO H3]
  · rfl
  · rfl
  · iframe # ∗
  iintro ⟨HO, H3⟩
  iapply (wait_dma m K c (.out 6) 0 (by decide)) $$ [HO H4]
  · rfl
  · rfl
  · iframe # ∗
  iintro ⟨HO, H4⟩
  iapply (wait_dma m K c (.out 7) 0 (by decide)) $$ [HO H5]
  · rfl
  · rfl
  · iframe # ∗
  iintro ⟨HO, H5⟩
  iapply (wait_dma m K c (.ysnd 0) 0 (by decide)) $$ [HO H6]
  · rfl
  · rfl
  · iframe # ∗
  iintro ⟨HO, H6⟩
  unfold WP; rw [wp_ret]; imodintro
  iapply Hk $$ %_
  iframe

theorem part20 : Runs m K c (P20 c) (Q20 m c) (atBufs k0_part20) := fun Kt => by
  unfold WP atBufs; rw [k0_part20_eq_skeleton]; unfold k0_part20_skel
  simp only [Prog.lift, Prog.bind_op, Prog.bind_ret, Prog.pure_eq_ret]
  unfold P20 Q20
  iintro ⟨#Hrec, #Hlev, ⟨HO, H1, H2, H3, H4, H5⟩, Hk⟩
  iapply (wait_dma m K c (.xsnd 0) 0 (by decide)) $$ [HO H1]
  · rfl
  · rfl
  · iframe # ∗
  iintro ⟨HO, H1⟩
  iapply (wait_dma m K c (.ysnd 1) 0 (by decide)) $$ [HO H2]
  · rfl
  · rfl
  · iframe # ∗
  iintro ⟨HO, H2⟩
  iapply (wait_dma m K c (.xsnd 1) 0 (by decide)) $$ [HO H3]
  · rfl
  · rfl
  · iframe # ∗
  iintro ⟨HO, H3⟩
  iapply (wait_dma m K c (.ysnd 2) 0 (by decide)) $$ [HO H4]
  · rfl
  · rfl
  · iframe # ∗
  iintro ⟨HO, H4⟩
  iapply (wait_dma m K c (.xsnd 2) 0 (by decide)) $$ [HO H5]
  · rfl
  · rfl
  · iframe # ∗
  iintro ⟨HO, H5⟩
  unfold WP; rw [wp_ret]; imodintro
  iapply Hk $$ %_
  iframe

theorem part21 : Runs m K c (P21 c) (Q21 m c) (atBufs k0_part21) := fun Kt => by
  unfold WP atBufs; rw [k0_part21_eq_skeleton]; unfold k0_part21_skel
  simp only [Prog.lift, Prog.bind_op, Prog.bind_ret, Prog.pure_eq_ret]
  unfold P21 Q21
  iintro ⟨#Hrec, #Hlev, ⟨HO, H1, H2, H3, H4, H5⟩, Hk⟩
  iapply (wait_dma m K c (.ysnd 3) 0 (by decide)) $$ [HO H1]
  · rfl
  · rfl
  · iframe # ∗
  iintro ⟨HO, H1⟩
  iapply (wait_dma m K c (.xsnd 3) 0 (by decide)) $$ [HO H2]
  · rfl
  · rfl
  · iframe # ∗
  iintro ⟨HO, H2⟩
  iapply (wait_dma m K c (.ysnd 4) 0 (by decide)) $$ [HO H3]
  · rfl
  · rfl
  · iframe # ∗
  iintro ⟨HO, H3⟩
  iapply (wait_dma m K c (.xsnd 4) 0 (by decide)) $$ [HO H4]
  · rfl
  · rfl
  · iframe # ∗
  iintro ⟨HO, H4⟩
  iapply (wait_dma m K c (.ysnd 5) 0 (by decide)) $$ [HO H5]
  · rfl
  · rfl
  · iframe # ∗
  iintro ⟨HO, H5⟩
  unfold WP; rw [wp_ret]; imodintro
  iapply Hk $$ %_
  iframe

theorem close_cell (R : Role) : iprop(recs m K ∗ pos c R 1) ⊢ iprop(|={Set.univ}=> semVal (cell c R.sem) 0) := by
  iintro ⟨#Hrec, Hp⟩
  ihave #HI := (inv_at m K c R) $$ Hrec
  unfold pos
  iapply (Rounds.cell_close ER (sched m) (Set.mem_univ (K (c, R.sem))) (fun h => h) (R := 1) (duties_later m (cell c R.sem))) $$ [Hp]
  iframe # ∗

theorem close_four (i : Fin 8) :
    iprop(recs m K ∗ (pos c (.ysnd i) 1 ∗ pos c (.yrcv i) 1 ∗ pos c (.xsnd i) 1 ∗ pos c (.xrcv i) 1))
      ⊢ iprop(|={Set.univ}=> (semVal (cell c (Role.ysnd i).sem) 0 ∗ semVal (cell c (Role.yrcv i).sem) 0
          ∗ semVal (cell c (Role.xsnd i).sem) 0 ∗ semVal (cell c (Role.xrcv i).sem) 0)) := by
  iintro ⟨#Hrec, H1, H2, H3, H4⟩
  imod (close_cell m K c (.ysnd i)) $$ [H1] with G1
  · iframe # ∗
  imod (close_cell m K c (.yrcv i)) $$ [H2] with G2
  · iframe # ∗
  imod (close_cell m K c (.xsnd i)) $$ [H3] with G3
  · iframe # ∗
  imod (close_cell m K c (.xrcv i)) $$ [H4] with G4
  · iframe # ∗
  imodintro
  iframe

theorem all8_upd (A B : Fin 8 → sProp 𝕄) (h : ∀ i, iprop(recs m K ∗ A i) ⊢ iprop(|={Set.univ}=> B i)) :
    iprop(recs m K ∗ all8 A) ⊢ iprop(|={Set.univ}=> all8 B) := by
  unfold all8
  iintro ⟨#Hrec, H0, H1, H2, H3, H4, H5, H6, H7⟩
  imod (h 0) $$ [H0] with G0
  · iframe # ∗
  imod (h 1) $$ [H1] with G1
  · iframe # ∗
  imod (h 2) $$ [H2] with G2
  · iframe # ∗
  imod (h 3) $$ [H3] with G3
  · iframe # ∗
  imod (h 4) $$ [H4] with G4
  · iframe # ∗
  imod (h 5) $$ [H5] with G5
  · iframe # ∗
  imod (h 6) $$ [H6] with G6
  · iframe # ∗
  imod (h 7) $$ [H7] with G7
  · iframe # ∗
  imodintro
  iframe

theorem all9_upd (A B : Fin 9 → sProp 𝕄) (h : ∀ i, iprop(recs m K ∗ A i) ⊢ iprop(|={Set.univ}=> B i)) :
    iprop(recs m K ∗ all9 A) ⊢ iprop(|={Set.univ}=> all9 B) := by
  unfold all9
  iintro ⟨#Hrec, H0, H1, H2, H3, H4, H5, H6, H7, H8⟩
  imod (h 0) $$ [H0] with G0
  · iframe # ∗
  imod (h 1) $$ [H1] with G1
  · iframe # ∗
  imod (h 2) $$ [H2] with G2
  · iframe # ∗
  imod (h 3) $$ [H3] with G3
  · iframe # ∗
  imod (h 4) $$ [H4] with G4
  · iframe # ∗
  imod (h 5) $$ [H5] with G5
  · iframe # ∗
  imod (h 6) $$ [H6] with G6
  · iframe # ∗
  imod (h 7) $$ [H7] with G7
  · iframe # ∗
  imod (h 8) $$ [H8] with G8
  · iframe # ∗
  imodintro
  iframe

theorem cells_closed : iprop(recs m K ∗ posAll c 1) ⊢ iprop(|={Set.univ}=> closedAll c) := by
  unfold posAll closedAll
  iintro ⟨#Hrec, -, Hsyn, Hstg, Hout, Hrest⟩
  imod (close_cell m K c .syn) $$ [Hsyn] with Gsyn
  · iframe # ∗
  imod (close_cell m K c .stg) $$ [Hstg] with Gstg
  · iframe # ∗
  imod (all9_upd m K (fun j => pos c (.out j) 1) (fun j => semVal (cell c (Role.out j).sem) 0) (fun j => close_cell m K c (.out j))) $$ [Hout] with Gout
  · iframe # ∗
  imod (all8_upd m K (fun i => iprop(pos c (.ysnd i) 1 ∗ pos c (.yrcv i) 1 ∗ pos c (.xsnd i) 1 ∗ pos c (.xrcv i) 1))
      (fun i => iprop(semVal (cell c (Role.ysnd i).sem) 0 ∗ semVal (cell c (Role.yrcv i).sem) 0 ∗ semVal (cell c (Role.xsnd i).sem) 0 ∗ semVal (cell c (Role.xrcv i).sem) 0))
      (fun i => close_four m K c i)) $$ [Hrest] with Grest
  · iframe # ∗
  imodintro
  iframe

theorem snd_back :
    (all8 (fun i => iprop(S m c i fullShare.left ∗ S m c i fullShare.right)) : sProp 𝕄) ⊢ wholeAt sndM c fullShare (sent m c) :=
  (all8_mono fun i => (chunk_halves sndM c i fullShare (sent m c)).2).trans (join8_same sndM c fullShare (sent m c)).1

theorem y_back : (all8 (Y m c) : sProp 𝕄) ⊢ wholeAt yrcM c fullShare (sent m (yp c)) := (join8_same yrcM c fullShare (sent m (yp c))).1
theorem x_back : (all8 (X m c) : sProp 𝕄) ⊢ wholeAt xrcM c fullShare (sums m (xn c)) := (join8_same xrcM c fullShare (sums m (xn c))).1
theorem ml_back : (all8 (fun i => M m c i fullShare.left) : sProp 𝕄) ⊢ wholeAt sumM c fullShare.left (sums m c) :=
  (join8_same sumM c fullShare.left (sums m c)).1

theorem finish : iprop(recs m K ∗ EndPieces m c) ⊢ iprop(|={Set.univ}=> Φ₁ m c) := by
  unfold EndPieces Φ₁ scratchAny Stg
  iintro ⟨#Hrec, Hstg, Hin, Hir, Hpos, Hsnd, Hy, Hx, Hml, Hmr, Hoo, Hoj⟩
  imod (cells_closed m K c) $$ [Hpos] with Hcl
  · iframe # ∗
  imodintro
  isplitl [Hin Hir]
  · iapply (in_split m c).2; iframe
  isplitl [Hoo Hoj]
  · iapply (out_join m c); iframe
  isplitr [Hcl]
  · isplitl [Hstg]; · iexists (staged m c); iexact Hstg
    isplitl [Hsnd]; · iexists (sent m c); iapply (snd_back m c) $$ Hsnd
    isplitl [Hy]; · iexists (sent m (yp c)); iapply (y_back m c) $$ Hy
    isplitl [Hx]; · iexists (sums m (xn c)); iapply (x_back m c) $$ Hx
    iexists (sums m c)
    iapply (whole_halves sumM c fullShare (sums m c)).2
    isplitl [Hml]; · iapply (ml_back m c) $$ Hml
    iexact Hmr
  iexact Hcl

/-- info: 'Cert.Kernel.AllReduce.part19' depends on axioms: [propext, Classical.choice, Quot.sound] -/
#guard_msgs in #print axioms part19
/-- info: 'Cert.Kernel.AllReduce.part20' depends on axioms: [propext, Classical.choice, Quot.sound] -/
#guard_msgs in #print axioms part20
/-- info: 'Cert.Kernel.AllReduce.part21' depends on axioms: [propext, Classical.choice, Quot.sound] -/
#guard_msgs in #print axioms part21

end Cert.Kernel.AllReduce

end
-- ==== Proof.Bits.Data.lean ====
import proofs.«900709_g7700000000000710_dist_ar_v7x_xyz2x2x4_y_m1024_n512_bf16_1_alg».proof.Proof.Bits.State

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owe c 18
    | ⟨_ + 1, _⟩ => 0

end Cert.Kernel.AllReduce

end
-- ==== Proof.Bits.Body.lean ====
import proofs.«900709_g7700000000000710_dist_ar_v7x_xyz2x2x4_y_m1024_n512_bf16_1_alg».proof.Proof.Bits.PartsA
import proofs.«900709_g7700000000000710_dist_ar_v7x_xyz2x2x4_y_m1024_n512_bf16_1_alg».proof.Proof.Bits.PartsB
import proofs.«900709_g7700000000000710_dist_ar_v7x_xyz2x2x4_y_m1024_n512_bf16_1_alg».proof.Proof.Bits.PartsC
import proofs.«900709_g7700000000000710_dist_ar_v7x_xyz2x2x4_y_m1024_n512_bf16_1_alg».proof.Proof.Bits.PartsD
import proofs.«900709_g7700000000000710_dist_ar_v7x_xyz2x2x4_y_m1024_n512_bf16_1_alg».proof.Proof.Bits.PartsE
import proofs.«900709_g7700000000000710_dist_ar_v7x_xyz2x2x4_y_m1024_n512_bf16_1_alg».proof.Proof.Bits.Data

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

theorem end_pay_out8 (c : Dev nD) : pay m (.out 8) c = iprop(OutOwn1 m c ∗ wholeAt sumM c fullShare.right (sums m c)) := rfl
theorem end_pay_out0 (c : Dev nD) : pay m (.out 0) c = iprop(OutJ1 m c 0 ∗ X m c 0) := rfl
theorem end_pay_out1 (c : Dev nD) : pay m (.out 1) c = iprop(OutJ1 m c 1 ∗ X m c 1) := rfl
theorem end_pay_out2 (c : Dev nD) : pay m (.out 2) c = iprop(OutJ1 m c 2 ∗ X m c 2) := rfl
theorem end_pay_out3 (c : Dev nD) : pay m (.out 3) c = iprop(OutJ1 m c 3 ∗ X m c 3) := rfl
theorem end_pay_out4 (c : Dev nD) : pay m (.out 4) c = iprop(OutJ1 m c 4 ∗ X m c 4) := rfl
theorem end_pay_out5 (c : Dev nD) : pay m (.out 5) c = iprop(OutJ1 m c 5 ∗ X m c 5) := rfl
theorem end_pay_out6 (c : Dev nD) : pay m (.out 6) c = iprop(OutJ1 m c 6 ∗ X m c 6) := rfl
theorem end_pay_out7 (c : Dev nD) : pay m (.out 7) c = iprop(OutJ1 m c 7 ∗ X m c 7) := rfl
theorem end_pay_ysnd (c : Dev nD) (i : Fin 8) : pay m (.ysnd i) c = S m c i fullShare.left := rfl
theorem end_pay_xsnd (c : Dev nD) (i : Fin 8) : pay m (.xsnd i) c = M m c i fullShare.left := rfl

set_option maxHeartbeats 4000000 in
set_option maxRecDepth 8000 in

theorem sound_body (K : Dev nD × SemLoc sig → ℕ) (c : Dev nD) (Kt : PUnit → sProp 𝕄) :
    iprop(recs m K ∗ levAts L lv ∗ posAll c 0 ∗ toksAll c ∗ crdAll c ∗ owesN c 18
        ∗ wholeAt inM c fullShare (xin m c) ∗ wholeAt outM c fullShare (out0 m c) ∗ scratchAny c
        ∗ ((Φ₁ m c ∗ owesN c 0) -∗ Kt ⟨⟩))
      ⊢ WP c (atBufs cc0_body) Kt := by
  unfold WP atBufs; rw [cc0_body_eq_skeleton]; unfold cc0_body_skel
  rw [k0_part22_eq_skeleton]; unfold k0_part22_skel
  simp only [Prog.lift, Prog.bind_op, Prog.bind_ret, Prog.pure_eq_ret, wp_bind]
  unfold posAll toksAll crdAll scratchAny all8 all9
  iintro ⟨#Hrec, #Hlev,
    ⟨HpB, HpS, HpG, ⟨Hpo0, Hpo1, Hpo2, Hpo3, Hpo4, Hpo5, Hpo6, Hpo7, Hpo8⟩,
      ⟨Hpys0, Hpyr0, Hpxs0, Hpxr0⟩, ⟨Hpys1, Hpyr1, Hpxs1, Hpxr1⟩, ⟨Hpys2, Hpyr2, Hpxs2, Hpxr2⟩, ⟨Hpys3, Hpyr3, Hpxs3, Hpxr3⟩,
      ⟨Hpys4, Hpyr4, Hpxs4, Hpxr4⟩, ⟨Hpys5, Hpyr5, Hpxs5, Hpxr5⟩, ⟨Hpys6, Hpyr6, Hpxs6, Hpxr6⟩, ⟨Hpys7, Hpyr7, Hpxs7, Hpxr7⟩⟩,
    ⟨HtB, HtS, HtG, ⟨Hto0, Hto1, Hto2, Hto3, Hto4, Hto5, Hto6, Hto7, Hto8⟩,
      ⟨Htys0, Htyr0, Htxs0, Htxr0⟩, ⟨Htys1, Htyr1, Htxs1, Htxr1⟩, ⟨Htys2, Htyr2, Htxs2, Htxr2⟩, ⟨Htys3, Htyr3, Htxs3, Htxr3⟩,
      ⟨Htys4, Htyr4, Htxs4, Htxr4⟩, ⟨Htys5, Htyr5, Htxs5, Htxr5⟩, ⟨Htys6, Htyr6, Htxs6, Htxr6⟩, ⟨Htys7, Htyr7, Htxs7, Htxr7⟩⟩,
    ⟨HcB, HcS, ⟨Hcyr0, Hcxr0⟩, ⟨Hcyr1, Hcxr1⟩, ⟨Hcyr2, Hcxr2⟩, ⟨Hcyr3, Hcxr3⟩, ⟨Hcyr4, Hcxr4⟩, ⟨Hcyr5, Hcxr5⟩, ⟨Hcyr6, Hcxr6⟩, ⟨Hcyr7, Hcxr7⟩⟩,
    HO, Hin, Hout, ⟨Hstg, Hsnd, Hyrc, Hxrc, Hsum⟩, Hk⟩

  ihave HSs := (split8_any sndM c) $$ Hsnd
  ihave HMs := (split8_any sumM c) $$ Hsum
  ihave Hin' := (in_split m c).1 $$ Hin
  ihave Hout' := (out_split m c).1 $$ Hout
  unfold all8
  icases HSs with ⟨HS0, HS1, HS2, HS3, HS4, HS5, HS6, HS7⟩
  icases HMs with ⟨HM0, HM1, HM2, HM3, HM4, HM5, HM6, HM7⟩
  icases Hin' with ⟨HinO, HinR⟩
  icases Hout' with ⟨HoutO, HoJ0, HoJ1, HoJ2, HoJ3, HoJ4, HoJ5, HoJ6, HoJ7⟩

  iapply (part1 m K c _)
  iframe Hrec Hlev
  isplitl [HO HtB HtS Hyrc Hxrc HinO Hstg HtG HpG HS0]
  · unfold P1 S0; iframe
  iintro %v2 %v5 %v8 %v9 %v10 %v29 HQ
  unfold Q1
  icases HQ with ⟨HO, Hstg, HinO, HpG, HS0⟩

  iapply (part2 m K c _ v29 rfl _)
  iframe Hrec Hlev
  isplitl [Hstg HS0 HS1 HS2 HS3 HS4 HS5 HS6]
  · unfold P2 S0; iframe
  iintro %v59 HQ
  unfold Q2
  icases HQ with ⟨Hstg, HS0, HS1, HS2, HS3, HS4, HS5, HS6⟩

  iapply (part3 m K c v2 v8 v9 v59 _)
  iframe Hrec Hlev
  isplitl [Hstg HS6 HS7 HS0 HcB HpB HO Htys0 Htyr0]
  · unfold P3 S0 Wt; iframe
  iintro HQ
  unfold Q3
  icases HQ with ⟨Hstg, HS6, HS7, HS0, HpB, ⟨HYe1, HYe2, HYe3, HYe4, HYe5, HYe6, HYe7⟩, Hcys0, HO⟩

  iapply (part4 m K c v2 v8 v9 _)
  iframe Hrec Hlev
  isplitl [HO HS1 HYe1 Htys1 Htyr1 HS2 HYe2 Htys2 Htyr2 HS3 HYe3 Htys3 Htyr3]
  · unfold P4 Psy; iframe
  iintro %_ HQ
  unfold Q4 Qsy
  icases HQ with ⟨HO, ⟨HS1, Hcys1⟩, ⟨HS2, Hcys2⟩, ⟨HS3, Hcys3⟩⟩

  iapply (part5 m K c v2 v8 v9 _)
  iframe Hrec Hlev
  isplitl [HO HS4 HYe4 Htys4 Htyr4 HS5 HYe5 Htys5 Htyr5 HS6 HYe6 Htys6 Htyr6]
  · unfold P5 Psy; iframe
  iintro %w5 HQ
  unfold Q5 Qsy
  icases HQ with ⟨HO, ⟨HS4, Hcys4⟩, ⟨HS5, Hcys5⟩, ⟨HS6, Hcys6⟩⟩

  iapply (part6 m K c v2 v8 v9 w5 _)
  iframe Hrec Hlev
  isplitl [HO HS7 HYe7 Htys7 Htyr7 HcS HpS Hcyr0 Hpyr0 HS0 HM0]
  · unfold P6 Psy Pad Wt M0; iframe
  iintro %w6 HQ
  unfold Q6 Qsy Qad all8
  icases HQ with ⟨HO, ⟨HS7, Hcys7⟩, HpS, ⟨HXe0, HXe1, HXe2, HXe3, HXe4, HXe5, HXe6, HXe7⟩, ⟨Hpyr0, HY0, HS0, HM0⟩⟩

  iapply (part7 m K c v2 v5 v8 v9 v10 w6 _)
  iframe Hrec Hlev
  isplitl [HO HM0 HXe0 Htxs0 Htxr0 Hcyr1 Hpyr1 HS1 HM1]
  · unfold Pxa Psx Pad Wt M0; iframe
  iintro %w7 HQ
  unfold Qxa Qsx Qad
  icases HQ with ⟨HO, ⟨HM0, Hcxs0⟩, ⟨Hpyr1, HY1, HS1, HM1⟩⟩

  iapply (part8 m K c v2 v5 v8 v9 v10 w7 _)
  iframe Hrec Hlev
  isplitl [HO HM1 HXe1 Htxs1 Htxr1 Hcyr2 Hpyr2 HS2 HM2]
  · unfold Pxa Psx Pad Wt M0; iframe
  iintro %w8 HQ
  unfold Qxa Qsx Qad
  icases HQ with ⟨HO, ⟨HM1, Hcxs1⟩, ⟨Hpyr2, HY2, HS2, HM2⟩⟩

  iapply (part9 m K c v2 v5 v8 v9 v10 w8 _)
  iframe Hrec Hlev
  isplitl [HO HM2 HXe2 Htxs2 Htxr2 Hcyr3 Hpyr3 HS3 HM3]
  · unfold Pxa Psx Pad Wt M0; iframe
  iintro %_ HQ
  unfold Qxa Qsx Qad
  icases HQ with ⟨HO, ⟨HM2, Hcxs2⟩, ⟨Hpyr3, HY3, HS3, HM3⟩⟩

  iapply (part10 m K c v2 v5 v8 v9 v10 _)
  iframe Hrec Hlev
  isplitl [HO HM3 HXe3 Htxs3 Htxr3 Hcyr4 Hpyr4 HS4 HM4]
  · unfold Pxa Psx Pad Wt M0; iframe
  iintro %_ HQ
  unfold Qxa Qsx Qad
  icases HQ with ⟨HO, ⟨HM3, Hcxs3⟩, ⟨Hpyr4, HY4, HS4, HM4⟩⟩

  iapply (part11 m K c v2 v5 v8 v9 v10 _)
  iframe Hrec Hlev
  isplitl [HO HM4 HXe4 Htxs4 Htxr4 Hcyr5 Hpyr5 HS5 HM5]
  · unfold Pxa Psx Pad Wt M0; iframe
  iintro %_ HQ
  unfold Qxa Qsx Qad
  icases HQ with ⟨HO, ⟨HM4, Hcxs4⟩, ⟨Hpyr5, HY5, HS5, HM5⟩⟩

  iapply (part12 m K c v2 v5 v8 v9 v10 _)
  iframe Hrec Hlev
  isplitl [HO HM5 HXe5 Htxs5 Htxr5 Hcyr6 Hpyr6 HS6 HM6]
  · unfold Pxa Psx Pad Wt M0; iframe
  iintro %_ HQ
  unfold Qxa Qsx Qad
  icases HQ with ⟨HO, ⟨HM5, Hcxs5⟩, ⟨Hpyr6, HY6, HS6, HM6⟩⟩

  iapply (part13 m K c v2 v5 v8 v9 v10 _)
  iframe Hrec Hlev
  isplitl [HO HM6 HXe6 Htxs6 Htxr6 Hcyr7 Hpyr7 HS7 HM7 HXe7 Htxs7 Htxr7]
  · unfold P13 Psx Pad Wt M0; iframe
  iintro %_ HQ
  unfold Q13 Qsx
  icases HQ with ⟨HO, ⟨HM6, Hcxs6⟩, Hpyr7, HY7, HS7, ⟨HM7, Hcxs7⟩⟩

  iapply (part14 m K c v2 v5 v8 v10 _)
  iframe Hrec Hlev
  isplitl [HO HM0 HM1 HM2 HM3 HM4 HM5 HM6 HM7 HoutO Hto8 Hcxr0 Hpxr0 HoJ0 Hto0]
  · unfold P14 Pod Wt all8; iframe
  iintro %v391 HQ
  unfold Q14 Qod
  icases HQ with ⟨HO, Hco8, ⟨Hpxr0, Hco0⟩⟩

  iapply (part15 m K c v5 v8 v10 v391 _)
  iframe Hrec Hlev
  isplitl [HO Hcxr1 Hpxr1 HoJ1 Hto1 Hcxr2 Hpxr2 HoJ2 Hto2]
  · unfold P15 Pod Wt; iframe
  iintro %_ HQ
  unfold Q15 Qod
  icases HQ with ⟨HO, ⟨Hpxr1, Hco1⟩, ⟨Hpxr2, Hco2⟩⟩

  iapply (part16 m K c v5 v8 v10 v391 _)
  iframe Hrec Hlev
  isplitl [HO Hcxr3 Hpxr3 HoJ3 Hto3 Hcxr4 Hpxr4 HoJ4 Hto4]
  · unfold P16 Pod Wt; iframe
  iintro %r16 HQ
  unfold Q16 Qod
  icases HQ with ⟨HO, ⟨Hpxr3, Hco3⟩, ⟨Hpxr4, Hco4⟩⟩

  iapply (part17 m K c v5 v8 v10 v391 r16.1 r16.2 _)
  iframe Hrec Hlev
  isplitl [HO Hcxr5 Hpxr5 HoJ5 Hto5 Hcxr6 Hpxr6 HoJ6 Hto6]
  · unfold P17 Pod Wt; iframe
  iintro %r17 HQ
  unfold Q17 Qod
  icases HQ with ⟨HO, ⟨Hpxr5, Hco5⟩, ⟨Hpxr6, Hco6⟩⟩

  iapply (part18 m K c v5 v8 v391 r17.1 r17.2 _)
  iframe Hrec Hlev
  isplitl [HO Hcxr7 Hpxr7 HoJ7 Hto7 Hpo8 Hco8 Hco0 Hpo0 Hco1 Hpo1 Hco2 Hpo2]
  · unfold P18 Pod Wt; iframe
  iintro %_ HQ
  unfold Q18 Qod Wd
  rw [end_pay_out8, end_pay_out0, end_pay_out1, end_pay_out2]
  icases HQ with ⟨HO, ⟨Hpxr7, Hco7⟩, ⟨Hpo8, HoutO, HsumR⟩, ⟨Hpo0, HoJ0, HX0⟩, ⟨Hpo1, HoJ1, HX1⟩, ⟨Hpo2, HoJ2, HX2⟩⟩

  iapply (part19 m K c _)
  iframe Hrec Hlev
  isplitl [HO Hco3 Hpo3 Hco4 Hpo4 Hco5 Hpo5 Hco6 Hpo6 Hco7 Hpo7 Hcys0 Hpys0]
  · unfold P19 Wt; iframe
  iintro %_ HQ
  unfold Q19 Wd
  rw [end_pay_out3, end_pay_out4, end_pay_out5, end_pay_out6, end_pay_out7]
  simp only [end_pay_ysnd, end_pay_xsnd]
  icases HQ with ⟨HO, ⟨Hpo3, HoJ3, HX3⟩, ⟨Hpo4, HoJ4, HX4⟩, ⟨Hpo5, HoJ5, HX5⟩, ⟨Hpo6, HoJ6, HX6⟩, ⟨Hpo7, HoJ7, HX7⟩, ⟨Hpys0, HSl0⟩⟩

  iapply (part20 m K c _)
  iframe Hrec Hlev
  isplitl [HO Hcxs0 Hpxs0 Hcys1 Hpys1 Hcxs1 Hpxs1 Hcys2 Hpys2 Hcxs2 Hpxs2]
  · unfold P20 Wt; iframe
  iintro %_ HQ
  unfold Q20 Wd
  simp only [end_pay_ysnd, end_pay_xsnd]
  icases HQ with ⟨HO, ⟨Hpxs0, HMl0⟩, ⟨Hpys1, HSl1⟩, ⟨Hpxs1, HMl1⟩, ⟨Hpys2, HSl2⟩, ⟨Hpxs2, HMl2⟩⟩

  iapply (part21 m K c _)
  iframe Hrec Hlev
  isplitl [HO Hcys3 Hpys3 Hcxs3 Hpxs3 Hcys4 Hpys4 Hcxs4 Hpxs4 Hcys5 Hpys5]
  · unfold P21 Wt; iframe
  iintro %_ HQ
  unfold Q21 Wd
  simp only [end_pay_ysnd, end_pay_xsnd]
  icases HQ with ⟨HO, ⟨Hpys3, HSl3⟩, ⟨Hpxs3, HMl3⟩, ⟨Hpys4, HSl4⟩, ⟨Hpxs4, HMl4⟩, ⟨Hpys5, HSl5⟩⟩

  iapply (wait_dma m K c (.xsnd 5) 0 (by decide)) $$ [HO Hcxs5 Hpxs5]
  · rfl
  · rfl
  · unfold Wt; iframe # ∗
  iintro ⟨HO, Hw⟩
  unfold Wd
  simp only [end_pay_ysnd, end_pay_xsnd]
  icases Hw with ⟨Hpxs5, HMl5⟩
  iapply (wait_dma m K c (.ysnd 6) 0 (by decide)) $$ [HO Hcys6 Hpys6]
  · rfl
  · rfl
  · unfold Wt; iframe # ∗
  iintro ⟨HO, Hw⟩
  unfold Wd
  simp only [end_pay_ysnd, end_pay_xsnd]
  icases Hw with ⟨Hpys6, HSl6⟩
  iapply (wait_dma m K c (.xsnd 6) 0 (by decide)) $$ [HO Hcxs6 Hpxs6]
  · rfl
  · rfl
  · unfold Wt; iframe # ∗
  iintro ⟨HO, Hw⟩
  unfold Wd
  simp only [end_pay_ysnd, end_pay_xsnd]
  icases Hw with ⟨Hpxs6, HMl6⟩
  unfold WP; rw [wp_ret]
  imodintro
  iapply (wait_dma m K c (.ysnd 7) 0 (by decide)) $$ [HO Hcys7 Hpys7]
  · rfl
  · rfl
  · unfold Wt; iframe # ∗
  iintro ⟨HO, Hw⟩
  unfold Wd
  simp only [end_pay_ysnd, end_pay_xsnd]
  icases Hw with ⟨Hpys7, HSl7⟩
  iapply (wait_dma m K c (.xsnd 7) 0 (by decide)) $$ [HO Hcxs7 Hpxs7]
  · rfl
  · rfl
  · unfold Wt; iframe # ∗
  iintro ⟨HO, Hw⟩
  unfold Wd
  simp only [end_pay_ysnd, end_pay_xsnd]
  icases Hw with ⟨Hpxs7, HMl7⟩

  imod (finish m K c) $$ [Hstg HinO HinR HpB HpS HpG Hpo0 Hpo1 Hpo2 Hpo3 Hpo4 Hpo5 Hpo6 Hpo7 Hpo8
      Hpys0 Hpyr0 Hpxs0 Hpxr0 Hpys1 Hpyr1 Hpxs1 Hpxr1 Hpys2 Hpyr2 Hpxs2 Hpxr2 Hpys3 Hpyr3 Hpxs3 Hpxr3
      Hpys4 Hpyr4 Hpxs4 Hpxr4 Hpys5 Hpyr5 Hpxs5 Hpxr5 Hpys6 Hpyr6 Hpxs6 Hpxr6 Hpys7 Hpyr7 Hpxs7 Hpxr7
      HSl0 HS0 HSl1 HS1 HSl2 HS2 HSl3 HS3 HSl4 HS4 HSl5 HS5 HSl6 HS6 HSl7 HS7
      HY0 HY1 HY2 HY3 HY4 HY5 HY6 HY7 HX0 HX1 HX2 HX3 HX4 HX5 HX6 HX7
      HMl0 HMl1 HMl2 HMl3 HMl4 HMl5 HMl6 HMl7 HsumR HoutO HoJ0 HoJ1 HoJ2 HoJ3 HoJ4 HoJ5 HoJ6 HoJ7] with HΦ
  · isplitr; · iexact Hrec
    unfold EndPieces posAll all8 all9
    beta_reduce
    iframe
  rw [wp_ret]
  imodintro
  iapply Hk
  iframe

theorem univ_W0 : (Finset.univ : Finset (Fin cfg0.W)) = ∅ := by decide

theorem body_obligation (c : Dev nD) : Pipeline.BodyObligationLoose (dats m 0 c) (defs₀ (F := F)) 𝒱₀ () Set.univ := fun t => by
  rw [fin_N t, univ_W0, bigSep_empty, bigSep_empty]
  show iprop(Φ₀ m c ∗ (dats m 0 c).owesAt () t₀.castSucc ∗ emp)
    ⊢ WP c (atBufs cc0_body)
        (fun _ => iprop(Φ₁ m c ∗ (dats m 0 c).owesAt () t₀.succ ∗ emp))
  unfold Φ₀ Dat.owesAt Pipeline.owesWithin
  rw [show (dats m 0 c).owed t₀.castSucc = owe c 18 from rfl, show (dats m 0 c).owed t₀.succ = 0 from rfl]
  iintro ⟨⟨⟨%K, Hrec, Hpos, Htok⟩, Hcrd, Hlev, Hin, Hout, Hscr⟩, ⟨%W, %hW, HO⟩, -⟩
  iapply (sound_body m K c fun _ => iprop(Φ₁ m c ∗ (∃ W, ⌜↑W ⊆ (dats m 0 c).bound () t₀.succ⌝ ∗ owes (c : Thread nD τ) 0 W) ∗ emp))
  isplitl [Hrec]; · iexact Hrec
  isplitl [Hlev]; · iexact Hlev
  isplitl [Hpos]; · iexact Hpos
  isplitl [Htok]; · iexact Htok
  isplitl [Hcrd]; · iexact Hcrd
  isplitl [HO]; · unfold owesN; iexists W; iexact HO
  isplitl [Hin]; · iexact Hin
  isplitl [Hout]; · iexact Hout
  isplitl [Hscr]; · iexact Hscr
  unfold owesN
  iintro ⟨HΦ, ⟨%W', HO⟩⟩
  isplitl [HΦ]; · iexact HΦ
  isplitl [HO]
  · iexists W'; isplitr; · ipureintro; exact fun _ _ => Or.inl trivial
    iexact HO
  iempintro

/-- info: 'Cert.Kernel.AllReduce.body_obligation' depends on axioms: [propext, Classical.choice, Quot.sound] -/
#guard_msgs in #print axioms body_obligation

end Cert.Kernel.AllReduce

end
-- ==== Proof.Bits.Launch.lean ====
import proofs.«900709_g7700000000000710_dist_ar_v7x_xyz2x2x4_y_m1024_n512_bf16_1_alg».proof.Proof.Bits.Data

noncomputable section

namespace Cert.Kernel.AllReduce

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem sep_assoc_eq (A B C : sProp 𝕄) : iprop((A ∗ B) ∗ C) = iprop(A ∗ B ∗ C) :=
  Std.Associative.assoc (op := (BI.sep : sProp 𝕄 → sProp 𝕄 → sProp 𝕄)) A B C

def restRoles (Φ : Role → sProp 𝕄) : sProp 𝕄 := iprop(Φ .syn ∗ Φ .stg ∗ all9 (fun j => Φ (.out j))
  ∗ all8 (fun i => iprop(Φ (.ysnd i) ∗ Φ (.yrcv i) ∗ Φ (.xsnd i) ∗ Φ (.xrcv i))))
def allRoles (Φ : Role → sProp 𝕄) : sProp 𝕄 := iprop(Φ .bar ∗ restRoles Φ)

def semList : List (SemLoc sig) := [Role.syn.sem, Role.stg.sem, (Role.out 0).sem, (Role.out 1).sem, (Role.out 2).sem, (Role.out 3).sem, (Role.out 4).sem, (Role.out 5).sem, (Role.out 6).sem, (Role.out 7).sem, (Role.out 8).sem, (Role.ysnd 0).sem, (Role.yrcv 0).sem, (Role.xsnd 0).sem, (Role.xrcv 0).sem, (Role.ysnd 1).sem, (Role.yrcv 1).sem, (Role.xsnd 1).sem, (Role.xrcv 1).sem, (Role.ysnd 2).sem, (Role.yrcv 2).sem, (Role.xsnd 2).sem, (Role.xrcv 2).sem, (Role.ysnd 3).sem, (Role.yrcv 3).sem, (Role.xsnd 3).sem, (Role.xrcv 3).sem, (Role.ysnd 4).sem, (Role.yrcv 4).sem, (Role.xsnd 4).sem, (Role.xrcv 4).sem, (Role.ysnd 5).sem, (Role.yrcv 5).sem, (Role.xsnd 5).sem, (Role.xrcv 5).sem, (Role.ysnd 6).sem, (Role.yrcv 6).sem, (Role.xsnd 6).sem, (Role.xrcv 6).sem, (Role.ysnd 7).sem, (Role.yrcv 7).sem, (Role.xsnd 7).sem, (Role.xrcv 7).sem]

theorem semList_univ : (Finset.univ.erase (SemLoc.reg barS) : Finset (SemLoc sig)) = semList.toFinset := by decide
theorem semList_nodup : (semList : List (SemLoc sig)).Nodup := by decide

omit [FloatOps F] in

theorem bigSep_rest (Ψ : SemLoc sig → sProp 𝕄) : bigSep (Finset.univ.erase (SemLoc.reg barS)) Ψ = restRoles (fun R => Ψ R.sem) := by
  rw [bigSep_eq_bigSepL_of_eq semList semList_univ semList_nodup]
  unfold restRoles all9 all8 semList
  simp only [bigSepL_cons_cons, bigSepL_singleton, sep_assoc_eq]
  rfl

omit [FloatOps F] in

theorem bigSep_roles (Ψ : SemLoc sig → sProp 𝕄) : bigSep Finset.univ Ψ = allRoles (fun R => Ψ R.sem) := by
  rw [bigSep_univ_at Ψ (SemLoc.reg barS), bigSep_rest]; rfl

theorem payDev_payDev (c : Dev nD) (j : ℕ) : payDev (payDev c j) j = c := by
  unfold payDev; split_ifs <;> first | rw [yp_yp] | rw [xn_xn]

omit [FloatOps F] in
theorem cred_pay (c : Dev nD) (j : ℕ) : (Pipeline.launchCred (fun d => payT d j) c : sProp 𝕄) ⊢ crd c (payRole j) :=
  Pipeline.launchCred_tallyAt (payRole j).sem (fun d => payDev d j) (fun d => payDev d j) (fun c => payDev_payDev c j) (fun c => payDev_payDev c j)
    () (payRole j).amount c

omit [FloatOps F] in
theorem launchCred_owe_succ (c : Dev nD) (n : ℕ) :
    (Pipeline.launchCred (fun d => owe d (n + 1)) c : sProp 𝕄) = iprop(Pipeline.launchCred (fun d => owe d n) c ∗ Pipeline.launchCred (fun d => payT d (17 - n)) c) :=
  Pipeline.launchCred_add (fun d => owe d n) (fun d => payT d (17 - n)) c

omit [FloatOps F] in
theorem creds (c : Dev nD) : (Pipeline.launchCred (fun d => owe d 18) c : sProp 𝕄) ⊢ crdAll c := by
  simp only [launchCred_owe_succ]
  unfold crdAll all8
  iintro ⟨⟨⟨⟨⟨⟨⟨⟨⟨⟨⟨⟨⟨⟨⟨⟨⟨⟨-, H17⟩, H16⟩, H15⟩, H14⟩, H13⟩, H12⟩, H11⟩, H10⟩, H9⟩, H8⟩, H7⟩, H6⟩, H5⟩, H4⟩, H3⟩, H2⟩, H1⟩, H0⟩
  isplitl [H0]; · iapply (cred_pay (F := F) c 0); iexact H0
  isplitl [H1]; · iapply (cred_pay (F := F) c 1); iexact H1
  isplitl [H2 H10]
  · isplitl [H2]; · iapply (cred_pay (F := F) c 2); iexact H2
    iapply (cred_pay (F := F) c 10); iexact H10
  isplitl [H3 H11]
  · isplitl [H3]; · iapply (cred_pay (F := F) c 3); iexact H3
    iapply (cred_pay (F := F) c 11); iexact H11
  isplitl [H4 H12]
  · isplitl [H4]; · iapply (cred_pay (F := F) c 4); iexact H4
    iapply (cred_pay (F := F) c 12); iexact H12
  isplitl [H5 H13]
  · isplitl [H5]; · iapply (cred_pay (F := F) c 5); iexact H5
    iapply (cred_pay (F := F) c 13); iexact H13
  isplitl [H6 H14]
  · isplitl [H6]; · iapply (cred_pay (F := F) c 6); iexact H6
    iapply (cred_pay (F := F) c 14); iexact H14
  isplitl [H7 H15]
  · isplitl [H7]; · iapply (cred_pay (F := F) c 7); iexact H7
    iapply (cred_pay (F := F) c 15); iexact H15
  isplitl [H8 H16]
  · isplitl [H8]; · iapply (cred_pay (F := F) c 8); iexact H8
    iapply (cred_pay (F := F) c 16); iexact H16
  isplitl [H9]; · iapply (cred_pay (F := F) c 9); iexact H9
  iapply (cred_pay (F := F) c 17); iexact H17

abbrev kcell (ds : Dev nD × SemLoc sig) : GSem nD τ sig := cell ds.1 ds.2
theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg Prod.snd h
  subst h1; subst h2; rfl
def allCells : Finset (GSem nD τ sig) := Finset.univ.map ⟨kcell, kcell_injective⟩

abbrev ktok (ds : Dev nD × SemLoc sig) : GSem nD τ sig × ℕ × Unit := (kcell ds, 0, ())
theorem ktok_injective : Function.Injective (ktok : Dev nD × SemLoc sig → GSem nD τ sig × ℕ × Unit) :=
  fun a b h => kcell_injective (congrArg Prod.fst h)
def allToks : Finset (GSem nD τ sig × ℕ × Unit) := Finset.univ.map ⟨ktok, ktok_injective⟩

def u₀ : UU :=
  (initOf (Pipeline.cells cfgs cellOf_inj) (Pipeline.launchToks cfgs cellOf_inj), initOf allCells allToks)

def G (c : Dev nD) : sProp 𝕄 :=
  iprop((bigSep Finset.univ fun sm : SemLoc sig => roundState ER (sched m) (kcell (c, sm)) 0)
    ∗ (bigSep Finset.univ fun sm : SemLoc sig => iprop(atPos ER (kcell (c, sm)) 0 ∅ 0 ∗ reached ER (kcell (c, sm)) 0))
    ∗ bigSep Finset.univ fun sm : SemLoc sig => dutyTok ER (kcell (c, sm)) 0 ())

def G' (c : Dev nD) : sProp 𝕄 := iprop(∃ K, recs m K ∗ posAll c 0 ∗ toksAll c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ (kcell (c, sm)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun sm : SemLoc sig => dutyTok ER (kcell (c, sm)) 0 () := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev OwnK : Type := {sm : SemLoc sig // sm ≠ SemLoc.reg barS}
abbrev osem : OwnK → SemLoc sig := Subtype.val

theorem scoped_of_ne : ∀ sm : SemLoc sig, sm ≠ SemLoc.reg barS → sm.isScoped .tc = true := by decide
theorem ownSemFacts : Pipeline.OwnSemFacts cfg0.spec osem :=
  ⟨fun k => scoped_of_ne k.1 k.2, Subtype.val_injective, fun k w s => w.elim0⟩

omit [FloatOps F] in
theorem ownSems0_rest (c : Dev nD) : (Pipeline.ownSems0 (Ix := Unit) (Name := ℕ) (U := UU) (Lvl := ℕ) (Val := Elt F) (τ := τ) osem c : sProp 𝕄)
    = bigSep (Finset.univ.erase (SemLoc.reg barS)) fun sm : SemLoc sig => semVal (kcell (c, sm)) 0 := by
  unfold Pipeline.ownSems0
  exact bigSep_subtype_ne (SemLoc.reg barS) (fun sm : SemLoc sig => (semVal (kcell (c, sm)) 0 : sProp 𝕄))
omit [FloatOps F] in
theorem ownSems0_eq (c : Dev nD) : (Pipeline.ownSems0 (Ix := Unit) (Name := ℕ) (U := UU) (Lvl := ℕ) (Val := Elt F) (τ := τ) osem c : sProp 𝕄) = closedAll c := by
  rw [ownSems0_rest, bigSep_rest]; rfl
omit [FloatOps F] in
theorem unscopedSems0_eq (c : Dev nD) : (unscopedSems0 c : sProp 𝕄) = semVal (kcell (c, SemLoc.reg barS)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [ownSems0_rest, unscopedSems0_eq, bigSep_univ_at (fun sm : SemLoc sig => (semVal (kcell (c, sm)) 0 : sProp 𝕄)) (SemLoc.reg barS)]
  iintro ⟨HS, HB⟩
  isplitl [HB] <;> iassumption

instance sched_payload_storable (g : GSem nD τ sig) (r : ℕ) (d : Unit) :
    BI.Storable (upEmb : UEmb _ 𝕄) ((sched (F := F) m).payload g r d) := by
  show BI.Storable upEmb (pay m (roleOf g.2) g.1.1)
  generalize roleOf g.2 = R
  cases R <;> dsimp only [pay] <;> (try split) <;> (try unfold chunkAt) <;> (try unfold wholeAt) <;> infer_instance

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (sched m) κ (kcell (c, sm))))
          ∗ (bigSep Finset.univ fun sm : SemLoc sig => iprop(atPos ER (kcell (c, sm)) 0 ∅ 0 ∗ reached ER (kcell (c, sm)) 0))
          ∗ bigSep Finset.univ fun sm : SemLoc sig => dutyTok ER (kcell (c, sm)) 0 ()) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (kcell (c, sm)) 0) ∗ bigSep Finset.univ fun sm : SemLoc sig => roundState ER (sched m) (kcell (c, sm)) 0)
      ⊢ (|={Set.univ}=> bigSep Finset.univ fun sm : SemLoc sig => iprop(∃ κ : ℕ, cellInv ER (sched m) κ (kcell (c, sm))) : sProp 𝕄) from by
        rw [← bigSep_sep']
        exact (bigSep_mono fun sm _ => (Rounds.body_intro ER (sched m) (kcell (c, sm))).trans inv_alloc).trans (bigSep_fupd _ _)) $$ [Hv Hst] with Hinv
  · isplitl [Hv] <;> iassumption
  imodintro
  iframe

theorem Role.payer_payer : ∀ (R : Role) (c : Dev nD), R.payer (R.payer c) = c
  | .bar, c => yp_yp c | .syn, c => xn_xn c | .stg, _ => rfl | .out _, _ => rfl
  | .ysnd _, _ => rfl | .yrcv _, c => yp_yp c | .xsnd _, _ => rfl | .xrcv _, c => xn_xn c

def payE : Dev nD × SemLoc sig ≃ Dev nD × SemLoc sig where
  toFun ds := ((roleOf ds.2).payer ds.1, ds.2)
  invFun ds := ((roleOf ds.2).payer ds.1, ds.2)
  left_inv ds := by rcases ds with ⟨c, sm⟩; exact Prod.ext (Role.payer_payer _ _) rfl
  right_inv ds := by rcases ds with ⟨c, sm⟩; exact Prod.ext (Role.payer_payer _ _) rfl

omit [FloatOps F] in

theorem toks_around :
    (bigSep Finset.univ fun c : Dev nD => bigSep Finset.univ fun sm : SemLoc sig => (dutyTok ER (kcell (c, sm)) 0 () : sProp 𝕄))
      = bigSep Finset.univ fun c : Dev nD => bigSep Finset.univ fun sm : SemLoc sig => dutyTok ER (kcell ((roleOf sm).payer c, sm)) 0 () := by
  rw [← bigSep_univ_prod (fun ds : Dev nD × SemLoc sig => (dutyTok ER (kcell ds) 0 () : sProp 𝕄)), bigSep_univ_equiv payE, bigSep_univ_prod]
  rfl

omit [FloatOps F] in
theorem toks_roles (c : Dev nD) :
    (bigSep Finset.univ fun sm : SemLoc sig => (dutyTok ER (kcell ((roleOf sm).payer c, sm)) 0 () : sProp 𝕄)) = toksAll c := by
  rw [bigSep_roles]
  have h : (fun R : Role => (dutyTok ER (kcell ((roleOf R.sem).payer c, R.sem)) 0 () : sProp 𝕄)) = fun R => tok (R.payer c) R :=
    funext fun R => by rw [roleOf_sem]; rfl
  rw [h]; rfl

omit [FloatOps F] in
theorem pos_roles (c : Dev nD) :
    (bigSep Finset.univ fun sm : SemLoc sig => (atPos ER (kcell (c, sm)) 0 ∅ 0 : sProp 𝕄)) = posAll c 0 := by
  rw [bigSep_roles]; rfl

theorem ghost_intro (K : Dev nD × SemLoc sig → ℕ) (c : Dev nD) :
    iprop(recs m K ∗ (bigSep Finset.univ fun sm : SemLoc sig => (atPos ER (kcell (c, sm)) 0 ∅ 0 : sProp 𝕄))
        ∗ bigSep Finset.univ fun sm : SemLoc sig => (dutyTok ER (kcell ((roleOf sm).payer c, sm)) 0 () : sProp 𝕄))
      ⊢ G' m c := by
  rw [pos_roles, toks_roles]
  unfold G'
  iintro ⟨HR, Hp, Ht⟩
  iexists K
  iframe

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (sched m) κ (kcell (c, sm))))
          ∗ (bigSep Finset.univ fun sm : SemLoc sig => iprop(atPos ER (kcell (c, sm)) 0 ∅ 0 ∗ reached ER (kcell (c, sm)) 0))
          ∗ bigSep Finset.univ fun sm : SemLoc sig => dutyTok ER (kcell (c, sm)) 0 ()) : sProp 𝕄)
      ⊢ bigSep Finset.univ (G' m) := by
  rw [bigSep_sep', bigSep_sep', ← bigSep_univ_prod (fun ds : Dev nD × SemLoc sig => iprop(∃ κ : ℕ, cellInv ER (sched m) κ (kcell ds))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ds : Dev nD × SemLoc sig => (reached ER (kcell ds) 0 : sProp 𝕄)), toks_around]
  iintro ⟨HI, ⟨Hat, #HR⟩, Htok⟩
  ihave HK := (BI.bigSep_exists_pi Finset.univ (fun (ds : Dev nD × SemLoc sig) (κ : ℕ) => (cellInv ER (sched m) κ (kcell ds) : sProp 𝕄))) $$ HI
  icases HK with ⟨%K, #HI⟩
  iapply (bigSep_with_persistent (R := recs m K) fun c _ => ghost_intro m K c)
  isplitr
  · unfold recs; isplitl; · iexact HI
    iexact HR
  · iapply (Entails.of_eq (bigSep_sep' Finset.univ (fun c : Dev nD => bigSep Finset.univ fun sm : SemLoc sig => (atPos ER (kcell (c, sm)) 0 ∅ 0 : sProp 𝕄))
      (fun c : Dev nD => bigSep Finset.univ fun sm : SemLoc sig => (dutyTok ER (kcell ((roleOf sm).payer c, sm)) 0 () : sProp 𝕄))).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem wholeAt_univ {sp : Space} {s : Shape} {e : EltTy} (B : Memref sig .tc sp s e) (h : B.view.set = Finset.univ) (d : Dev nD) (q : PosShare TreeShare)
    (f : Buf (Elt F) (B.view.loc (d : Thread nD τ))) : (wholeAt B d q f : sProp 𝕄) = (B.view.loc (d : Thread nD τ) ↦{q} f) := by
  unfold wholeAt; rw [h]

def Xl (c : Dev nD) : sProp 𝕄 := iprop(G' m c ∗ crdAll c ∗ levAts L lv ∗ wholeAt inM c fullShare (xin m c) ∗ wholeAt outM c fullShare (out0 m c))

def Yl (c : Dev nD) : sProp 𝕄 := iprop((((c : Thread nD τ).loc main_arg0) ↦{fullShare} xin m c) ∗ (((c : Thread nD τ).loc main_v1) ↦{fullShare} res m c))

theorem start_intro (c : Dev nD) :
    iprop(Pipeline.unscopedRestP Pipeline.Prefetch.none cfg0.spec c (fun b => m ((c : Thread nD τ).loc b)) ∗ levAts L lv
        ∗ Pipeline.launchCred (fun d => owe d 18) c ∗ prngReg c (ρ c) ∗ G' m c)
      ⊢ |={Set.univ}=> iprop(Xl m c ∗ emp) := by
  rw [Pipeline.unscopedRestP_none, unscopedRest0_eq]
  iintro ⟨⟨Hin, Hout⟩, Hlev, Hcr, -, HG⟩
  ihave Hc := (creds (F := F) c) $$ Hcr
  imodintro
  unfold Xl
  rw [wholeAt_univ inM (View.set_whole _), wholeAt_univ outM (View.set_whole _)]
  isplitl
  · isplitl [HG]; · iexact HG
    isplitl [Hc]; · iexact Hc
    isplitl [Hlev]; · iexact Hlev
    isplitl [Hin]; · iexact Hin
    iexact Hout
  · iempintro

theorem phi0_intro (c : Dev nD) :
    iprop(Xl m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xl G' scratchAny
  iintro ⟨⟨HG, Hc, Hlev, Hin, Hout⟩, -, ⟨%f0, H0⟩, ⟨%f1, H1⟩, ⟨%f2, H2⟩, ⟨%f3, H3⟩, ⟨%f4, H4⟩⟩
  iframe
  isplitl [H0]; · iexists f0; rw [wholeAt_univ stgM (View.set_whole _)]; iexact H0
  isplitl [H1]; · iexists f1; rw [wholeAt_univ sndM (View.set_whole _)]; iexact H1
  isplitl [H2]; · iexists f2; rw [wholeAt_univ yrcM (View.set_whole _)]; iexact H2
  isplitl [H3]; · iexists f3; rw [wholeAt_univ xrcM (View.set_whole _)]; iexact H3
  iexists f4; rw [wholeAt_univ sumM (View.set_whole _)]; iexact H4

theorem phi1_exit (c : Dev nD) :
    (dats m 0 c).Φ (Fin.last cfg0.N) ⊢ iprop(Yl m c ∗ Pipeline.ownSems0 osem c ∗ Pipeline.scopedRest cfg0.spec c) := by
  rw [show (dats m 0 c).Φ (Fin.last cfg0.N) = Φ₁ m c from rfl, scopedRest0_eq, ownSems0_eq]
  unfold Φ₁ Yl scratchAny
  rw [wholeAt_univ inM (View.set_whole _), wholeAt_univ outM (View.set_whole _)]
  iintro ⟨Hin, Hout, ⟨⟨%f0, H0⟩, ⟨%f1, H1⟩, ⟨%f2, H2⟩, ⟨%f3, H3⟩, ⟨%f4, H4⟩⟩, Hcl⟩
  iframe
  isplitl [H0]; · iexists f0; rw [← wholeAt_univ stgM (View.set_whole _)]; iexact H0
  isplitl [H1]; · iexists f1; rw [← wholeAt_univ sndM (View.set_whole _)]; iexact H1
  isplitl [H2]; · iexists f2; rw [← wholeAt_univ yrcM (View.set_whole _)]; iexact H2
  isplitl [H3]; · iexists f3; rw [← wholeAt_univ xrcM (View.set_whole _)]; iexact H3
  iexists f4; rw [← wholeAt_univ sumM (View.set_whole _)]; iexact H4

theorem waits (c : Dev nD) : (levAts L lv : sProp 𝕄) ⊢ Pipeline.cellsWaits cfgs (dats m) () 0 c :=
  Pipeline.cellsWaits_intro cfgs (dats m) () 0 c fun w s t => w.elim0

set_option maxRecDepth 8000 in

theorem run_main (hbody : ∀ c, Pipeline.BodyObligationLoose (dats m 0 c) (defs₀ (F := F)) 𝒱₀ () Set.univ) :
    θ_run defs (onTc (τ := τ) (main (F := F))) (s₀ m ρ)
      (fun r => ∀ c : Dev nD, r.2.mem ((c : Thread nD τ).loc main_v1) = res m c ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := fun c => owe c 18) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := Xl m) (Y := Yl m) (Z := fun _ => iprop(emp))
    (hX := start_intro m ρ) (hin := phi0_intro m) (hout := phi1_exit m)
    (QY := fun c s => s.mem ((c : Thread nD τ).loc main_v1) = res m c ∧ s.mem ((c : Thread nD τ).loc main_arg0) = m ((c : Thread nD τ).loc main_arg0))
    (hY := fun c s' => by
      unfold Yl
      iintro ⟨⟨Hin, Hout⟩, -, HSI⟩
      icombine HSI Hin gives %hin
      icombine HSI Hout gives %hout
      imodintro
      isplitr; · ipureintro; exact ⟨Buf.eq_of_forall_mem_univ hout, Buf.eq_of_forall_mem_univ hin⟩
      iexact HSI)
    (hQ := fun _ h c => (h c).2.2)

/-- info: 'Cert.Kernel.AllReduce.run_main' depends on axioms: [propext, Classical.choice, Quot.sound] -/
#guard_msgs in #print axioms run_main

end Cert.Kernel.AllReduce

end
-- ==== Proof.lean ====
import proofs.«900709_g7700000000000710_dist_ar_v7x_xyz2x2x4_y_m1024_n512_bf16_1_alg».proof.Defs
import proofs.«900709_g7700000000000710_dist_ar_v7x_xyz2x2x4_y_m1024_n512_bf16_1_alg».proof.Proof.Gen.Kernel
import proofs.«900709_g7700000000000710_dist_ar_v7x_xyz2x2x4_y_m1024_n512_bf16_1_alg».proof.Proof.Gen.KernelIdeal
import proofs.«900709_g7700000000000710_dist_ar_v7x_xyz2x2x4_y_m1024_n512_bf16_1_alg».proof.Proof.Gen.ReferenceIdeal
import proofs.«900709_g7700000000000710_dist_ar_v7x_xyz2x2x4_y_m1024_n512_bf16_1_alg».proof.Proof.Gen.Pre_finite_inputs_Kernel
import proofs.«900709_g7700000000000710_dist_ar_v7x_xyz2x2x4_y_m1024_n512_bf16_1_alg».proof.Proof.Gen.Pre_finite_inputs_ReferenceIdeal
import proofs.«900709_g7700000000000710_dist_ar_v7x_xyz2x2x4_y_m1024_n512_bf16_1_alg».proof.Proof.Body
import proofs.«900709_g7700000000000710_dist_ar_v7x_xyz2x2x4_y_m1024_n512_bf16_1_alg».proof.Proof.Launch
import proofs.«900709_g7700000000000710_dist_ar_v7x_xyz2x2x4_y_m1024_n512_bf16_1_alg».proof.Proof.RefValue
import proofs.«900709_g7700000000000710_dist_ar_v7x_xyz2x2x4_y_m1024_n512_bf16_1_alg».proof.Proof.Bits.Body
import proofs.«900709_g7700000000000710_dist_ar_v7x_xyz2x2x4_y_m1024_n512_bf16_1_alg».proof.Proof.Bits.Launch
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2)
    (Cert.Kernel.AllReduce.run_main (F := Bits) m ρ (Cert.Kernel.AllReduce.body_obligation (F := Bits) m))

theorem frame_ki : Cert.frame_KernelIdeal := fun m ρ _ =>
  (θ_run Cert.KernelIdeal.defs _ _).mono (fun _ h c => (h c).2)
    (Cert.KernelIdeal.AllReduce.run_main (F := Ideal) m ρ (Cert.KernelIdeal.AllReduce.body_obligation (F := Ideal) m))

/-- Both runs end in named terms of the inputs; `res_eq_vref` says the two terms agree on every device's block. -/
theorem algebraic : Cert.algebraic_KernelIdeal_ReferenceIdeal := by
  intro m g m' g' _ hagree
  refine ⟨Cert.KernelIdeal.AllReduce.Ref.vref m', ?_, Cert.KernelIdeal.AllReduce.Ref.ref_run m' g'⟩
  exact (θ_run Cert.KernelIdeal.defs _ _).mono
    (fun _ h c => ⟨(h c).1.trans (Cert.KernelIdeal.AllReduce.Ref.res_eq_vref m m' hagree c), (h c).2⟩)
    (Cert.KernelIdeal.AllReduce.run_main (F := Ideal) m g (Cert.KernelIdeal.AllReduce.body_obligation (F := Ideal) m))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdeal.AllReduce.Ref.frame_ri, trivial, algebraic⟩

end Cert.Proof

end
